-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_v150) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1600000 : Shape := ⟨2, ![2, 1600000]⟩
abbrev S1600000x1 : Shape := ⟨2, ![1600000, 1]⟩
abbrev S100000 : Shape := ⟨1, ![100000]⟩
abbrev S512x128 : Shape := ⟨2, ![512, 128]⟩
abbrev S128x1 : Shape := ⟨2, ![128, 1]⟩
abbrev S128 : Shape := ⟨1, ![128]⟩
abbrev S128x128 : Shape := ⟨2, ![128, 128]⟩
abbrev S128x256 : Shape := ⟨2, ![128, 256]⟩
abbrev S512 : Shape := ⟨1, ![512]⟩
abbrev S_ : Shape := ⟨0, ![]⟩
abbrev S1x1600000 : Shape := ⟨2, ![1, 1600000]⟩
abbrev S1600000 : Shape := ⟨1, ![1600000]⟩

class Facts : Prop where
  bcast_S_S1600000x1 : S_.BroadcastsInDim S1600000x1 (![] : Fin 0 → Fin S1600000x1.rank)
  reducesTo_S1600000x1_S_d0_1 : S1600000x1.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128x1 : S_.BroadcastsInDim S128x1 (![] : Fin 0 → Fin S128x1.rank)
  reducesTo_S128x1_S_d0_1 : S128x1.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S512 : S_.BroadcastsInDim S512 (![] : Fin 0 → Fin S512.rank)
  reducesTo_S512_S_d0 : S512.ReducesTo [0] S_
  bcast_S_S100000x1 : S_.BroadcastsInDim S100000x1 (![] : Fin 0 → Fin S100000x1.rank)
  reducesTo_S100000x1_S_d0_1 : S100000x1.ReducesTo [0, 1] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part8 {F : FTy → Type} [FloatOps F] (main_arg1 : IVec S2x1600000 32) (main_v135 : IVec S_ 1) (main_v136 : IVec S1x1600000 32) : IVec S_ 1 :=
  let main_v137 : IVec S1600000 32 := shapeCast S1600000 main_v136 shapeCasts_S1x1600000_S1600000
  let main_c_53 : IVec S_ 32 := constantI S_ 32 4294867296#32
  let main_v138 : IVec S1600000 32 := broadcastInDim S1600000 ![] bcast_S_S1600000 main_c_53
  let main_v139 : IVec S1600000 1 := cmpi .sge main_v137 main_v138
  let main_v140 : IVec S1x1600000 32 := (extractStridedSlice S1x1600000 ![0, 0] · slices_S2x1600000_S1x1600000_0_0) main_arg1
  let main_v141 : IVec S1600000 32 := shapeCast S1600000 main_v140 shapeCasts_S1x1600000_S1600000
  let main_c_54 : IVec S_ 32 := constantI S_ 32 100000#32
  let main_v142 : IVec S1600000 32 := broadcastInDim S1600000 ![] bcast_S_S1600000 main_c_54
  let main_v143 : IVec S1600000 1 := cmpi .slt main_v141 main_v142
  let main_v144 : IVec S1600000 1 := andi main_v139 main_v143
  let main_c_55 : IVec S_ 1 := constantI S_ 1 1#1
  let main_v145 : IVec S_ 1 := (fun x v => Host.reduce IntOp.andi x v reducesTo_S1600000_S_d0 h_S_) main_v144 main_c_55
  let main_v146 : IVec S_ 1 := andi main_v135 main_v145
  main_v146

def fn_part7 {F : FTy → Type} [FloatOps F] (main_arg0 : IVec S100000x1 32) (main_arg1 : IVec S2x1600000 32) (main_arg28 : FVec F S512 .f32) (main_v118 : IVec S_ 1) (main_v119 : FVec F S512x128 .f32) : IVec S_ 1 :=
  let main_cst_46 : FVec F S_ .f32 := constant S_ .f32 0x7F800000#32
  let main_v120 : FVec F S512x128 .f32 := broadcastInDim S512x128 ![] bcast_S_S512x128 main_cst_46
  let main_v121 : IVec S512x128 1 := cmpf .olt main_v119 main_v120
  let main_c_47 : IVec S_ 1 := constantI S_ 1 1#1
  let main_v122 : IVec S_ 1 := (fun x v => Host.reduce IntOp.andi x v reducesTo_S512x128_S_d0_1 h_S_) main_v121 main_c_47
  let main_v123 : IVec S_ 1 := andi main_v118 main_v122
  let main_v124 : FVec F S512 .f32 := Host.absf main_arg28
  let main_cst_48 : FVec F S_ .f32 := constant S_ .f32 0x7F800000#32
  let main_v125 : FVec F S512 .f32 := broadcastInDim S512 ![] bcast_S_S512 main_cst_48
  let main_v126 : IVec S512 1 := cmpf .olt main_v124 main_v125
  let main_c_49 : IVec S_ 1 := constantI S_ 1 1#1
  let main_v127 : IVec S_ 1 := (fun x v => Host.reduce IntOp.andi x v reducesTo_S512_S_d0 h_S_) main_v126 main_c_49
  let main_v128 : IVec S_ 1 := andi main_v123 main_v127
  let main_c_50 : IVec S_ 32 := constantI S_ 32 4294966784#32
  let main_v129 : IVec S100000x1 32 := broadcastInDim S100000x1 ![] bcast_S_S100000x1 main_c_50
  let main_v130 : IVec S100000x1 1 := cmpi .sge main_arg0 main_v129
  let main_c_51 : IVec S_ 32 := constantI S_ 32 512#32
  let main_v131 : IVec S100000x1 32 := broadcastInDim S100000x1 ![] bcast_S_S100000x1 main_c_51
  let main_v132 : IVec S100000x1 1 := cmpi .slt main_arg0 main_v131
  let main_v133 : IVec S100000x1 1 := andi main_v130 main_v132
  let main_c_52 : IVec S_ 1 := constantI S_ 1 1#1
  let main_v134 : IVec S_ 1 := (fun x v => Host.reduce IntOp.andi x v reducesTo_S100000x1_S_d0_1 h_S_) main_v133 main_c_52
  let main_v135 : IVec S_ 1 := andi main_v128 main_v134
  let main_v136 : IVec S1x1600000 32 := (extractStridedSlice S1x1600000 ![0, 0] · slices_S2x1600000_S1x1600000_0_0) main_arg1
  fn_part8 (F := F) main_arg1 main_v135 main_v136

def fn_part6 {F : FTy → Type} [FloatOps F] (main_arg0 : IVec S100000x1 32) (main_arg1 : IVec S2x1600000 32) (main_arg24 : FVec F S512 .f32) (main_arg25 : FVec F S128x256 .f32) (main_arg26 : FVec F S128 .f32) (main_arg27 : FVec F S512x128 .f32) (main_arg28 : FVec F S512 .f32) (main_v98 : IVec S_ 1) (main_v101 : IVec S512x128 1) (main_c_39 : IVec S_ 1) : IVec S_ 1 :=
  let main_v102 : IVec S_ 1 := (fun x v => Host.reduce IntOp.andi x v reducesTo_S512x128_S_d0_1 h_S_) main_v101 main_c_39
  let main_v103 : IVec S_ 1 := andi main_v98 main_v102
  let main_v104 : FVec F S512 .f32 := Host.absf main_arg24
  let main_cst_40 : FVec F S_ .f32 := constant S_ .f32 0x7F800000#32
  let main_v105 : FVec F S512 .f32 := broadcastInDim S512 ![] bcast_S_S512 main_cst_40
  let main_v106 : IVec S512 1 := cmpf .olt main_v104 main_v105
  let main_c_41 : IVec S_ 1 := constantI S_ 1 1#1
  let main_v107 : IVec S_ 1 := (fun x v => Host.reduce IntOp.andi x v reducesTo_S512_S_d0 h_S_) main_v106 main_c_41
  let main_v108 : IVec S_ 1 := andi main_v103 main_v107
  let main_v109 : FVec F S128x256 .f32 := Host.absf main_arg25
  let main_cst_42 : FVec F S_ .f32 := constant S_ .f32 0x7F800000#32
  let main_v110 : FVec F S128x256 .f32 := broadcastInDim S128x256 ![] bcast_S_S128x256 main_cst_42
  let main_v111 : IVec S128x256 1 := cmpf .olt main_v109 main_v110
  let main_c_43 : IVec S_ 1 := constantI S_ 1 1#1
  let main_v112 : IVec S_ 1 := (fun x v => Host.reduce IntOp.andi x v reducesTo_S128x256_S_d0_1 h_S_) main_v111 main_c_43
  let main_v113 : IVec S_ 1 := andi main_v108 main_v112
  let main_v114 : FVec F S128 .f32 := Host.absf main_arg26
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S512x128 .f32 := Host.absf main_arg27
  fn_part7 (F := F) main_arg0 main_arg1 main_arg28 main_v118 main_v119

def fn_part5 {F : FTy → Type} [FloatOps F] (main_arg0 : IVec S100000x1 32) (main_arg1 : IVec S2x1600000 32) (main_arg21 : FVec F S128x256 .f32) (main_arg22 : FVec F S128 .f32) (main_arg23 : FVec F S512x128 .f32) (main_arg24 : FVec F S512 .f32) (main_arg25 : FVec F S128x256 .f32) (main_arg26 : FVec F S128 .f32) (main_arg27 : FVec F S512x128 .f32) (main_arg28 : FVec F S512 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x256 .f32 := Host.absf main_arg21
  let main_cst_34 : FVec F S_ .f32 := constant S_ .f32 0x7F800000#32
  let main_v90 : FVec F S128x256 .f32 := broadcastInDim S128x256 ![] bcast_S_S128x256 main_cst_34
  let main_v91 : IVec S128x256 1 := cmpf .olt main_v89 main_v90
  let main_c_35 : IVec S_ 1 := constantI S_ 1 1#1
  let main_v92 : IVec S_ 1 := (fun x v => Host.reduce IntOp.andi x v reducesTo_S128x256_S_d0_1 h_S_) main_v91 main_c_35
  let main_v93 : IVec S_ 1 := andi main_v88 main_v92
  let main_v94 : FVec F S128 .f32 := Host.absf main_arg22
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S512x128 .f32 := Host.absf main_arg23
  let main_cst_38 : FVec F S_ .f32 := constant S_ .f32 0x7F800000#32
  let main_v100 : FVec F S512x128 .f32 := broadcastInDim S512x128 ![] bcast_S_S512x128 main_cst_38
  let main_v101 : IVec S512x128 1 := cmpf .olt main_v99 main_v100
  let main_c_39 : IVec S_ 1 := constantI S_ 1 1#1
  fn_part6 (F := F) main_arg0 main_arg1 main_arg24 main_arg25 main_arg26 main_arg27 main_arg28 main_v98 main_v101 main_c_39

def fn_part4 {F : FTy → Type} [FloatOps F] (main_arg0 : IVec S100000x1 32) (main_arg1 : IVec S2x1600000 32) (main_arg17 : FVec F S128 .f32) (main_arg18 : FVec F S128 .f32) (main_arg19 : FVec F S128x128 .f32) (main_arg20 : FVec F S128 .f32) (main_arg21 : FVec F S128x256 .f32) (main_arg22 : FVec F S128 .f32) (main_arg23 : FVec F S512x128 .f32) (main_arg24 : FVec F S512 .f32) (main_arg25 : FVec F S128x256 .f32) (main_arg26 : FVec F S128 .f32) (main_arg27 : FVec F S512x128 .f32) (main_arg28 : FVec F S512 .f32) (main_v63 : IVec S_ 1) (main_v67 : IVec S_ 1) : IVec S_ 1 :=
  let main_v68 : IVec S_ 1 := andi main_v63 main_v67
  let main_v69 : FVec F S128 .f32 := Host.absf main_arg17
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg18
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg19
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg20
  let main_cst_32 : FVec F S_ .f32 := constant S_ .f32 0x7F800000#32
  fn_part5 (F := F) main_arg0 main_arg1 main_arg21 main_arg22 main_arg23 main_arg24 main_arg25 main_arg26 main_arg27 main_arg28 main_v83 main_v84 main_cst_32

def fn_part3 {F : FTy → Type} [FloatOps F] (main_arg0 : IVec S100000x1 32) (main_arg1 : IVec S2x1600000 32) (main_arg14 : FVec F S128 .f32) (main_arg15 : FVec F S128x128 .f32) (main_arg16 : FVec F S128 .f32) (main_arg17 : FVec F S128 .f32) (main_arg18 : FVec F S128 .f32) (main_arg19 : FVec F S128x128 .f32) (main_arg20 : FVec F S128 .f32) (main_arg21 : FVec F S128x256 .f32) (main_arg22 : FVec F S128 .f32) (main_arg23 : FVec F S512x128 .f32) (main_arg24 : FVec F S512 .f32) (main_arg25 : FVec F S128x256 .f32) (main_arg26 : FVec F S128 .f32) (main_arg27 : FVec F S512x128 .f32) (main_arg28 : FVec F S512 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg15
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg0 main_arg1 main_arg17 main_arg18 main_arg19 main_arg20 main_arg21 main_arg22 main_arg23 main_arg24 main_arg25 main_arg26 main_arg27 main_arg28 main_v63 main_v67

def fn_part2 {F : FTy → Type} [FloatOps F] (main_arg0 : IVec S100000x1 32) (main_arg1 : IVec S2x1600000 32) (main_arg10 : FVec F S128 .f32) (main_arg11 : FVec F S128x128 .f32) (main_arg12 : FVec F S128 .f32) (main_arg13 : FVec F S128x1 .f32) (main_arg14 : FVec F S128 .f32) (main_arg15 : FVec F S128x128 .f32) (main_arg16 : FVec F S128 .f32) (main_arg17 : FVec F S128 .f32) (main_arg18 : FVec F S128 .f32) (main_arg19 : FVec F S128x128 .f32) (main_arg20 : FVec F S128 .f32) (main_arg21 : FVec F S128x256 .f32) (main_arg22 : FVec F S128 .f32) (main_arg23 : FVec F S512x128 .f32) (main_arg24 : FVec F S512 .f32) (main_arg25 : FVec F S128x256 .f32) (main_arg26 : FVec F S128 .f32) (main_arg27 : FVec F S512x128 .f32) (main_arg28 : FVec F S512 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg13
  let main_cst_18 : FVec F S_ .f32 := constant S_ .f32 0x7F800000#32
  let main_v50 : FVec F S128x1 .f32 := broadcastInDim S128x1 ![] bcast_S_S128x1 main_cst_18
  fn_part3 (F := F) main_arg0 main_arg1 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg0 : IVec S100000x1 32) (main_arg1 : IVec S2x1600000 32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128x1 .f32) (main_arg14 : FVec F S128 .f32) (main_arg15 : FVec F S128x128 .f32) (main_arg16 : FVec F S128 .f32) (main_arg17 : FVec F S128 .f32) (main_arg18 : FVec F S128 .f32) (main_arg19 : FVec F S128x128 .f32) (main_arg20 : FVec F S128 .f32) (main_arg21 : FVec F S128x256 .f32) (main_arg22 : FVec F S128 .f32) (main_arg23 : FVec F S512x128 .f32) (main_arg24 : FVec F S512 .f32) (main_arg25 : FVec F S128x256 .f32) (main_arg26 : FVec F S128 .f32) (main_arg27 : FVec F S512x128 .f32) (main_arg28 : FVec F S512 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg1 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : IVec S100000x1 32) (main_arg1 : IVec S2x1600000 32) (main_arg2 : FVec F S1600000x1 .f32) (main_arg3 : IVec S100000 32) (main_arg4 : FVec F S512x128 .f32) (main_arg5 : FVec F S128x1 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128x1 .f32) (main_arg14 : FVec F S128 .f32) (main_arg15 : FVec F S128x128 .f32) (main_arg16 : FVec F S128 .f32) (main_arg17 : FVec F S128 .f32) (main_arg18 : FVec F S128 .f32) (main_arg19 : FVec F S128x128 .f32) (main_arg20 : FVec F S128 .f32) (main_arg21 : FVec F S128x256 .f32) (main_arg22 : FVec F S128 .f32) (main_arg23 : FVec F S512x128 .f32) (main_arg24 : FVec F S512 .f32) (main_arg25 : FVec F S128x256 .f32) (main_arg26 : FVec F S128 .f32) (main_arg27 : FVec F S512x128 .f32) (main_arg28 : FVec F S512 .f32) : IVec S_ 1 :=
  let main_v0 : FVec F S1600000x1 .f32 := Host.absf main_arg2
  let main_cst : FVec F S_ .f32 := constant S_ .f32 0x7F800000#32
  let main_v1 : FVec F S1600000x1 .f32 := broadcastInDim S1600000x1 ![] bcast_S_S1600000x1 main_cst
  let main_v2 : IVec S1600000x1 1 := cmpf .olt main_v0 main_v1
  let main_c : IVec S_ 1 := constantI S_ 1 1#1
  let main_v3 : IVec S_ 1 := (fun x v => Host.reduce IntOp.andi x v reducesTo_S1600000x1_S_d0_1 h_S_) main_v2 main_c
  let main_v4 : FVec F S512x128 .f32 := Host.absf main_arg4
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128x1 .f32 := Host.absf main_arg5
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg1 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S100000x1 : Shape := ⟨2, ![100000, 1]⟩
abbrev S2x1600000 : Shape := ⟨2, ![2, 1600000]⟩
abbrev S1600000x1 : Shape := ⟨2, ![1600000, 1]⟩
abbrev S100000 : Shape := ⟨1, ![100000]⟩
abbrev S512x128 : Shape := ⟨2, ![512, 128]⟩
abbrev S128x1 : Shape := ⟨2, ![128, 1]⟩
abbrev S128 : Shape := ⟨1, ![128]⟩
abbrev S128x128 : Shape := ⟨2, ![128, 128]⟩
abbrev S128x256 : Shape := ⟨2, ![128, 256]⟩
abbrev S512 : Shape := ⟨1, ![512]⟩
abbrev S1x1600000 : Shape := ⟨2, ![1, 1600000]⟩
abbrev S1600000 : Shape := ⟨1, ![1600000]⟩
abbrev S_ : Shape := ⟨0, ![]⟩
abbrev S1 : Shape := ⟨1, ![1]⟩
abbrev S1x1 : Shape := ⟨2, ![1, 1]⟩
abbrev S100000x128 : Shape := ⟨2, ![100000, 128]⟩
abbrev S1600000x128 : Shape := ⟨2, ![1600000, 128]⟩
abbrev S1x128 : Shape := ⟨2, ![1, 128]⟩
abbrev S8000x128 : Shape := ⟨2, ![8000, 128]⟩
abbrev S8000x1 : Shape := ⟨2, ![8000, 1]⟩
abbrev S2x128 : Shape := ⟨2, ![2, 128]⟩
abbrev S5000x128 : Shape := ⟨2, ![5000, 128]⟩
abbrev S2048x128 : Shape := ⟨2, ![2048, 128]⟩
abbrev S2048x256 : Shape := ⟨2, ![2048, 256]⟩
abbrev S1x512 : Shape := ⟨2, ![1, 512]⟩
abbrev S2048x512 : Shape := ⟨2, ![2048, 512]⟩
abbrev S512x256 : Shape := ⟨2, ![512, 256]⟩
abbrev S512x512 : Shape := ⟨2, ![512, 512]⟩
abbrev S256x128 : Shape := ⟨2, ![256, 128]⟩
abbrev S128x512 : Shape := ⟨2, ![128, 512]⟩

abbrev nBuf : Space → Nat
  | .hbm => 146
  | .vmem => 66
  | .smem => 0
  | _ => 0

abbrev hbmTy0_0 (i : Nat) : BufTy := match i % 128 with
  | 0 => ⟨S100000x1, .i32⟩
  | 1 => ⟨S2x1600000, .i32⟩
  | 2 => ⟨S1600000x1, .f32⟩
  | 3 => ⟨S100000, .i32⟩
  | 4 => ⟨S512x128, .f32⟩
  | 5 => ⟨S128x1, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128x1, .f32⟩
  | 14 => ⟨S128, .f32⟩
  | 15 => ⟨S128x128, .f32⟩
  | 16 => ⟨S128, .f32⟩
  | 17 => ⟨S128, .f32⟩
  | 18 => ⟨S128, .f32⟩
  | 19 => ⟨S128x128, .f32⟩
  | 20 => ⟨S128, .f32⟩
  | 21 => ⟨S128x256, .f32⟩
  | 22 => ⟨S128, .f32⟩
  | 23 => ⟨S512x128, .f32⟩
  | 24 => ⟨S512, .f32⟩
  | 25 => ⟨S128x256, .f32⟩
  | 26 => ⟨S128, .f32⟩
  | 27 => ⟨S512x128, .f32⟩
  | 28 => ⟨S512, .f32⟩
  | 29 => ⟨S1x1600000, .i32⟩
  | 30 => ⟨S1600000, .i32⟩
  | 31 => ⟨S1x1600000, .i32⟩
  | 32 => ⟨S1600000, .i32⟩
  | 33 => ⟨S100000, .i32⟩
  | 34 => ⟨S_, .i32⟩
  | 35 => ⟨S100000, .i32⟩
  | 36 => ⟨S100000, .i1⟩
  | 37 => ⟨S_, .i32⟩
  | 38 => ⟨S100000, .i32⟩
  | 39 => ⟨S100000, .i32⟩
  | 40 => ⟨S100000, .i32⟩
  | 41 => ⟨S100000x1, .i32⟩
  | 42 => ⟨S1, .i32⟩
  | 43 => ⟨S_, .i32⟩
  | 44 => ⟨S100000x1, .i32⟩
  | 45 => ⟨S100000x1, .i1⟩
  | 46 => ⟨S1x1, .i32⟩
  | 47 => ⟨S100000x1, .i32⟩
  | 48 => ⟨S100000x1, .i1⟩
  | 49 => ⟨S100000x1, .i1⟩
  | 50 => ⟨S_, .i1⟩
  | 51 => ⟨S100000, .i1⟩
  | 52 => ⟨S100000x128, .f32⟩
  | 53 => ⟨S100000x128, .i1⟩
  | 54 => ⟨S_, .f32⟩
  | 55 => ⟨S100000x128, .f32⟩
  | 56 => ⟨S100000x128, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1, .i32⟩
  | 66 => ⟨S_, .i32⟩
  | 67 => ⟨S1600000x1, .i32⟩
  | 68 => ⟨S1600000x1, .i1⟩
  | 69 => ⟨S1x1, .i32⟩
  | 70 => ⟨S1600000x1, .i32⟩
  | 71 => ⟨S1600000x1, .i1⟩
  | 72 => ⟨S1600000x1, .i1⟩
  | 73 => ⟨S_, .i1⟩
  | 74 => ⟨S1600000, .i1⟩
  | 75 => ⟨S1600000x128, .f32⟩
  | 76 => ⟨S1600000x128, .i1⟩
  | 77 => ⟨S_, .f32⟩
  | 78 => ⟨S1600000x128, .f32⟩
  | 79 => ⟨S1600000x128, .f32⟩
  | 80 => ⟨S1x128, .f32⟩
  | 81 => ⟨S1x128, .f32⟩
  | 82 => ⟨S1600000x128, .f32⟩
  | 83 => ⟨S_, .f32⟩
  | 84 => ⟨S100000x128, .f32⟩
  | 85 => ⟨S1600000x1, .i32⟩
  | 86 => ⟨S100000x128, .f32⟩
  | 87 => ⟨S1x128, .f32⟩
  | 88 => ⟨S1x128, .f32⟩
  | 89 => ⟨S1x128, .f32⟩
  | 90 => ⟨S1x128, .f32⟩
  | 91 => ⟨S100000x128, .f32⟩
  | 92 => ⟨S2x128, .f32⟩
  | 93 => ⟨S100000x128, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1, .i32⟩
  | 103 => ⟨S_, .i32⟩
  | 104 => ⟨S1600000x1, .i32⟩
  | 105 => ⟨S1600000x1, .i1⟩
  | 106 => ⟨S1x1, .i32⟩
  | 107 => ⟨S1600000x1, .i32⟩
  | 108 => ⟨S1600000x1, .i1⟩
  | 109 => ⟨S1600000x1, .i1⟩
  | 110 => ⟨S_, .i1⟩
  | 111 => ⟨S1600000, .i1⟩
  | 112 => ⟨S1600000x128, .f32⟩
  | 113 => ⟨S1600000x128, .i1⟩
  | 114 => ⟨S_, .f32⟩
  | 115 => ⟨S1600000x128, .f32⟩
  | 116 => ⟨S1600000x128, .f32⟩
  | 117 => ⟨S1x128, .f32⟩
  | 118 => ⟨S1x128, .f32⟩
  | 119 => ⟨S1600000x128, .f32⟩
  | 120 => ⟨S_, .f32⟩
  | 121 => ⟨S100000x128, .f32⟩
  | 122 => ⟨S1600000x1, .i32⟩
  | 123 => ⟨S100000x128, .f32⟩
  | 124 => ⟨S1x128, .f32⟩
  | 125 => ⟨S1x128, .f32⟩
  | 126 => ⟨S1x128, .f32⟩
  | 127 => ⟨S1x128, .f32⟩
  | _ => ⟨S100000x1, .i32⟩

abbrev hbmTy0_1 (i : Nat) : BufTy := match i % 128 with
  | 0 => ⟨S100000x128, .f32⟩
  | 1 => ⟨S2x128, .f32⟩
  | 2 => ⟨S100000x128, .f32⟩
  | 3 => ⟨S_, .f32⟩
  | 4 => ⟨S2048x128, .f32⟩
  | 5 => ⟨S100000x1, .i32⟩
  | 6 => ⟨S2048x128, .f32⟩
  | 7 => ⟨S_, .f32⟩
  | 8 => ⟨S2048x128, .f32⟩
  | 9 => ⟨S100000x1, .i32⟩
  | 10 => ⟨S2048x128, .f32⟩
  | 11 => ⟨S2048x256, .f32⟩
  | 12 => ⟨S1x128, .f32⟩
  | 13 => ⟨S1x512, .f32⟩
  | 14 => ⟨S1x128, .f32⟩
  | 15 => ⟨S1x512, .f32⟩
  | 16 => ⟨S2048x512, .f32⟩
  | 17 => ⟨S2048x512, .f32⟩
  | _ => ⟨S100000x1, .i32⟩

abbrev hbmTy (i : Nat) : BufTy := match i / 128 with
  | 0 => hbmTy0_0 i
  | 1 => hbmTy0_1 i
  | _ => ⟨S100000x1, .i32⟩

abbrev bufTy : (tb : Table) → Fin (tcTables nBuf tb) → BufTy
  | .hbm, ⟨i, _⟩ => hbmTy i
  | .local _ .vmem, ⟨0, _⟩ => ⟨S8000x128, .f32⟩
  | .local _ .vmem, ⟨1, _⟩ => ⟨S8000x128, .f32⟩
  | .local _ .vmem, ⟨2, _⟩ => ⟨S8000x1, .f32⟩
  | .local _ .vmem, ⟨3, _⟩ => ⟨S8000x1, .f32⟩
  | .local _ .vmem, ⟨4, _⟩ => ⟨S1x128, .f32⟩
  | .local _ .vmem, ⟨5, _⟩ => ⟨S1x128, .f32⟩
  | .local _ .vmem, ⟨6, _⟩ => ⟨S8000x128, .f32⟩
  | .local _ .vmem, ⟨7, _⟩ => ⟨S8000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S2x128, .f32⟩
  | .local _ .vmem, ⟨17, _⟩ => ⟨S5000x128, .f32⟩
  | .local _ .vmem, ⟨18, _⟩ => ⟨S5000x128, .f32⟩
  | .local _ .vmem, ⟨19, _⟩ => ⟨S2x128, .f32⟩
  | .local _ .vmem, ⟨20, _⟩ => ⟨S1x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S8000x128, .f32⟩
  | .local _ .vmem, ⟨27, _⟩ => ⟨S8000x128, .f32⟩
  | .local _ .vmem, ⟨28, _⟩ => ⟨S8000x1, .f32⟩
  | .local _ .vmem, ⟨29, _⟩ => ⟨S8000x1, .f32⟩
  | .local _ .vmem, ⟨30, _⟩ => ⟨S1x128, .f32⟩
  | .local _ .vmem, ⟨31, _⟩ => ⟨S1x128, .f32⟩
  | .local _ .vmem, ⟨32, _⟩ => ⟨S8000x128, .f32⟩
  | .local _ .vmem, ⟨33, _⟩ => ⟨S8000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S2x128, .f32⟩
  | .local _ .vmem, ⟨43, _⟩ => ⟨S5000x128, .f32⟩
  | .local _ .vmem, ⟨44, _⟩ => ⟨S5000x128, .f32⟩
  | .local _ .vmem, ⟨45, _⟩ => ⟨S2x128, .f32⟩
  | .local _ .vmem, ⟨46, _⟩ => ⟨S1x128, .f32⟩
  | .local _ .vmem, ⟨47, _⟩ => ⟨S1x128, .f32⟩
  | .local _ .vmem, ⟨48, _⟩ => ⟨S128x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S512x256, .f32⟩
  | .local _ .vmem, ⟨53, _⟩ => ⟨S512x256, .f32⟩
  | .local _ .vmem, ⟨54, _⟩ => ⟨S128x256, .f32⟩
  | .local _ .vmem, ⟨55, _⟩ => ⟨S1x128, .f32⟩
  | .local _ .vmem, ⟨56, _⟩ => ⟨S512x128, .f32⟩
  | .local _ .vmem, ⟨57, _⟩ => ⟨S1x512, .f32⟩
  | .local _ .vmem, ⟨58, _⟩ => ⟨S128x256, .f32⟩
  | .local _ .vmem, ⟨59, _⟩ => ⟨S1x128, .f32⟩
  | .local _ .vmem, ⟨60, _⟩ => ⟨S512x128, .f32⟩
  | .local _ .vmem, ⟨61, _⟩ => ⟨S1x512, .f32⟩
  | .local _ .vmem, ⟨62, _⟩ => ⟨S512x512, .f32⟩
  | .local _ .vmem, ⟨63, _⟩ => ⟨S512x512, .f32⟩
  | .local _ .vmem, ⟨64, _⟩ => ⟨S512x512, .f32⟩
  | .local _ .vmem, ⟨65, _⟩ => ⟨S512x512, .f32⟩
  | _, _ => ⟨S100000x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_cst : Ref sig .tc := ⟨.hbm, 54, rfl⟩
abbrev main_call0_v15 : Ref sig .tc := ⟨.hbm, 55, rfl⟩
abbrev main_v5 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v6 : Ref sig .tc := ⟨.hbm, 79, rfl⟩
abbrev main_v7 : Ref sig .tc := ⟨.hbm, 80, rfl⟩
abbrev main_v8 : Ref sig .tc := ⟨.hbm, 81, rfl⟩
abbrev main_v9 : Ref sig .tc := ⟨.hbm, 82, rfl⟩
abbrev main_cst : Ref sig .tc := ⟨.hbm, 83, rfl⟩
abbrev main_v10 : Ref sig .tc := ⟨.hbm, 84, rfl⟩
abbrev main_v11 : Ref sig .tc := ⟨.hbm, 85, rfl⟩
abbrev main_v12 : Ref sig .tc := ⟨.hbm, 86, rfl⟩
abbrev main_v13 : Ref sig .tc := ⟨.hbm, 87, rfl⟩
abbrev main_v14 : Ref sig .tc := ⟨.hbm, 88, rfl⟩
abbrev main_v15 : Ref sig .tc := ⟨.hbm, 89, rfl⟩
abbrev main_v16 : Ref sig .tc := ⟨.hbm, 90, rfl⟩
abbrev main_v17_0 : Ref sig .tc := ⟨.hbm, 91, rfl⟩
abbrev main_v17_1 : Ref sig .tc := ⟨.hbm, 92, rfl⟩
abbrev main_v18 : Ref sig .tc := ⟨.hbm, 93, rfl⟩
abbrev main_call2_c : Ref sig .tc := ⟨.hbm, 94, rfl⟩
abbrev main_call2_v0 : Ref sig .tc := ⟨.hbm, 95, rfl⟩
abbrev main_call2_v1 : Ref sig .tc := ⟨.hbm, 96, rfl⟩
abbrev main_call2_c_0 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_v5 : Ref sig .tc := ⟨.hbm, 101, rfl⟩
abbrev main_call2_c_1 : Ref sig .tc := ⟨.hbm, 102, rfl⟩
abbrev main_call2_c_2 : Ref sig .tc := ⟨.hbm, 103, rfl⟩
abbrev main_call2_v6 : Ref sig .tc := ⟨.hbm, 104, rfl⟩
abbrev main_call2_v7 : Ref sig .tc := ⟨.hbm, 105, rfl⟩
abbrev main_call2_v8 : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_c_3 : Ref sig .tc := ⟨.hbm, 110, rfl⟩
abbrev main_call2_v12 : Ref sig .tc := ⟨.hbm, 111, rfl⟩
abbrev main_call2_v13 : Ref sig .tc := ⟨.hbm, 112, rfl⟩
abbrev main_call2_v14 : Ref sig .tc := ⟨.hbm, 113, rfl⟩
abbrev main_call2_cst : Ref sig .tc := ⟨.hbm, 114, rfl⟩
abbrev main_call2_v15 : Ref sig .tc := ⟨.hbm, 115, rfl⟩
abbrev main_v19 : Ref sig .tc := ⟨.hbm, 116, rfl⟩
abbrev main_v20 : Ref sig .tc := ⟨.hbm, 117, rfl⟩
abbrev main_v21 : Ref sig .tc := ⟨.hbm, 118, rfl⟩
abbrev main_v22 : Ref sig .tc := ⟨.hbm, 119, rfl⟩
abbrev main_cst_0 : Ref sig .tc := ⟨.hbm, 120, rfl⟩
abbrev main_v23 : Ref sig .tc := ⟨.hbm, 121, rfl⟩
abbrev main_v24 : Ref sig .tc := ⟨.hbm, 122, rfl⟩
abbrev main_v25 : Ref sig .tc := ⟨.hbm, 123, rfl⟩
abbrev main_v26 : Ref sig .tc := ⟨.hbm, 124, rfl⟩
abbrev main_v27 : Ref sig .tc := ⟨.hbm, 125, rfl⟩
abbrev main_v28 : Ref sig .tc := ⟨.hbm, 126, rfl⟩
abbrev main_v29 : Ref sig .tc := ⟨.hbm, 127, rfl⟩
abbrev main_v30_0 : Ref sig .tc := ⟨.hbm, 128, rfl⟩
abbrev main_v30_1 : Ref sig .tc := ⟨.hbm, 129, rfl⟩
abbrev main_v31 : Ref sig .tc := ⟨.hbm, 130, rfl⟩
abbrev main_cst_1 : Ref sig .tc := ⟨.hbm, 131, rfl⟩
abbrev main_v32 : Ref sig .tc := ⟨.hbm, 132, rfl⟩
abbrev main_v33 : Ref sig .tc := ⟨.hbm, 133, rfl⟩
abbrev main_v34 : Ref sig .tc := ⟨.hbm, 134, rfl⟩
abbrev main_cst_2 : Ref sig .tc := ⟨.hbm, 135, rfl⟩
abbrev main_v35 : Ref sig .tc := ⟨.hbm, 136, rfl⟩
abbrev main_v36 : Ref sig .tc := ⟨.hbm, 137, rfl⟩
abbrev main_v37 : Ref sig .tc := ⟨.hbm, 138, rfl⟩
abbrev main_v38 : Ref sig .tc := ⟨.hbm, 139, rfl⟩
abbrev main_v39 : Ref sig .tc := ⟨.hbm, 140, rfl⟩
abbrev main_v40 : Ref sig .tc := ⟨.hbm, 141, rfl⟩
abbrev main_v41 : Ref sig .tc := ⟨.hbm, 142, rfl⟩
abbrev main_v42 : Ref sig .tc := ⟨.hbm, 143, rfl⟩
abbrev main_v43_0 : Ref sig .tc := ⟨.hbm, 144, rfl⟩
abbrev main_v43_1 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg4_1 : Ref sig .tc := ⟨.vmem, 41, rfl⟩
abbrev cc4_stg5_0 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg6_0 : Ref sig .tc := ⟨.vmem, 50, rfl⟩
abbrev cc5_stg6_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg4_0 : Ref sig .tc := ⟨.vmem, 57, rfl⟩
abbrev cc6_stg5_0 : Ref sig .tc := ⟨.vmem, 58, rfl⟩
abbrev cc6_stg6_0 : Ref sig .tc := ⟨.vmem, 59, rfl⟩
abbrev cc6_stg7_0 : Ref sig .tc := ⟨.vmem, 60, rfl⟩
abbrev cc6_stg8_0 : Ref sig .tc := ⟨.vmem, 61, rfl⟩
abbrev cc6_stg9_0 : Ref sig .tc := ⟨.vmem, 62, rfl⟩
abbrev cc6_stg9_1 : Ref sig .tc := ⟨.vmem, 63, rfl⟩
abbrev cc6_stg10_0 : Ref sig .tc := ⟨.vmem, 64, rfl⟩
abbrev cc6_stg10_1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem4_1 : DmaSem sig := 41
abbrev cc4_sem5_0 : DmaSem sig := 42
abbrev cc5_sem0_0 : DmaSem sig := 43
abbrev cc5_sem0_1 : DmaSem sig := 44
abbrev cc5_sem1_0 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem6_0 : DmaSem sig := 50
abbrev cc5_sem6_1 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem4_0 : DmaSem sig := 57
abbrev cc6_sem5_0 : DmaSem sig := 58
abbrev cc6_sem6_0 : DmaSem sig := 59
abbrev cc6_sem7_0 : DmaSem sig := 60
abbrev cc6_sem8_0 : DmaSem sig := 61
abbrev cc6_sem9_0 : DmaSem sig := 62
abbrev cc6_sem9_1 : DmaSem sig := 63
abbrev cc6_sem10_0 : DmaSem sig := 64
abbrev cc6_sem10_1 : DmaSem sig := 65

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S8000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S2x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_10 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x512 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S512x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x512 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S512x512 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev stage6_10 : Fin 2 → Memref sig .tc .vmem S512x512 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x128_0 : S100000.BroadcastsInDim S100000x128 (![0] : Fin 1 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1x1_S1600000x1_0_1 : S1x1.BroadcastsInDim S1600000x1 (![0, 1] : Fin 2 → Fin S1600000x1.rank)
  reducesTo_S1600000x1_S1600000_d1 : S1600000x1.ReducesTo [1] S1600000
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  shapeCasts_S128x1_S1x128 : S128x1.ShapeCasts S1x128
  shapeCasts_S128_S1x128 : S128.ShapeCasts S1x128
  inb_S8000x1_S8000x1_0_0 : ∀ a, (![0, 0] : Fin 2 → Nat) a + S8000x1.size a ≤ S8000x1.size a
  h_S8000x1 : 0 < S8000x1.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S8000x1_S8000x128 : S8000x1.Broadcasts S8000x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S2x128_S2x128_0_0 : ∀ a, (![0, 0] : Fin 2 → Nat) a + S2x128.size a ≤ S2x128.size a
  h_S2x128 : 0 < S2x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  broadcasts_S1x128_S5000x128 : S1x128.Broadcasts S5000x128
  reduces_S5000x128_S128 : S5000x128.Reduces [0] S128
  inb_S2x128_S1x128_0_0 : ∀ a, (![0, 0] : Fin 2 → Nat) a + S1x128.size a ≤ S2x128.size a
  inb_S2x128_S1x128_1_0 : ∀ a, (![1, 0] : Fin 2 → Nat) a + S1x128.size a ≤ S2x128.size a
  bcast_S_S2048x128 : S_.BroadcastsInDim S2048x128 (![] : Fin 0 → Fin S2048x128.rank)
  concatenates_S2048x128_S2048x128_S2048x256_d1 : Shape.Concatenates [S2048x128, S2048x128] S2048x256 1
  shapeCasts_S512_S1x512 : S512.ShapeCasts S1x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  broadcasts_S1x128_S512x128 : S1x128.Broadcasts S512x128
  inb_S512x128_S512x128_0_0 : ∀ a, (![0, 0] : Fin 2 → Nat) a + S512x128.size a ≤ S512x128.size a
  h_S512x128 : 0 < S512x128.numel
  transposes_S512x128_p1_0_S128x512 : S512x128.Transposes [1, 0] S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  gather_S512x128_S100000x1_S100000x128_1_0_n_n_0_1_1128_wf : GatherDims.WF S512x128 S100000x1 S100000x128 [1] [0] [] [0] [] 1 ![1, 128]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S2048x128_S100000x1_S100000x128_1_0_0_1_wf : ScatterDims.WF S2048x128 S100000x1 S100000x128 [1] [0] [0] 1
  dot_S512x256_S256x128_S512x128_1_0_0_1_n_n_wf : DotDims.WF S512x256 S256x128 S512x128 [1] [0] [0] [1] [] []
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S1600000x128.size a
  hwx0_0 : ∀ i : grid0.Coords, EltTy.bits .f32 = 32 ∨ (Rect.block (s := S1600000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S1600000x1.size a
  hwx0_1 : ∀ i : grid0.Coords, EltTy.bits .f32 = 32 ∨ (Rect.block (s := S1600000x1) S8000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x128.size a ≤ S1600000x128.size a
  hwx0_4 : ∀ i : grid0.Coords, EltTy.bits .f32 = 32 ∨ (Rect.block (s := S1600000x128) S8000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2x128.size a ≤ S2x128.size a
  hwx1_5 : ∀ i : grid1.Coords, EltTy.bits .f32 = 32 ∨ (Rect.block (s := S2x128) S2x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x128.size a ≤ S2x128.size a
  hwx2_1 : ∀ i : grid2.Coords, EltTy.bits .f32 = 32 ∨ (Rect.block (s := S2x128) S2x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S1600000x128.size a
  hwx3_0 : ∀ i : grid3.Coords, EltTy.bits .f32 = 32 ∨ (Rect.block (s := S1600000x128) S8000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x1.size a ≤ S1600000x1.size a
  hwx3_1 : ∀ i : grid3.Coords, EltTy.bits .f32 = 32 ∨ (Rect.block (s := S1600000x1) S8000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S8000x128.size a ≤ S1600000x128.size a
  hwx3_4 : ∀ i : grid3.Coords, EltTy.bits .f32 = 32 ∨ (Rect.block (s := S1600000x128) S8000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S2x128.size a ≤ S2x128.size a
  hwx4_5 : ∀ i : grid4.Coords, EltTy.bits .f32 = 32 ∨ (Rect.block (s := S2x128) S2x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2x128.size a ≤ S2x128.size a
  hwx5_1 : ∀ i : grid5.Coords, EltTy.bits .f32 = 32 ∨ (Rect.block (s := S2x128) S2x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x256.size a ≤ S2048x256.size a
  hwx6_0 : ∀ i : grid6.Coords, EltTy.bits .f32 = 32 ∨ (Rect.block (s := S2048x256) S512x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x256.size a ≤ S128x256.size a
  hwx6_1 : ∀ i : grid6.Coords, EltTy.bits .f32 = 32 ∨ (Rect.block (s := S128x256) S128x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x128.size a ≤ S512x128.size a
  hwx6_3 : ∀ i : grid6.Coords, EltTy.bits .f32 = 32 ∨ (Rect.block (s := S512x128) S512x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x512.size a ≤ S1x512.size a
  hwx6_4 : ∀ i : grid6.Coords, EltTy.bits .f32 = 32 ∨ (Rect.block (s := S1x512) S1x512.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x256.size a ≤ S128x256.size a
  hwx6_5 : ∀ i : grid6.Coords, EltTy.bits .f32 = 32 ∨ (Rect.block (s := S128x256) S128x256.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S512x128.size a ≤ S512x128.size a
  hwx6_7 : ∀ i : grid6.Coords, EltTy.bits .f32 = 32 ∨ (Rect.block (s := S512x128) S512x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x512.size a ≤ S1x512.size a
  hwx6_8 : ∀ i : grid6.Coords, EltTy.bits .f32 = 32 ∨ (Rect.block (s := S1x512) S1x512.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S512x512.size a ≤ S2048x512.size a
  hwx6_9 : ∀ i : grid6.Coords, EltTy.bits .f32 = 32 ∨ (Rect.block (s := S2048x512) S512x512.size (cc6_transform_9 i) (hinb6_9 i)).WholeWords (EltTy.packing .f32)
  hstage6_10 : ∀ j, (stage6_10 j).IsWhole
  nbuf6_10 : grid6.bufCount reads6_10 false = 2
  hreads6_10 : ∀ i i' : grid6.Coords, (∀ a, reads6_10 a = true → i a = i' a) → cc6_transform_10 i = cc6_transform_10 i'
  hinb6_10 : ∀ (i : grid6.Coords) a, (cc6_transform_10 i a + 1) * S512x512.size a ≤ S2048x512.size a
  hwx6_10 : ∀ i : grid6.Coords, EltTy.bits .f32 = 32 ∨ (Rect.block (s := S2048x512) S512x512.size (cc6_transform_10 i) (hinb6_10 i)).WholeWords (EltTy.packing .f32)

variable [Facts₀]

def gather_S512x128_S100000x1_S100000x128_1_0_n_n_0_1_1128 : GatherDims S512x128 S100000x1 S100000x128 where
  offsetDims := [1]
  collapsedSliceDims := [0]
  operandBatchingDims := []
  startIndicesBatchingDims := []
  startIndexMap := [0]
  indexVectorDim := 1
  sliceSizes := ![1, 128]
  wf := gather_S512x128_S100000x1_S100000x128_1_0_n_n_0_1_1128_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_v6) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S8000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v17_1) S2x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v17_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17_1) S2x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v16) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v18) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v19) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S8000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v20) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v21) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v22) S8000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v18) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v25) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v26) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v30_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v30_1) S2x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v30_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v30_1) S2x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v27) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v28) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg19) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v29) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v31) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v38) S512x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg21) S128x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v39) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg23) S512x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v40) S1x512.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg25) S128x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v41) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg27) S512x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v42) S1x512.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v43_0) S512x512.size cc6_transform_9 reads6_9 true false 2 stage6_9 sem6_9
    hrank6 hreads6_9 hinb6_9 nbuf6_9 (Memref.isWhole_whole _) hwx6_9 hstage6_9

abbrev win6_10 : Pipeline.Window sig grid6 :=
  Pipeline.Window.ofSpec (Memref.whole main_v43_1) S512x512.size cc6_transform_10 reads6_10 true false 2 stage6_10 sem6_10
    hrank6 hreads6_10 hinb6_10 nbuf6_10 (Memref.isWhole_whole _) hwx6_10 hstage6_10

abbrev win6 : Fin 11 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | ⟨_ + 11, h⟩ => absurd h (Nat.not_lt.2 (Nat.le_add_left _ _))
abbrev spec6 : Fin 11 → Pipeline.WinSpec sig grid6.rank := fun w => (win6 w).toWinSpec

class Facts : Prop extends Facts₀ where

variable [Facts]
-- ==== ReferenceIdeal.lean ====
abbrev S100000x1 : Shape := ⟨2, ![100000, 1]⟩
abbrev S2x1600000 : Shape := ⟨2, ![2, 1600000]⟩
abbrev S1600000x1 : Shape := ⟨2, ![1600000, 1]⟩
abbrev S100000 : Shape := ⟨1, ![100000]⟩
abbrev S512x128 : Shape := ⟨2, ![512, 128]⟩
abbrev S128x1 : Shape := ⟨2, ![128, 1]⟩
abbrev S128 : Shape := ⟨1, ![128]⟩
abbrev S128x128 : Shape := ⟨2, ![128, 128]⟩
abbrev S128x256 : Shape := ⟨2, ![128, 256]⟩
abbrev S512 : Shape := ⟨1, ![512]⟩
abbrev S1x1600000 : Shape := ⟨2, ![1, 1600000]⟩
abbrev S1600000 : Shape := ⟨1, ![1600000]⟩
abbrev S_ : Shape := ⟨0, ![]⟩
abbrev S100000x128 : Shape := ⟨2, ![100000, 128]⟩
abbrev S1x128 : Shape := ⟨2, ![1, 128]⟩
abbrev S1600000x128 : Shape := ⟨2, ![1600000, 128]⟩
abbrev S2048x128 : Shape := ⟨2, ![2048, 128]⟩
abbrev S2048x256 : Shape := ⟨2, ![2048, 256]⟩
abbrev S256x128 : Shape := ⟨2, ![256, 128]⟩
abbrev S128x512 : Shape := ⟨2, ![128, 512]⟩
abbrev S2048x512 : Shape := ⟨2, ![2048, 512]⟩
abbrev S1x512 : Shape := ⟨2, ![1, 512]⟩

abbrev nBuf : Space → Nat
  | .hbm => 216
  | .vmem => 0
  | .smem => 0
  | _ => 0

abbrev hbmTy0_0 (i : Nat) : BufTy := match i % 128 with
  | 0 => ⟨S100000x1, .i32⟩
  | 1 => ⟨S2x1600000, .i32⟩
  | 2 => ⟨S1600000x1, .f32⟩
  | 3 => ⟨S100000, .i32⟩
  | 4 => ⟨S512x128, .f32⟩
  | 5 => ⟨S128x1, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128x1, .f32⟩
  | 14 => ⟨S128, .f32⟩
  | 15 => ⟨S128x128, .f32⟩
  | 16 => ⟨S128, .f32⟩
  | 17 => ⟨S128, .f32⟩
  | 18 => ⟨S128, .f32⟩
  | 19 => ⟨S128x128, .f32⟩
  | 20 => ⟨S128, .f32⟩
  | 21 => ⟨S128x256, .f32⟩
  | 22 => ⟨S128, .f32⟩
  | 23 => ⟨S512x128, .f32⟩
  | 24 => ⟨S512, .f32⟩
  | 25 => ⟨S128x256, .f32⟩
  | 26 => ⟨S128, .f32⟩
  | 27 => ⟨S512x128, .f32⟩
  | 28 => ⟨S512, .f32⟩
  | 29 => ⟨S1x1600000, .i32⟩
  | 30 => ⟨S1600000, .i32⟩
  | 31 => ⟨S1x1600000, .i32⟩
  | 32 => ⟨S1600000, .i32⟩
  | 33 => ⟨S100000, .i32⟩
  | 34 => ⟨S_, .i32⟩
  | 35 => ⟨S100000, .i32⟩
  | 36 => ⟨S100000, .i1⟩
  | 37 => ⟨S_, .i32⟩
  | 38 => ⟨S100000, .i32⟩
  | 39 => ⟨S100000, .i32⟩
  | 40 => ⟨S100000, .i32⟩
  | 41 => ⟨S100000x1, .i32⟩
  | 42 => ⟨S100000x128, .f32⟩
  | 43 => ⟨S1x128, .f32⟩
  | 44 => ⟨S1600000x128, .f32⟩
  | 45 => ⟨S1x128, .f32⟩
  | 46 => ⟨S1600000x128, .f32⟩
  | 47 => ⟨S1600000x128, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x128, .f32⟩
  | 57 => ⟨S1600000x128, .f32⟩
  | 58 => ⟨S_, .f32⟩
  | 59 => ⟨S1600000x128, .f32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S100000x128, .f32⟩
  | 66 => ⟨S128x128, .f32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S128, .f32⟩
  | 73 => ⟨S_, .f32⟩
  | 74 => ⟨S128, .f32⟩
  | 75 => ⟨S128, .f32⟩
  | 76 => ⟨S1x128, .f32⟩
  | 77 => ⟨S100000x128, .f32⟩
  | 78 => ⟨S100000x128, .f32⟩
  | 79 => ⟨S100000x128, .f32⟩
  | 80 => ⟨S_, .f32⟩
  | 81 => ⟨S128, .f32⟩
  | 82 => ⟨S_, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S128, .f32⟩
  | 93 => ⟨S128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S128x128, .f32⟩
  | 105 => ⟨S100000x128, .f32⟩
  | 106 => ⟨S1x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S1x128, .f32⟩
  | 113 => ⟨S1600000x128, .f32⟩
  | 114 => ⟨S1x128, .f32⟩
  | 115 => ⟨S1600000x128, .f32⟩
  | 116 => ⟨S1600000x128, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x128, .f32⟩
  | 126 => ⟨S1600000x128, .f32⟩
  | 127 => ⟨S_, .f32⟩
  | _ => ⟨S100000x1, .i32⟩

abbrev hbmTy0_1 (i : Nat) : BufTy := match i % 128 with
  | 0 => ⟨S1600000x128, .f32⟩
  | 1 => ⟨S1600000x128, .f32⟩
  | 2 => ⟨S_, .f32⟩
  | 3 => ⟨S100000x128, .f32⟩
  | 4 => ⟨S1600000x1, .i32⟩
  | 5 => ⟨S100000x128, .f32⟩
  | 6 => ⟨S100000x128, .f32⟩
  | 7 => ⟨S128x128, .f32⟩
  | 8 => ⟨S100000x128, .f32⟩
  | 9 => ⟨S1x128, .f32⟩
  | 10 => ⟨S100000x128, .f32⟩
  | 11 => ⟨S100000x128, .f32⟩
  | 12 => ⟨S_, .f32⟩
  | 13 => ⟨S128, .f32⟩
  | 14 => ⟨S_, .f32⟩
  | 15 => ⟨S128, .f32⟩
  | 16 => ⟨S128, .f32⟩
  | 17 => ⟨S1x128, .f32⟩
  | 18 => ⟨S100000x128, .f32⟩
  | 19 => ⟨S100000x128, .f32⟩
  | 20 => ⟨S100000x128, .f32⟩
  | 21 => ⟨S_, .f32⟩
  | 22 => ⟨S128, .f32⟩
  | 23 => ⟨S_, .f32⟩
  | 24 => ⟨S128, .f32⟩
  | 25 => ⟨S128, .f32⟩
  | 26 => ⟨S1x128, .f32⟩
  | 27 => ⟨S100000x128, .f32⟩
  | 28 => ⟨S100000x128, .f32⟩
  | 29 => ⟨S1x128, .f32⟩
  | 30 => ⟨S100000x128, .f32⟩
  | 31 => ⟨S100000x128, .f32⟩
  | 32 => ⟨S_, .f32⟩
  | 33 => ⟨S128, .f32⟩
  | 34 => ⟨S128, .f32⟩
  | 35 => ⟨S128, .f32⟩
  | 36 => ⟨S1x128, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S100000x128, .f32⟩
  | 44 => ⟨S100000x128, .f32⟩
  | 45 => ⟨S128x128, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S_, .f32⟩
  | 54 => ⟨S2048x128, .f32⟩
  | 55 => ⟨S100000x1, .i32⟩
  | 56 => ⟨S2048x128, .f32⟩
  | 57 => ⟨S_, .f32⟩
  | 58 => ⟨S2048x128, .f32⟩
  | 59 => ⟨S100000x1, .i32⟩
  | 60 => ⟨S2048x128, .f32⟩
  | 61 => ⟨S2048x256, .f32⟩
  | 62 => ⟨S256x128, .f32⟩
  | 63 => ⟨S2048x128, .f32⟩
  | 64 => ⟨S1x128, .f32⟩
  | 65 => ⟨S2048x128, .f32⟩
  | 66 => ⟨S2048x128, .f32⟩
  | 67 => ⟨S_, .f32⟩
  | 68 => ⟨S2048x128, .f32⟩
  | 69 => ⟨S2048x128, .f32⟩
  | 70 => ⟨S128x512, .f32⟩
  | 71 => ⟨S2048x512, .f32⟩
  | 72 => ⟨S1x512, .f32⟩
  | 73 => ⟨S2048x512, .f32⟩
  | 74 => ⟨S2048x512, .f32⟩
  | 75 => ⟨S256x128, .f32⟩
  | 76 => ⟨S2048x128, .f32⟩
  | 77 => ⟨S1x128, .f32⟩
  | 78 => ⟨S2048x128, .f32⟩
  | 79 => ⟨S2048x128, .f32⟩
  | 80 => ⟨S_, .f32⟩
  | 81 => ⟨S2048x128, .f32⟩
  | 82 => ⟨S2048x128, .f32⟩
  | 83 => ⟨S128x512, .f32⟩
  | 84 => ⟨S2048x512, .f32⟩
  | 85 => ⟨S1x512, .f32⟩
  | 86 => ⟨S2048x512, .f32⟩
  | 87 => ⟨S2048x512, .f32⟩
  | _ => ⟨S100000x1, .i32⟩

abbrev hbmTy (i : Nat) : BufTy := match i / 128 with
  | 0 => hbmTy0_0 i
  | 1 => hbmTy0_1 i
  | _ => ⟨S100000x1, .i32⟩

abbrev bufTy : (tb : Table) → Fin (tcTables nBuf tb) → BufTy
  | .hbm, ⟨i, _⟩ => hbmTy i
  | _, _ => ⟨S100000x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_c : Ref sig .tc := ⟨.hbm, 34, rfl⟩
abbrev main_v5 : Ref sig .tc := ⟨.hbm, 35, rfl⟩
abbrev main_v6 : Ref sig .tc := ⟨.hbm, 36, rfl⟩
abbrev main_c_0 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_c_1 : Ref sig .tc := ⟨.hbm, 48, rfl⟩
abbrev main_v17 : Ref sig .tc := ⟨.hbm, 49, rfl⟩
abbrev main_v18 : Ref sig .tc := ⟨.hbm, 50, rfl⟩
abbrev main_c_2 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_call0_cst : Ref sig .tc := ⟨.hbm, 58, rfl⟩
abbrev main_call0_v0 : Ref sig .tc := ⟨.hbm, 59, rfl⟩
abbrev main_v25 : Ref sig .tc := ⟨.hbm, 60, rfl⟩
abbrev main_cst : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_3 : Ref sig .tc := ⟨.hbm, 71, rfl⟩
abbrev main_v35 : Ref sig .tc := ⟨.hbm, 72, rfl⟩
abbrev main_cst_4 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_5 : Ref sig .tc := ⟨.hbm, 80, rfl⟩
abbrev main_v42 : Ref sig .tc := ⟨.hbm, 81, rfl⟩
abbrev main_cst_6 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_7 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_call1_cst : Ref sig .tc := ⟨.hbm, 101, rfl⟩
abbrev main_call1_v0 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_call2_cst : Ref sig .tc := ⟨.hbm, 109, rfl⟩
abbrev main_call2_v0 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_c_8 : Ref sig .tc := ⟨.hbm, 117, rfl⟩
abbrev main_v72 : Ref sig .tc := ⟨.hbm, 118, rfl⟩
abbrev main_v73 : Ref sig .tc := ⟨.hbm, 119, rfl⟩
abbrev main_c_9 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_call3_cst : Ref sig .tc := ⟨.hbm, 127, rfl⟩
abbrev main_call3_v0 : Ref sig .tc := ⟨.hbm, 128, rfl⟩
abbrev main_v80 : Ref sig .tc := ⟨.hbm, 129, rfl⟩
abbrev main_cst_10 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_11 : Ref sig .tc := ⟨.hbm, 140, rfl⟩
abbrev main_v90 : Ref sig .tc := ⟨.hbm, 141, rfl⟩
abbrev main_cst_12 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_cst_13 : Ref sig .tc := ⟨.hbm, 149, rfl⟩
abbrev main_v97 : Ref sig .tc := ⟨.hbm, 150, rfl⟩
abbrev main_cst_14 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_cst_15 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_call4_cst : Ref sig .tc := ⟨.hbm, 170, rfl⟩
abbrev main_call4_v0 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_call5_cst : Ref sig .tc := ⟨.hbm, 178, rfl⟩
abbrev main_call5_v0 : Ref sig .tc := ⟨.hbm, 179, rfl⟩
abbrev main_v121 : Ref sig .tc := ⟨.hbm, 180, rfl⟩
abbrev main_cst_16 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_cst_17 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_call6_cst : Ref sig .tc := ⟨.hbm, 195, rfl⟩
abbrev main_call6_v0 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_call7_cst : Ref sig .tc := ⟨.hbm, 208, rfl⟩
abbrev main_call7_v0 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  transposes_S128x1_S1x128_1_0 : S128x1.Transposes [1, 0] S1x128
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S_S100000x128 : S_.BroadcastsInDim S100000x128 (![] : Fin 0 → Fin S100000x128.rank)
  transposes_S128x128_S128x128_1_0 : S128x128.Transposes [1, 0] S128x128
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S2048x128 : S_.BroadcastsInDim S2048x128 (![] : Fin 0 → Fin S2048x128.rank)
  concatenates_S2048x128_S2048x128_S2048x256_d1 : Shape.Concatenates [S2048x128, S2048x128] S2048x256 1
  transposes_S128x256_S256x128_1_0 : S128x256.Transposes [1, 0] S256x128
  bcast_S1x128_S2048x128_0_1 : S1x128.BroadcastsInDim S2048x128 (![0, 1] : Fin 2 → Fin S2048x128.rank)
  transposes_S512x128_S128x512_1_0 : S512x128.Transposes [1, 0] S128x512
  bcast_S512_S1x512_1 : S512.BroadcastsInDim S1x512 (![1] : Fin 1 → Fin S1x512.rank)
  bcast_S1x512_S2048x512_0_1 : S1x512.BroadcastsInDim S2048x512 (![0, 1] : Fin 2 → Fin S2048x512.rank)
  gather_S512x128_S100000x1_S100000x128_1_0_n_n_0_1_1128_wf : GatherDims.WF S512x128 S100000x1 S100000x128 [1] [0] [] [0] [] 1 ![1, 128]
  dot_S1600000x1_S1x128_S1600000x128_1_0_0_1_n_n_wf : DotDims.WF S1600000x1 S1x128 S1600000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S2048x128_S100000x1_S100000x128_1_0_0_1_wf : ScatterDims.WF S2048x128 S100000x1 S100000x128 [1] [0] [0] 1
  dot_S2048x256_S256x128_S2048x128_1_0_0_1_n_n_wf : DotDims.WF S2048x256 S256x128 S2048x128 [1] [0] [0] [1] [] []
  dot_S2048x128_S128x512_S2048x512_1_0_0_1_n_n_wf : DotDims.WF S2048x128 S128x512 S2048x512 [1] [0] [0] [1] [] []

variable [Facts₀]

def gather_S512x128_S100000x1_S100000x128_1_0_n_n_0_1_1128 : GatherDims S512x128 S100000x1 S100000x128 where
  offsetDims := [1]
  collapsedSliceDims := [0]
  operandBatchingDims := []
  startIndicesBatchingDims := []
  startIndexMap := [0]
  indexVectorDim := 1
  sliceSizes := ![1, 128]
  wf := gather_S512x128_S100000x1_S100000x128_1_0_n_n_0_1_1128_wf
def dot_S1600000x1_S1x128_S1600000x128_1_0_0_1_n_n : DotDims S1600000x1 S1x128 S1600000x128 where
  lhsContracting := [1]
  rhsContracting := [0]
  lhsNonContracting := [0]
  rhsNonContracting := [1]
  lhsBatch := []
  rhsBatch := []
  wf := dot_S1600000x1_S1x128_S1600000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

class Facts : Prop extends Facts₀ where

variable [Facts]
-- ==== Proof.KernelOps.lean ====
-- The kernel program's data-dependent host operations as functions of the arrays they are applied to.
import proofs.«414907_j52115133169838_1_alg».proof.KernelIdeal
import proofs.«414907_j52115133169838_1_alg».proof.Proof.Gen.KernelIdeal
import Idealize.ShloMosaic.PureOps.Ideal

noncomputable section

namespace Cert.KernelOps

open Cert.KernelIdeal Cert.KernelIdeal.Gen Idealize.ShloMosaic

def srcWords (ei : IVec S2x1600000 32) : IVec S1600000 32 :=
  shapeCast S1600000 (extractStridedSlice S1x1600000 ![0, 0] ei slices_S2x1600000_S1x1600000_0_0) shapeCasts_S1x1600000_S1600000

def dstWords (ei : IVec S2x1600000 32) : IVec S1600000 32 :=
  shapeCast S1600000 (extractStridedSlice S1x1600000 ![1, 0] ei slices_S2x1600000_S1x1600000_1_0) shapeCasts_S1x1600000_S1600000

def nodeWords (x : IVec S100000x1 32) : IVec S100000 32 := shapeCast S100000 x shapeCasts_S100000x1_S100000

def scatterEdges (m : Vec Ideal S1600000x128 .f32) (ei : IVec S2x1600000 32) : Vec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dstWords ei)) m

def pool (h : Vec Ideal S100000x128 .f32) (b : IVec S100000 32) : Vec Ideal S2048x128 .f32 :=
  Host.scatterAdd scatter_S2048x128_S100000x1_S100000x128_1_0_0_1
    (broadcastInDim S2048x128 ![] bcast_S_S2048x128 (constant (F := Ideal) S_ .f32 0x00000000#32))
    (broadcastInDim S100000x1 ![0] bcast_S100000_S100000x1_0 b) h

def join (a b : Vec Ideal S2048x128 .f32) : Vec Ideal S2048x256 .f32 :=
  concatenate S2048x256 1 [⟨S2048x128, a⟩, ⟨S2048x128, b⟩] concatenates_S2048x128_S2048x128_S2048x256_d1

def takeNodes (t : Vec Ideal S512x128 .f32) (idx : IVec S100000 32) : Vec Ideal S100000x128 .f32 :=
  let c : IVec S_ 32 := constantI S_ 32 0#32
  let v0 : IVec S100000 32 := broadcastInDim S100000 ![] bcast_S_S100000 c
  let v1 : IVec S100000 1 := cmpi .slt idx v0
  let c_0 : IVec S_ 32 := constantI S_ 32 512#32
  let v2 : IVec S100000 32 := broadcastInDim S100000 ![] bcast_S_S100000 c_0
  let v3 : IVec S100000 32 := addi idx v2
  let v4 : IVec S100000 32 := select v1 v3 idx
  let v5 : IVec S100000x1 32 := broadcastInDim S100000x1 ![0] bcast_S100000_S100000x1_0 v4
  let c_1 : IVec S1 32 := constantI S1 32 511#32
  let c_2 : IVec S_ 32 := constantI S_ 32 0#32
  let v6 : IVec S100000x1 32 := broadcastInDim S100000x1 ![] bcast_S_S100000x1 c_2
  let v7 : IVec S100000x1 1 := cmpi .sge v5 v6
  let v8 : IVec S1x1 32 := broadcastInDim S1x1 ![1] bcast_S1_S1x1_1 c_1
  let v9 : IVec S100000x1 32 := broadcastInDim S100000x1 ![0, 1] bcast_S1x1_S100000x1_0_1 v8
  let v10 : IVec S100000x1 1 := cmpi .sle v5 v9
  let v11 : IVec S100000x1 1 := andi v7 v10
  let c_3 : IVec S_ 1 := constantI S_ 1 1#1
  let v12 : IVec S100000 1 := Host.reduce IntOp.andi v11 c_3 reducesTo_S100000x1_S100000_d1 h_S_
  let v13 : Vec Ideal S100000x128 .f32 := Host.gather gather_S512x128_S100000x1_S100000x128_1_0_n_n_0_1_1128 t v5
  let v14 : IVec S100000x128 1 := broadcastInDim S100000x128 ![0] bcast_S100000_S100000x128_0 v12
  let cst : Vec Ideal S_ .f32 := constant (F := Ideal) S_ .f32 0x7FC00000#32
  let v15 : Vec Ideal S100000x128 .f32 := broadcastInDim S100000x128 ![] bcast_S_S100000x128 cst
  select v14 v13 v15

def gatherNodes (t : Vec Ideal S512x128 .f32) (x : IVec S100000x1 32) : Vec Ideal S100000x128 .f32 := takeNodes t (nodeWords x)

def takeEdges (t : Vec Ideal S100000x128 .f32) (idx : IVec S1600000 32) : Vec Ideal S1600000x128 .f32 :=
  let c : IVec S_ 32 := constantI S_ 32 0#32
  let v0 : IVec S1600000 32 := broadcastInDim S1600000 ![] bcast_S_S1600000 c
  let v1 : IVec S1600000 1 := cmpi .slt idx v0
  let c_0 : IVec S_ 32 := constantI S_ 32 100000#32
  let v2 : IVec S1600000 32 := broadcastInDim S1600000 ![] bcast_S_S1600000 c_0
  let v3 : IVec S1600000 32 := addi idx v2
  let v4 : IVec S1600000 32 := select v1 v3 idx
  let v5 : IVec S1600000x1 32 := broadcastInDim S1600000x1 ![0] bcast_S1600000_S1600000x1_0 v4
  let c_1 : IVec S1 32 := constantI S1 32 99999#32
  let c_2 : IVec S_ 32 := constantI S_ 32 0#32
  let v6 : IVec S1600000x1 32 := broadcastInDim S1600000x1 ![] bcast_S_S1600000x1 c_2
  let v7 : IVec S1600000x1 1 := cmpi .sge v5 v6
  let v8 : IVec S1x1 32 := broadcastInDim S1x1 ![1] bcast_S1_S1x1_1 c_1
  let v9 : IVec S1600000x1 32 := broadcastInDim S1600000x1 ![0, 1] bcast_S1x1_S1600000x1_0_1 v8
  let v10 : IVec S1600000x1 1 := cmpi .sle v5 v9
  let v11 : IVec S1600000x1 1 := andi v7 v10
  let c_3 : IVec S_ 1 := constantI S_ 1 1#1
  let v12 : IVec S1600000 1 := Host.reduce IntOp.andi v11 c_3 reducesTo_S1600000x1_S1600000_d1 h_S_
  let v13 : Vec Ideal S1600000x128 .f32 := Host.gather gather_S100000x128_S1600000x1_S1600000x128_1_0_n_n_0_1_1128 t v5
  let v14 : IVec S1600000x128 1 := broadcastInDim S1600000x128 ![0] bcast_S1600000_S1600000x128_0 v12
  let cst : Vec Ideal S_ .f32 := constant (F := Ideal) S_ .f32 0x7FC00000#32
  let v15 : Vec Ideal S1600000x128 .f32 := broadcastInDim S1600000x128 ![] bcast_S_S1600000x128 cst
  select v14 v13 v15

def gatherEdges (h : Vec Ideal S100000x128 .f32) (ei : IVec S2x1600000 32) : Vec Ideal S1600000x128 .f32 := takeEdges h (srcWords ei)

end Cert.KernelOps

end
-- ==== Proof.Consts.lean ====
-- The two float constants both programs spell: the row count 100000 and the positive variance offset.
import Idealize.ShloMosaic.PureOps.Ideal
import Idealize.ShloMosaic.PureOps.Ideal.Laws

noncomputable section

namespace Cert.Consts

open Idealize.ShloMosaic

theorem ofBits_rows : Ideal.ofBits .f32 0x47C35000#32 = ((100000 : ℝ) : EReal) := by
  simp [Ideal.ofBits, Ideal.ieee, -EReal.coe_mul]; norm_num

def eps : ℝ := 10995116 / 2 ^ 40

theorem ofBits_eps : Ideal.ofBits .f32 0x3727C5AC#32 = ((eps : ℝ) : EReal) := by
  unfold eps
  simp [Ideal.ofBits, Ideal.ieee, -EReal.coe_mul]; norm_num

theorem eps_pos : 0 < eps := by unfold eps; positivity

end Cert.Consts

end
-- ==== Proof.Spec.lean ====
-- The network's stages as functions on the extended reals, read index by index; the column variance in its two forms.
import Idealize.ShloMosaic.PureOps.Ideal
import Idealize.ShloMosaic.Lib.ValueIdx
import proofs.«414907_j52115133169838_1_alg».proof.Proof.Consts

noncomputable section

namespace Cert.Spec

open Idealize.ShloMosaic Idealize.ShloMosaic.ValueIdx

abbrev Mat (r c : Nat) : Shape := ⟨2, ![r, c]⟩
abbrev Vc (n : Nat) : Shape := ⟨1, ![n]⟩

abbrev rows : EReal := ((100000 : ℝ) : EReal)

def rowVec {n : Nat} (b : (Mat 1 n).Idx → EReal) : (Vc n).Idx → EReal := fun k => b (ix2 0 (k 0))
def rowAt {r n : Nat} (s : (Mat r n).Idx → EReal) (i : Fin r) : (Vc n).Idx → EReal := fun k => s (ix2 i (k 0))

def colOfRow {n : Nat} (b : (Mat 1 n).Idx → EReal) : (Mat n 1).Idx → EReal := fun j => b (ix2 0 (j 0))

def edgeLin {E D : Nat} (a : (Mat E 1).Idx → EReal) (w : (Mat D 1).Idx → EReal) (b : (Vc D).Idx → EReal) :
    (Mat E D).Idx → EReal :=
  fun j => a (ix2 (j 0) 0) * w (ix2 (j 1) 0) + b (ix1 (j 1))

def message {E D : Nat} (xg e : (Mat E D).Idx → EReal) : (Mat E D).Idx → EReal :=
  fun j => max (xg j + e j) 0

def addM {R C : Nat} (x y : (Mat R C).Idx → EReal) : (Mat R C).Idx → EReal := fun j => x j + y j
def relu {R C : Nat} (x : (Mat R C).Idx → EReal) : (Mat R C).Idx → EReal := fun j => max (x j) 0

def lin {R K O : Nat} (x : (Mat R K).Idx → EReal) (w : (Mat O K).Idx → EReal) (b : (Vc O).Idx → EReal) :
    (Mat R O).Idx → EReal :=
  fun j => (∑ k : Fin K, x (ix2 (j 0) k) * w (ix2 (j 1) k)) + b (ix1 (j 1))

def colMean {R C : Nat} (z : (Mat R C).Idx → EReal) : (Vc C).Idx → EReal :=
  fun j => Ideal.div (∑ i : Fin R, z (ix2 i (j 0))) rows

-- The two forms of a column's variance: mean of squares minus squared mean, and mean of squared deviations.
def colVarSq {R C : Nat} (z : (Mat R C).Idx → EReal) : (Vc C).Idx → EReal :=
  fun j => Ideal.div (∑ i : Fin R, z (ix2 i (j 0)) * z (ix2 i (j 0))) rows - colMean z j * colMean z j

def colVarDev {R C : Nat} (z : (Mat R C).Idx → EReal) : (Vc C).Idx → EReal :=
  fun j => Ideal.div (∑ i : Fin R, (z (ix2 i (j 0)) - colMean z j) * (z (ix2 i (j 0)) - colMean z j)) rows

def normAct {R C : Nat} (g sh : (Vc C).Idx → EReal) (z : (Mat R C).Idx → EReal) (mean var : (Vc C).Idx → EReal) :
    (Mat R C).Idx → EReal :=
  fun j => max (g (ix1 (j 1)) * (z j - mean (ix1 (j 1))) * Ideal.rsqrt (var (ix1 (j 1)) + ((Cert.Consts.eps : ℝ) : EReal))
    + sh (ix1 (j 1))) 0

def layerOf {R C O : Nat} (g sh : (Vc C).Idx → EReal) (w2 : (Mat O C).Idx → EReal) (b2 : (Vc O).Idx → EReal)
    (z : (Mat R C).Idx → EReal) (var : (Vc C).Idx → EReal) : (Mat R O).Idx → EReal :=
  relu (lin (normAct g sh z (colMean z) var) w2 b2)

def head {G K H T : Nat} (h : (Mat G K).Idx → EReal) (w1 : (Mat H K).Idx → EReal) (b1 : (Vc H).Idx → EReal)
    (w2 : (Mat T H).Idx → EReal) (b2 : (Vc T).Idx → EReal) : (Mat G T).Idx → EReal :=
  lin (relu (lin h w1 b1)) w2 b2

end Cert.Spec

end
-- ==== Proof.LibIdealReal.lean ====
import Idealize.ShloMosaic.PureOps.Ideal.Laws

namespace Idealize.ShloMosaic.IdealReal

open Idealize.ShloMosaic

/-- The embedding of the reals is additive. -/
theorem coe_sum {ι : Type*} (s : Finset ι) (f : ι → ℝ) :
    (∑ i ∈ s, ((f i : ℝ) : EReal)) = ((∑ i ∈ s, f i : ℝ) : EReal) :=
  (map_sum (⟨⟨Real.toEReal, EReal.coe_zero⟩, EReal.coe_add⟩ : ℝ →+ EReal) f s).symm

/-- Dividing by a nonzero real is multiplying by its inverse. -/
theorem div_coe_coe (x y : ℝ) (hy : y ≠ 0) : Ideal.div (x : EReal) (y : EReal) = ((x / y : ℝ) : EReal) := by
  rw [Ideal.div_coe hy, ← EReal.coe_mul, mul_one_div]

/-- The embedding of the reals is monotone. -/
theorem max_coe (x y : ℝ) : max (x : EReal) (y : EReal) = ((max x y : ℝ) : EReal) :=
  (EReal.coe_strictMono.monotone.map_max).symm

end Idealize.ShloMosaic.IdealReal
-- ==== Proof.VarianceLaw.lean ====
-- Over real entries and with the divisor equal to the row count, mean of squares minus squared mean is the mean of squared deviations.
import Idealize.ShloMosaic.PureOps.Ideal
import Idealize.ShloMosaic.PureOps.Ideal.Laws
import proofs.«414907_j52115133169838_1_alg».proof.Proof.LibIdealReal

noncomputable section

namespace Cert.VarianceLaw

open Idealize.ShloMosaic

-- Expand the square: the sum is the row count times the mean.
theorem real_var_forms {ι : Type*} [Fintype ι] (z : ι → ℝ) (n : ℝ) (hcard : (Fintype.card ι : ℝ) = n) (hn : n ≠ 0) :
    (∑ i, (z i - (∑ j, z j) / n) * (z i - (∑ j, z j) / n)) / n
      = (∑ i, z i * z i) / n - ((∑ j, z j) / n) * ((∑ j, z j) / n) := by
  have expand : ∀ μ : ℝ, ∑ i, (z i - μ) * (z i - μ) = (∑ i, z i * z i) - 2 * μ * (∑ i, z i) + n * (μ * μ) := by
    intro μ
    have h : ∀ i, (z i - μ) * (z i - μ) = z i * z i - 2 * μ * z i + μ * μ := fun i => by ring
    simp only [h, Finset.sum_add_distrib, Finset.sum_sub_distrib, ← Finset.mul_sum, Finset.sum_const, Finset.card_univ,
      nsmul_eq_mul, hcard]
    ring
  rw [expand]
  field_simp
  ring

theorem mean_coe {ι : Type*} [Fintype ι] (z : ι → ℝ) :
    Ideal.div (∑ i, ((z i : ℝ) : EReal)) ((100000 : ℝ) : EReal) = (((∑ i, z i) / 100000 : ℝ) : EReal) := by
  rw [IdealReal.coe_sum]
  exact IdealReal.div_coe_coe _ _ (by norm_num)

-- On embedded reals every extended-real operation is the real one, so the real identity transfers.
theorem var_forms {ι : Type*} [Fintype ι] (z : ι → ℝ) (hcard : (Fintype.card ι : ℝ) = 100000) :
    Ideal.div (∑ i, (((z i : ℝ) : EReal) * ((z i : ℝ) : EReal))) ((100000 : ℝ) : EReal)
        - Ideal.div (∑ i, ((z i : ℝ) : EReal)) ((100000 : ℝ) : EReal)
          * Ideal.div (∑ i, ((z i : ℝ) : EReal)) ((100000 : ℝ) : EReal)
      = Ideal.div (∑ i, ((((z i : ℝ) : EReal) - Ideal.div (∑ j, ((z j : ℝ) : EReal)) ((100000 : ℝ) : EReal))
                        * (((z i : ℝ) : EReal) - Ideal.div (∑ j, ((z j : ℝ) : EReal)) ((100000 : ℝ) : EReal))))
          ((100000 : ℝ) : EReal) := by
  have h100 : (100000 : ℝ) ≠ 0 := by norm_num
  rw [mean_coe z]
  have hsq : (∑ i, (((z i : ℝ) : EReal) * ((z i : ℝ) : EReal))) = ((∑ i, z i * z i : ℝ) : EReal) := by
    rw [← IdealReal.coe_sum]; exact Finset.sum_congr rfl fun i _ => (EReal.coe_mul _ _).symm
  have hdev : (∑ i, ((((z i : ℝ) : EReal) - (((∑ j, z j) / 100000 : ℝ) : EReal))
                      * (((z i : ℝ) : EReal) - (((∑ j, z j) / 100000 : ℝ) : EReal))))
      = ((∑ i, (z i - (∑ j, z j) / 100000) * (z i - (∑ j, z j) / 100000) : ℝ) : EReal) := by
    rw [← IdealReal.coe_sum]
    exact Finset.sum_congr rfl fun i _ => by rw [← EReal.coe_sub, ← EReal.coe_mul]
  rw [hsq, hdev, IdealReal.div_coe_coe _ _ h100, IdealReal.div_coe_coe _ _ h100, ← EReal.coe_mul, ← EReal.coe_sub]
  exact congrArg _ (real_var_forms z 100000 hcard h100).symm

end Cert.VarianceLaw

end
-- ==== Proof.Net.lean ====
-- The whole network as one function of the arguments, its data-dependent steps and its variance carried as parameters; on real arguments the two variance forms give the same network.
import proofs.«414907_j52115133169838_1_alg».proof.Proof.Spec
import proofs.«414907_j52115133169838_1_alg».proof.Proof.VarianceLaw
import proofs.«414907_j52115133169838_1_alg».proof.Proof.LibIdealReal

noncomputable section

namespace Cert.Net

open Idealize.ShloMosaic Idealize.ShloMosaic.ValueIdx Cert.Spec

abbrev RM (r c : Nat) : Type := (Mat r c).Idx → EReal
abbrev RV (n : Nat) : Type := (Vc n).Idx → EReal
abbrev WM (r c : Nat) : Type := (Mat r c).Idx → BitVec 32
abbrev WV (n : Nat) : Type := (Vc n).Idx → BitVec 32

def IsRealM {r c : Nat} (a : RM r c) : Prop := ∃ f : (Mat r c).Idx → ℝ, a = fun j => ((f j : ℝ) : EReal)
def IsRealV {n : Nat} (a : RV n) : Prop := ∃ f : (Vc n).Idx → ℝ, a = fun j => ((f j : ℝ) : EReal)

structure LayerP where
  ew : RM 128 1
  eb : RV 128
  w1 : RM 128 128
  b1 : RV 128
  g  : RV 128
  sh : RV 128
  w2 : RM 128 128
  b2 : RV 128

structure HeadP where
  w1 : RM 128 256
  b1 : RV 128
  w2 : RM 512 128
  b2 : RV 512

def LayerP.IsReal (P : LayerP) : Prop :=
  IsRealM P.ew ∧ IsRealV P.eb ∧ IsRealM P.w1 ∧ IsRealV P.b1 ∧ IsRealV P.g ∧ IsRealV P.sh ∧ IsRealM P.w2 ∧ IsRealV P.b2

structure Ops where
  gatherNodes : RM 512 128 → WM 100000 1 → RM 100000 128
  gatherEdges : RM 100000 128 → WM 2 1600000 → RM 1600000 128
  scatterEdges : RM 1600000 128 → WM 2 1600000 → RM 100000 128
  pool : RM 100000 128 → WV 100000 → RM 2048 128
  join : RM 2048 128 → RM 2048 128 → RM 2048 256

structure Ops.KeepReal (O : Ops) (x : WM 100000 1) (ei : WM 2 1600000) : Prop where
  gatherNodes : ∀ t, IsRealM t → IsRealM (O.gatherNodes t x)
  gatherEdges : ∀ h, IsRealM h → IsRealM (O.gatherEdges h ei)
  scatterEdges : ∀ m, IsRealM m → IsRealM (O.scatterEdges m ei)

def preAct (O : Ops) (P : LayerP) (ei : WM 2 1600000) (ea : RM 1600000 1) (h : RM 100000 128) : RM 100000 128 :=
  lin (addM h (O.scatterEdges (message (O.gatherEdges h ei) (edgeLin ea P.ew P.eb)) ei)) P.w1 P.b1

def layer (var : RM 100000 128 → RV 128) (O : Ops) (P : LayerP) (ei : WM 2 1600000) (ea : RM 1600000 1)
    (h : RM 100000 128) : RM 100000 128 :=
  layerOf P.g P.sh P.w2 P.b2 (preAct O P ei ea h) (var (preAct O P ei ea h))

def net (var : RM 100000 128 → RV 128) (O : Ops) (x : WM 100000 1) (ei : WM 2 1600000) (ea : RM 1600000 1)
    (batch : WV 100000) (emb : RM 512 128) (P1 P2 : LayerP) (HF HB : HeadP) : RM 2048 512 × RM 2048 512 :=
  let h1 := layer var O P1 ei ea (O.gatherNodes emb x)
  let h2 := layer var O P2 ei ea h1
  let h := O.join (O.pool h1 batch) (O.pool h2 batch)
  (head h HF.w1 HF.b1 HF.w2 HF.b2, head h HB.w1 HB.b1 HB.w2 HB.b2)

-- Carried operations that agree where the network applies them give the same network.
theorem net_congr_ops (var : RM 100000 128 → RV 128) (gn gn' : RM 512 128 → WM 100000 1 → RM 100000 128)
    (ge ge' : RM 100000 128 → WM 2 1600000 → RM 1600000 128) (se se' : RM 1600000 128 → WM 2 1600000 → RM 100000 128)
    (p p' : RM 100000 128 → WV 100000 → RM 2048 128) (j j' : RM 2048 128 → RM 2048 128 → RM 2048 256)
    (x : WM 100000 1) (ei : WM 2 1600000) (ea : RM 1600000 1) (batch : WV 100000) (emb : RM 512 128) (P1 P2 : LayerP) (HF HB : HeadP)
    (hgn : ∀ t, gn t x = gn' t x) (hge : ∀ h, ge h ei = ge' h ei) (hse : ∀ m, se m ei = se' m ei) (hp : p = p') (hj : j = j') :
    net var ⟨gn, ge, se, p, j⟩ x ei ea batch emb P1 P2 HF HB = net var ⟨gn', ge', se', p', j'⟩ x ei ea batch emb P1 P2 HF HB := by
  subst hp hj
  have hlayer : ∀ P h, layer var ⟨gn, ge, se, p, j⟩ P ei ea h = layer var ⟨gn', ge', se', p, j⟩ P ei ea h := fun P h => by
    simp only [layer, preAct, hge, hse]
  simp only [net, hlayer, hgn]

theorem isRealM_edgeLin {E D : Nat} {a : RM E 1} {w : RM D 1} {b : RV D} (ha : IsRealM a) (hw : IsRealM w)
    (hb : IsRealV b) : IsRealM (edgeLin a w b) := by
  obtain ⟨fa, rfl⟩ := ha
  obtain ⟨fw, rfl⟩ := hw
  obtain ⟨fb, rfl⟩ := hb
  refine ⟨fun j => fa (ix2 (j 0) 0) * fw (ix2 (j 1) 0) + fb (ix1 (j 1)), ?_⟩
  funext j
  simp only [edgeLin, EReal.coe_add, EReal.coe_mul]

theorem isRealM_message {E D : Nat} {xg e : RM E D} (hx : IsRealM xg) (he : IsRealM e) : IsRealM (message xg e) := by
  obtain ⟨fx, rfl⟩ := hx
  obtain ⟨fe, rfl⟩ := he
  refine ⟨fun j => max (fx j + fe j) 0, ?_⟩
  funext j
  show max (((fx j : ℝ) : EReal) + ((fe j : ℝ) : EReal)) 0 = _
  rw [← EReal.coe_add, ← EReal.coe_zero, IdealReal.max_coe]

theorem isRealM_addM {R C : Nat} {x y : RM R C} (hx : IsRealM x) (hy : IsRealM y) : IsRealM (addM x y) := by
  obtain ⟨fx, rfl⟩ := hx
  obtain ⟨fy, rfl⟩ := hy
  refine ⟨fun j => fx j + fy j, ?_⟩
  funext j
  show ((fx j : ℝ) : EReal) + ((fy j : ℝ) : EReal) = _
  rw [← EReal.coe_add]

theorem isRealM_relu {R C : Nat} {x : RM R C} (hx : IsRealM x) : IsRealM (relu x) := by
  obtain ⟨fx, rfl⟩ := hx
  refine ⟨fun j => max (fx j) 0, ?_⟩
  funext j
  show max ((fx j : ℝ) : EReal) 0 = _
  rw [← EReal.coe_zero, IdealReal.max_coe]

theorem isRealM_lin {R K O : Nat} {x : RM R K} {w : RM O K} {b : RV O} (hx : IsRealM x) (hw : IsRealM w)
    (hb : IsRealV b) : IsRealM (lin x w b) := by
  obtain ⟨fx, rfl⟩ := hx
  obtain ⟨fw, rfl⟩ := hw
  obtain ⟨fb, rfl⟩ := hb
  refine ⟨fun j => (∑ k : Fin K, fx (ix2 (j 0) k) * fw (ix2 (j 1) k)) + fb (ix1 (j 1)), ?_⟩
  funext j
  show (∑ k : Fin K, ((fx (ix2 (j 0) k) : ℝ) : EReal) * ((fw (ix2 (j 1) k) : ℝ) : EReal))
      + ((fb (ix1 (j 1)) : ℝ) : EReal) = _
  have hs : (∑ k : Fin K, ((fx (ix2 (j 0) k) : ℝ) : EReal) * ((fw (ix2 (j 1) k) : ℝ) : EReal))
      = ((∑ k : Fin K, fx (ix2 (j 0) k) * fw (ix2 (j 1) k) : ℝ) : EReal) := by
    rw [← IdealReal.coe_sum]
    exact Finset.sum_congr rfl fun k _ => (EReal.coe_mul _ _).symm
  rw [hs, ← EReal.coe_add]

theorem isRealM_preAct {O : Ops} {x : WM 100000 1} {ei : WM 2 1600000} (hO : O.KeepReal x ei) {P : LayerP}
    (hP : P.IsReal) {ea : RM 1600000 1} (hea : IsRealM ea) {h : RM 100000 128} (hh : IsRealM h) :
    IsRealM (preAct O P ei ea h) := by
  obtain ⟨hew, heb, hw1, hb1, -, -, -, -⟩ := hP
  exact isRealM_lin
    (isRealM_addM hh (hO.scatterEdges _ (isRealM_message (hO.gatherEdges _ hh) (isRealM_edgeLin hea hew heb)))) hw1 hb1

-- On a real array the variance law applies column by column.
theorem colVarSq_eq_colVarDev {C : Nat} {z : RM 100000 C} (hz : IsRealM z) : colVarSq z = colVarDev z := by
  obtain ⟨f, rfl⟩ := hz
  funext j
  exact Cert.VarianceLaw.var_forms (fun i : Fin 100000 => f (ix2 i (j 0))) (by simp)

theorem isRealV_colMean {C : Nat} {z : RM 100000 C} (hz : IsRealM z) : IsRealV (colMean z) := by
  obtain ⟨f, rfl⟩ := hz
  refine ⟨fun j => (∑ i : Fin 100000, f (ix2 i (j 0))) / 100000, ?_⟩
  funext j
  exact Cert.VarianceLaw.mean_coe (fun i : Fin 100000 => f (ix2 i (j 0)))

-- A mean of squared deviations of reals is a non-negative real.
theorem colVarDev_nonneg_real {C : Nat} {z : RM 100000 C} (hz : IsRealM z) :
    ∃ v : (Vc C).Idx → ℝ, (∀ j, 0 ≤ v j) ∧ colVarDev z = fun j => ((v j : ℝ) : EReal) := by
  obtain ⟨f, rfl⟩ := hz
  refine ⟨fun j => (∑ i : Fin 100000, (f (ix2 i (j 0)) - (∑ i' : Fin 100000, f (ix2 i' (j 0))) / 100000)
      * (f (ix2 i (j 0)) - (∑ i' : Fin 100000, f (ix2 i' (j 0))) / 100000)) / 100000, fun j => ?_, ?_⟩
  · exact div_nonneg (Finset.sum_nonneg fun i _ => mul_self_nonneg _) (by norm_num)
  · funext j
    show Ideal.div (∑ i : Fin 100000,
        (((f (ix2 i (j 0)) : ℝ) : EReal)
            - Ideal.div (∑ i' : Fin 100000, ((f (ix2 i' (j 0)) : ℝ) : EReal)) ((100000 : ℝ) : EReal))
          * (((f (ix2 i (j 0)) : ℝ) : EReal)
            - Ideal.div (∑ i' : Fin 100000, ((f (ix2 i' (j 0)) : ℝ) : EReal)) ((100000 : ℝ) : EReal)))
        ((100000 : ℝ) : EReal) = _
    rw [Cert.VarianceLaw.mean_coe (fun i' : Fin 100000 => f (ix2 i' (j 0)))]
    have hdev : (∑ i : Fin 100000,
          (((f (ix2 i (j 0)) : ℝ) : EReal) - (((∑ i' : Fin 100000, f (ix2 i' (j 0))) / 100000 : ℝ) : EReal))
            * (((f (ix2 i (j 0)) : ℝ) : EReal) - (((∑ i' : Fin 100000, f (ix2 i' (j 0))) / 100000 : ℝ) : EReal)))
        = ((∑ i : Fin 100000, (f (ix2 i (j 0)) - (∑ i' : Fin 100000, f (ix2 i' (j 0))) / 100000)
            * (f (ix2 i (j 0)) - (∑ i' : Fin 100000, f (ix2 i' (j 0))) / 100000) : ℝ) : EReal) := by
      rw [← IdealReal.coe_sum]
      exact Finset.sum_congr rfl fun i _ => by rw [← EReal.coe_sub, ← EReal.coe_mul]
    rw [hdev, IdealReal.div_coe_coe _ _ (by norm_num)]

theorem rsqrt_coe_pos {r : ℝ} (hr : 0 < r) : Ideal.rsqrt ((r : ℝ) : EReal) = (((Real.sqrt r)⁻¹ : ℝ) : EReal) := by
  rw [Ideal.rsqrt_coe, if_neg (not_lt.mpr hr.le), if_neg hr.ne']

-- The variance plus the positive offset is a positive real, so its reciprocal square root is real.
theorem isRealM_normAct {R C : Nat} {g sh : RV C} {z : RM R C} {mean : RV C} {v : (Vc C).Idx → ℝ}
    (hg : IsRealV g) (hsh : IsRealV sh) (hz : IsRealM z) (hmean : IsRealV mean) (hv : ∀ j, 0 ≤ v j) :
    IsRealM (normAct g sh z mean (fun j => ((v j : ℝ) : EReal))) := by
  obtain ⟨fg, rfl⟩ := hg
  obtain ⟨fs, rfl⟩ := hsh
  obtain ⟨fz, rfl⟩ := hz
  obtain ⟨fm, rfl⟩ := hmean
  refine ⟨fun j => max (fg (ix1 (j 1)) * (fz j - fm (ix1 (j 1)))
      * (Real.sqrt (v (ix1 (j 1)) + Cert.Consts.eps))⁻¹ + fs (ix1 (j 1))) 0, ?_⟩
  funext j
  have hpos : 0 < v (ix1 (j 1)) + Cert.Consts.eps := add_pos_of_nonneg_of_pos (hv _) Cert.Consts.eps_pos
  show max (((fg (ix1 (j 1)) : ℝ) : EReal) * (((fz j : ℝ) : EReal) - ((fm (ix1 (j 1)) : ℝ) : EReal))
      * Ideal.rsqrt (((v (ix1 (j 1)) : ℝ) : EReal) + ((Cert.Consts.eps : ℝ) : EReal))
      + ((fs (ix1 (j 1)) : ℝ) : EReal)) 0 = _
  rw [← EReal.coe_add, rsqrt_coe_pos hpos, ← EReal.coe_sub, ← EReal.coe_mul, ← EReal.coe_mul, ← EReal.coe_add,
    ← EReal.coe_zero, IdealReal.max_coe]

theorem layer_varSq_eq_varDev {O : Ops} {x : WM 100000 1} {ei : WM 2 1600000} (hO : O.KeepReal x ei) {P : LayerP}
    (hP : P.IsReal) {ea : RM 1600000 1} (hea : IsRealM ea) {h : RM 100000 128} (hh : IsRealM h) :
    layer colVarSq O P ei ea h = layer colVarDev O P ei ea h := by
  unfold layer
  rw [colVarSq_eq_colVarDev (isRealM_preAct hO hP hea hh)]

theorem isRealM_layer_varDev {O : Ops} {x : WM 100000 1} {ei : WM 2 1600000} (hO : O.KeepReal x ei) {P : LayerP}
    (hP : P.IsReal) {ea : RM 1600000 1} (hea : IsRealM ea) {h : RM 100000 128} (hh : IsRealM h) :
    IsRealM (layer colVarDev O P ei ea h) := by
  have hz : IsRealM (preAct O P ei ea h) := isRealM_preAct hO hP hea hh
  obtain ⟨v, hv, hvar⟩ := colVarDev_nonneg_real hz
  obtain ⟨-, -, -, -, hg, hsh, hw2, hb2⟩ := hP
  unfold layer layerOf
  rw [hvar]
  exact isRealM_relu (isRealM_lin (isRealM_normAct hg hsh hz (isRealV_colMean hz) hv) hw2 hb2)

-- Each layer's input is real, so its pre-activation is, the two variances agree on it, and its output is real again.
theorem net_varSq_eq_varDev (O : Ops) (x : WM 100000 1) (ei : WM 2 1600000) (ea : RM 1600000 1) (batch : WV 100000)
    (emb : RM 512 128) (P1 P2 : LayerP) (HF HB : HeadP) (hO : O.KeepReal x ei) (hea : IsRealM ea) (hemb : IsRealM emb)
    (hP1 : P1.IsReal) (hP2 : P2.IsReal) :
    net colVarSq O x ei ea batch emb P1 P2 HF HB = net colVarDev O x ei ea batch emb P1 P2 HF HB := by
  have h0 : IsRealM (O.gatherNodes emb x) := hO.gatherNodes emb hemb
  have e1 : layer colVarSq O P1 ei ea (O.gatherNodes emb x) = layer colVarDev O P1 ei ea (O.gatherNodes emb x) :=
    layer_varSq_eq_varDev hO hP1 hea h0
  have h1 : IsRealM (layer colVarDev O P1 ei ea (O.gatherNodes emb x)) := isRealM_layer_varDev hO hP1 hea h0
  have e2 : layer colVarSq O P2 ei ea (layer colVarDev O P1 ei ea (O.gatherNodes emb x))
      = layer colVarDev O P2 ei ea (layer colVarDev O P1 ei ea (O.gatherNodes emb x)) :=
    layer_varSq_eq_varDev hO hP2 hea h1
  unfold net
  simp only [e1, e2]

end Cert.Net

end
-- ==== Proof.KernelArgs.lean ====
-- The kernel program's arguments gathered into the network's parameter records.
import proofs.«414907_j52115133169838_1_alg».proof.Proof.Gen.KernelIdeal.Frame
import proofs.«414907_j52115133169838_1_alg».proof.Proof.KernelOps
import proofs.«414907_j52115133169838_1_alg».proof.Proof.Net
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Args

open Cert.KernelIdeal.Gen
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

abbrev x (c : Dev nD) : Net.WM 100000 1 := m ((c : Thread nD τ).loc main_arg0)
abbrev ei (c : Dev nD) : Net.WM 2 1600000 := m ((c : Thread nD τ).loc main_arg1)
abbrev ea (c : Dev nD) : Net.RM 1600000 1 := m ((c : Thread nD τ).loc main_arg2)
abbrev batch (c : Dev nD) : Net.WV 100000 := m ((c : Thread nD τ).loc main_arg3)
abbrev emb (c : Dev nD) : Net.RM 512 128 := m ((c : Thread nD τ).loc main_arg4)

def P1 (c : Dev nD) : Net.LayerP where
  ew := m ((c : Thread nD τ).loc main_arg5)
  eb := m ((c : Thread nD τ).loc main_arg6)
  w1 := m ((c : Thread nD τ).loc main_arg7)
  b1 := m ((c : Thread nD τ).loc main_arg8)
  g  := m ((c : Thread nD τ).loc main_arg9)
  sh := m ((c : Thread nD τ).loc main_arg10)
  w2 := m ((c : Thread nD τ).loc main_arg11)
  b2 := m ((c : Thread nD τ).loc main_arg12)

def P2 (c : Dev nD) : Net.LayerP where
  ew := m ((c : Thread nD τ).loc main_arg13)
  eb := m ((c : Thread nD τ).loc main_arg14)
  w1 := m ((c : Thread nD τ).loc main_arg15)
  b1 := m ((c : Thread nD τ).loc main_arg16)
  g  := m ((c : Thread nD τ).loc main_arg17)
  sh := m ((c : Thread nD τ).loc main_arg18)
  w2 := m ((c : Thread nD τ).loc main_arg19)
  b2 := m ((c : Thread nD τ).loc main_arg20)

def HF (c : Dev nD) : Net.HeadP where
  w1 := m ((c : Thread nD τ).loc main_arg21)
  b1 := m ((c : Thread nD τ).loc main_arg22)
  w2 := m ((c : Thread nD τ).loc main_arg23)
  b2 := m ((c : Thread nD τ).loc main_arg24)
def HB (c : Dev nD) : Net.HeadP where
  w1 := m ((c : Thread nD τ).loc main_arg25)
  b1 := m ((c : Thread nD τ).loc main_arg26)
  w2 := m ((c : Thread nD τ).loc main_arg27)
  b2 := m ((c : Thread nD τ).loc main_arg28)

end Cert.KernelIdeal.Args

namespace Cert.KernelOps
open Cert.KernelIdeal Idealize.ShloMosaic

def ops : Cert.Net.Ops where
  gatherNodes := gatherNodes
  gatherEdges := gatherEdges
  scatterEdges := scatterEdges
  pool := pool
  join := join

end Cert.KernelOps

end
-- ==== Proof.KernelShared.lean ====
import proofs.«414907_j52115133169838_1_alg».proof.Proof.Gen.KernelIdeal.Frame
import proofs.«414907_j52115133169838_1_alg».proof.Proof.KernelArgs
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Layer

open Cert.KernelIdeal.Gen
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

open Cert.KernelIdeal.Args

theorem cast_cast_self {α β : Type} (h1 : α = β) (h2 : β = α) (v : α) : cast h2 (cast h1 v) = v := by subst h1; rfl

def lookupEdges {F : FTy → Type} [FloatOps F] (t : Vec F S100000x128 .f32) (idx : IVec S1600000 32) : Vec F S1600000x128 .f32 :=
  let c : IVec S_ 32 := constantI S_ 32 0#32
  let v0 : IVec S1600000 32 := broadcastInDim S1600000 ![] bcast_S_S1600000 c
  let v1 : IVec S1600000 1 := cmpi .slt idx v0
  let c_0 : IVec S_ 32 := constantI S_ 32 100000#32
  let v2 : IVec S1600000 32 := broadcastInDim S1600000 ![] bcast_S_S1600000 c_0
  let v3 : IVec S1600000 32 := addi idx v2
  let v4 : IVec S1600000 32 := select v1 v3 idx
  let v5 : IVec S1600000x1 32 := broadcastInDim S1600000x1 ![0] bcast_S1600000_S1600000x1_0 v4
  let c_1 : IVec S1 32 := constantI S1 32 99999#32
  let c_2 : IVec S_ 32 := constantI S_ 32 0#32
  let v6 : IVec S1600000x1 32 := broadcastInDim S1600000x1 ![] bcast_S_S1600000x1 c_2
  let v7 : IVec S1600000x1 1 := cmpi .sge v5 v6
  let v8 : IVec S1x1 32 := broadcastInDim S1x1 ![1] bcast_S1_S1x1_1 c_1
  let v9 : IVec S1600000x1 32 := broadcastInDim S1600000x1 ![0, 1] bcast_S1x1_S1600000x1_0_1 v8
  let v10 : IVec S1600000x1 1 := cmpi .sle v5 v9
  let v11 : IVec S1600000x1 1 := andi v7 v10
  let c_3 : IVec S_ 1 := constantI S_ 1 1#1
  let v12 : IVec S1600000 1 := Host.reduce IntOp.andi v11 c_3 reducesTo_S1600000x1_S1600000_d1 h_S_
  let v13 : Vec F S1600000x128 .f32 := Host.gather gather_S100000x128_S1600000x1_S1600000x128_1_0_n_n_0_1_1128 t v5
  let v14 : IVec S1600000x128 1 := broadcastInDim S1600000x128 ![0] bcast_S1600000_S1600000x128_0 v12
  let cst : Vec F S_ .f32 := constant (F := F) S_ .f32 0x7FC00000#32
  let v15 : Vec F S1600000x128 .f32 := broadcastInDim S1600000x128 ![] bcast_S_S1600000x128 cst
  select v14 v13 v15

theorem lookupEdges_ideal (t : Vec Ideal S100000x128 .f32) (idx : IVec S1600000 32) :
    lookupEdges (F := Ideal) t idx = Cert.KernelOps.takeEdges t idx := rfl

section Stretches
variable (X : Valuation τ sig (Elt Ideal))

theorem s0_v1 : (StableHlo.after hostOps0 X (Proc.devRef .tc main_v1) : IVec S1600000 32)
    = Cert.KernelOps.srcWords (X (Proc.devRef .tc main_arg1)) := by
  after_results
  rfl
theorem s0_v3 : (StableHlo.after hostOps0 X (Proc.devRef .tc main_v3) : IVec S1600000 32)
    = Cert.KernelOps.dstWords (X (Proc.devRef .tc main_arg1)) := by
  after_results
  rfl

end Stretches

-- W holds every buffer that ops write
abbrev Sub (ops : List (HloOp τ sig (Elt Ideal))) (W : List (Ref sig .tc)) : Prop :=
  ops.Forall fun op => op.writes ⊆ (W.map (Proc.devRef (τ := τ) .tc)).toFinset

abbrev wr0 : List (Ref sig .tc) := [main_v0, main_v1, main_v2, main_v3, main_v4]
abbrev wr0_1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v5]
abbrev wr0_2 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v6]
abbrev wr0_3 : List (Ref sig .tc) := [main_v7, main_v8]
abbrev wr1 : List (Ref sig .tc) := [main_cst, main_v10, main_v11, main_v12, main_v13, main_v14, main_v15, main_v16]
abbrev wr3 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v19]
abbrev wr3_1 : List (Ref sig .tc) := [main_v20, main_v21]
abbrev wr4 : List (Ref sig .tc) := [main_cst_0, main_v23, main_v24, main_v25, main_v26, main_v27, main_v28, main_v29]

theorem subs : (Sub hostOps0 wr0 ∧ Sub hostOps0_1 wr0_1 ∧ Sub hostOps0_2 wr0_2 ∧ Sub hostOps0_3 wr0_3 ∧ Sub hostOps1 wr1) ∧
    Sub hostOps3 wr3 ∧ Sub hostOps3_1 wr3_1 ∧ Sub hostOps4 wr4 := by
  simp only [Sub, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem keep0 (c : Dev nD) (r : Ref sig .tc) (h : r ∉ wr0 := by decide) :
    W1 m ρ c (Proc.devRef .tc r) = m ((c : Thread nD τ).loc r) :=
  StableHlo.after_of_writes_sub hostOps0 _ subs.1.1 h
theorem keep0_1 (c : Dev nD) (r : Ref sig .tc) (h : r ∉ wr0_1 := by decide) :
    W2 m ρ c (Proc.devRef .tc r) = W1 m ρ c (Proc.devRef .tc r) :=
  StableHlo.after_of_writes_sub hostOps0_1 _ subs.1.2.1 h
theorem keep0_2 (c : Dev nD) (r : Ref sig .tc) (h : r ∉ wr0_2 := by decide) :
    W3 m ρ c (Proc.devRef .tc r) = W2 m ρ c (Proc.devRef .tc r) :=
  StableHlo.after_of_writes_sub hostOps0_2 _ subs.1.2.2.1 h
theorem keep0_3 (c : Dev nD) (r : Ref sig .tc) (h : r ∉ wr0_3 := by decide) :
    W4 m ρ c (Proc.devRef .tc r) = W3 m ρ c (Proc.devRef .tc r) :=
  StableHlo.after_of_writes_sub hostOps0_3 _ subs.1.2.2.2.1 h
theorem keep1 (c : Dev nD) (r : Ref sig .tc) (h : r ∉ wr1 := by decide) :
    W6 m ρ c (Proc.devRef .tc r) = W5 m ρ c (Proc.devRef .tc r) :=
  StableHlo.after_of_writes_sub hostOps1 _ subs.1.2.2.2.2 h

-- arguments and edge words are read several boundaries after they are set: the steps in between, chained
theorem mid (c : Dev nD) (r : Ref sig .tc) (h0 : ∀ w, Pipeline.arrRef spec0 w ≠ r := by decide) (h3 : r ∉ wr0_3 := by decide)
    (h2 : r ∉ wr0_2 := by decide) (h1 : r ∉ wr0_1 := by decide) :
    W5 m ρ c (Proc.devRef .tc r) = W1 m ρ c (Proc.devRef .tc r) :=
  (W5_of_ne m ρ c r h0).trans <| (keep0_3 m ρ c r h3).trans <| (keep0_2 m ρ c r h2).trans (keep0_1 m ρ c r h1)
theorem to4 (c : Dev nD) (r : Ref sig .tc) (h3 : r ∉ wr0_3 := by decide) (h2 : r ∉ wr0_2 := by decide)
    (h1 : r ∉ wr0_1 := by decide) (h : r ∉ wr0 := by decide) : W4 m ρ c (Proc.devRef .tc r) = m ((c : Thread nD τ).loc r) :=
  (keep0_3 m ρ c r h3).trans <| (keep0_2 m ρ c r h2).trans <| (keep0_1 m ρ c r h1).trans (keep0 m ρ c r h)
theorem to5 (c : Dev nD) (r : Ref sig .tc) (h0 : ∀ w, Pipeline.arrRef spec0 w ≠ r := by decide) (h3 : r ∉ wr0_3 := by decide)
    (h2 : r ∉ wr0_2 := by decide) (h1 : r ∉ wr0_1 := by decide) (h : r ∉ wr0 := by decide) :
    W5 m ρ c (Proc.devRef .tc r) = m ((c : Thread nD τ).loc r) :=
  (W5_of_ne m ρ c r h0).trans (to4 m ρ c r h3 h2 h1 h)

theorem early (c : Dev nD) (r : Ref sig .tc) (h5 : ∀ w, Pipeline.arrRef spec2 w ≠ r := by decide)
    (h4 : ∀ w, Pipeline.arrRef spec1 w ≠ r := by decide) (hs : r ∉ wr1 := by decide)
    (h0 : ∀ w, Pipeline.arrRef spec0 w ≠ r := by decide) (h3 : r ∉ wr0_3 := by decide) (h2 : r ∉ wr0_2 := by decide)
    (h1 : r ∉ wr0_1 := by decide) : W8 m ρ c (Proc.devRef .tc r) = W1 m ρ c (Proc.devRef .tc r) :=
  (W8_of_ne m ρ c r h5).trans <| (W7_of_ne m ρ c r h4).trans <| (keep1 m ρ c r hs).trans (mid m ρ c r h0 h3 h2 h1)

theorem row_of_col (A : Vec Ideal S128x1 .f32) (h : S128x1.ShapeCasts S1x128) :
    (fun j : (Spec.Mat 128 1).Idx => shapeCast S1x128 A h (ix2 0 (j 0))) = A := by
  funext j
  refine shapeCast_apply A h (ix2 0 (j 0)) j ?_
  rw [Shape.rowMajor_val_two, Shape.rowMajor_val_two]
  have h1 : (j 1).val < 1 := (j 1).isLt
  show (j 0).val * 1 + (j 1).val = 0 * 128 + (j 0).val
  omega

theorem row_of_vec (B : Vec Ideal S128 .f32) (h : S128.ShapeCasts S1x128) :
    (fun k : (Spec.Vc 128).Idx => shapeCast S1x128 B h (ix2 0 (k 0))) = B := by
  funext k
  rw [shapeCast_a_1a_apply B h 0 (k 0)]
  exact congrArg B (eq_ix1 k).symm

abbrev rowRead (r : Vec Ideal S1x128 .f32) : (Spec.Vc 128).Idx → EReal := fun k => r (ix2 0 (k 0))

-- every bias, scale and shift reaches its region as a [1, 128] row
theorem row_eq {a : Vec Ideal S1x128 .f32} {b : Vec Ideal S128 .f32}
    (h : a = shapeCast S1x128 b shapeCasts_S128_S1x128) : rowRead a = b := h ▸ row_of_vec b _
theorem col_eq {a : Vec Ideal S1x128 .f32} {b : Vec Ideal S128x1 .f32}
    (h : a = shapeCast S1x128 b shapeCasts_S128x1_S1x128) : (fun j : (Spec.Mat 128 1).Idx => a (ix2 0 (j 0))) = b :=
  h ▸ row_of_col b _

theorem ops_gatherEdges (h : Net.RM 100000 128) (e : Net.WM 2 1600000) :
    Cert.KernelOps.ops.gatherEdges h e = Cert.KernelOps.takeEdges h (Cert.KernelOps.srcWords e) := by
  simp only [Cert.KernelOps.ops, Cert.KernelOps.gatherEdges]
theorem ops_scatterEdges (u : Net.RM 1600000 128) (e : Net.WM 2 1600000) :
    Cert.KernelOps.ops.scatterEdges u e
      = Host.scatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (Cert.KernelOps.dstWords e)) u := rfl

-- both rows of the statistics are read this way, in both layers
theorem stat_row {s s' : Vec Ideal S2x128 .f32} {z z' : Net.RM 100000 128} (f : Net.RM 100000 128 → Net.RV 128) (i : Fin 2)
    (hs : s' = s) (hz : z = z') (h : ∀ q : Fin 128, s (ix2 i q) = f z (ix1 q)) :
    (fun k : (Spec.Vc 128).Idx => s' (ix2 i (k 0))) = f z' := by
  subst hs hz
  exact funext fun k => (h (k 0)).trans (congrArg (f z) (eq_ix1 k).symm)

end Cert.KernelIdeal.Layer

end
-- ==== Proof.RowBlocks.lean ====
import Idealize.ShloMosaic.Lib.ValueLayout
import Idealize.ShloMosaic.Lib.StackMember

namespace Cert.RowBlocks

open Idealize.ShloMosaic Idealize.ShloMosaic.ValueIdx

theorem hz : (![0, 0] : Fin 2 → ℕ) = fun _ => 0 := funext fun a => by fin_cases a <;> rfl

-- A column broadcast along the rows reads, at any entry, the column's entry of that row.
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

-- An m×k matrix times the transpose of an n×k one, into zero, is at (p, q) the sum over the contracted coordinate.
theorem product_apply {m k n : ℕ} (d : DotDims ⟨2, ![m, k]⟩ ⟨2, ![k, n]⟩ ⟨2, ![m, n]⟩) (hd : d = DotDims.plain m k n)
    (x : FVec Ideal ⟨2, ![m, k]⟩ .f32) (w : FVec Ideal ⟨2, ![n, k]⟩ .f32)
    (h : (⟨2, ![n, k]⟩ : Shape).Transposes [1, 0] ⟨2, ![k, n]⟩) (p : Fin m) (q : Fin n) :
    matmul d none x (transpose ⟨2, ![k, n]⟩ [1, 0] w h) (constant ⟨2, ![m, n]⟩ .f32 0x00000000#32) (ix2 p q)
      = ∑ l : Fin k, x (ix2 p l) * w (ix2 q l) := by
  subst hd
  refine ((congrFun (matmul_zero_eq_dotGeneral _ none x _) _).trans
    (StackMember.dotGeneral_plain_apply none x _ p q)).trans (Finset.sum_congr rfl fun l _ => ?_)
  rw [transpose_ix2_apply]

/-- `e` sends row `p` of a block of `r` rows to row `n * r + p` of the array and keeps the column. -/
def RowsAt {r R c : ℕ} (n : ℕ) (e : (⟨2, ![r, c]⟩ : Shape).Idx → (⟨2, ![R, c]⟩ : Shape).Idx) : Prop :=
  ∀ y, (e y 0 : ℕ) = n * r + y 0 ∧ (e y 1 : ℕ) = y 1

-- A block coordinate is block index × block size + the coordinate inside: at block index (n, 0) that is `RowsAt n`.
theorem RowsAt.of {r R c n : ℕ} {i : Fin 2 → ℕ} {e : (⟨2, ![r, c]⟩ : Shape).Idx → (⟨2, ![R, c]⟩ : Shape).Idx}
    (hi : i = ![n, 0]) (h : ∀ (y) (a : Fin 2), (e y a : ℕ) = i a * ![r, c] a + y a) : RowsAt n e := by
  subst hi
  exact fun y => ⟨h y 0, (h y 1).trans (by show 0 * c + (y 1 : ℕ) = y 1; omega)⟩

theorem RowsAt.apply {r R c n : ℕ} {e : (⟨2, ![r, c]⟩ : Shape).Idx → (⟨2, ![R, c]⟩ : Shape).Idx} (h : RowsAt n e)
    (k : Fin R) (p : Fin r) (hk : (k : ℕ) = n * r + p) (q : Fin c) : e (ix2 p q) = ix2 k q :=
  Shape.idx_ext₂ ((h _).1.trans hk.symm) (h _).2

-- At block index (0, 0), with the block the whole array, a block coordinate is the array's.
theorem whole_of {d i : Fin 2 → ℕ} {e : (⟨2, d⟩ : Shape).Idx → (⟨2, d⟩ : Shape).Idx} (hi : i = ![0, 0])
    (h : ∀ (y) (a : Fin 2), (e y a : ℕ) = i a * d a + y a) (y) : e y = y :=
  funext fun a => Fin.ext (by rw [h, hi, hz, Nat.zero_mul, Nat.zero_add])

-- Row `x 0` lies in the block of `r` rows with index `x 0 / r`; every column lies in the one block of columns.
theorem mem_rows {r R c : ℕ} (hr : 0 < r) (x : (⟨2, ![R, c]⟩ : Shape).Idx) {i : Fin 2 → ℕ} (hi : i = ![(x 0 : ℕ) / r, 0])
    (a : Fin 2) : i a * ![r, c] a ≤ x a ∧ (x a : ℕ) < i a * ![r, c] a + ![r, c] a := by
  subst hi
  match a with
  | ⟨0, _⟩ => exact ⟨Nat.div_mul_le_self _ _, Nat.lt_div_mul_add hr⟩
  | ⟨1, _⟩ =>
    have : (x 1 : ℕ) < c := (x 1).isLt
    show 0 * c ≤ (x 1 : ℕ) ∧ (x 1 : ℕ) < 0 * c + c
    omega

end Cert.RowBlocks
-- ==== Proof.EdgeRegion0.lean ====
import proofs.«414907_j52115133169838_1_alg».proof.Proof.Gen.KernelIdeal.Frame
import proofs.«414907_j52115133169838_1_alg».proof.Proof.Spec
import proofs.«414907_j52115133169838_1_alg».proof.Proof.RowBlocks
import Idealize.ShloMosaic.Lib.ValueLayout
import Idealize.ShloMosaic.PureOps.Ideal.Laws

noncomputable section

namespace Cert.KernelIdeal.EdgeRegion0

open Cert.KernelIdeal.Gen Cert.RowBlocks
open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

abbrev xg (c : Dev nD) : Vec Ideal S1600000x128 .f32 := V c (Pipeline.arrRef spec0 0)
abbrev ea (c : Dev nD) : Vec Ideal S1600000x1 .f32 := V c (Pipeline.arrRef spec0 1)
abbrev ewRow (c : Dev nD) : Vec Ideal S1x128 .f32 := V c (Pipeline.arrRef spec0 2)
abbrev ebRow (c : Dev nD) : Vec Ideal S1x128 .f32 := V c (Pipeline.arrRef spec0 3)
abbrev out (c : Dev nD) : Vec Ideal S1600000x128 .f32 := (dat0 (F := Ideal) V c).arrAt 4 cfg0.N

theorem pay_apply (v0 : Vec Ideal S8000x1 .f32) (v1 v3 : Vec Ideal S1x128 .f32) (v10 : Vec Ideal S8000x128 .f32)
    (p : Fin 8000) (q : Fin 128) :
    k0_pay1 (F := Ideal) v0 v1 v3 v10 (ix2 p q)
      = max (v10 (ix2 p q) + (v0 (ix2 p 0) * v1 (ix2 0 q) + v3 (ix2 0 q))) 0 := by
  unfold k0_pay1
  simp only [maximumf_apply, addf_apply, mulf_apply, broadcast_apply, shapeCast_self]
  rw [broadcastTo_col_apply v0 _ p q, broadcastTo_1b_ab_apply v1 _ p q, broadcastTo_1b_ab_apply v3 _ p q]
  show max _ (Ideal.ofBits .f32 0x00000000#32) = _
  rw [Ideal.ofBits_zero_f32]

abbrev msgOf (XG : Vec Ideal S1600000x128 .f32) (EA : Vec Ideal S1600000x1 .f32) (EW EB : Vec Ideal S1x128 .f32) :
    Vec Ideal S1600000x128 .f32 :=
  Spec.message XG (Spec.edgeLin EA (fun j => EW (ix2 0 (j 0))) (fun k => EB (ix2 0 (k 0))))

-- Every entry of the result depends on its own row only, so block `n` of the result is block `n` of the message array.
theorem out_read (XG : Vec Ideal S1600000x128 .f32) (EA : Vec Ideal S1600000x1 .f32) (EW EB : Vec Ideal S1x128 .f32) (n : ℕ)
    {e4 e0 : S8000x128.Idx → S1600000x128.Idx} {e1 : S8000x1.Idx → S1600000x1.Idx} {e2 e3 : S1x128.Idx → S1x128.Idx}
    (h4 : RowsAt n e4) (h0 : RowsAt n e0) (h1 : RowsAt n e1) (h2 : ∀ y, e2 y = y) (h3 : ∀ y, e3 y = y) :
    out0_4 (F := Ideal) (fun y => XG (e0 y)) (fun y => EA (e1 y)) (fun y => EW (e2 y)) (fun y => EB (e3 y))
      = fun y => msgOf XG EA EW EB (e4 y) := by
  unfold out0_4
  rw [View.canon_unit_zero hz]
  simp only [View.ld_unit_zero (S := S8000x128) hz, View.ld_unit_zero (S := S8000x1) hz, View.ld_unit_zero (S := S1x128) hz, h2, h3]
  funext y
  obtain ⟨p, q, rfl⟩ : ∃ (p : Fin 8000) (q : Fin 128), y = ix2 p q := ⟨y 0, y 1, eq_ix2 y⟩
  obtain ⟨k, hk⟩ : ∃ k : Fin 1600000, (k : ℕ) = n * 8000 + p := ⟨e4 (ix2 p q) 0, (h4 _).1⟩
  rw [pay_apply, h0.apply k p hk, h1.apply k p hk, h4.apply k p hk]
  rfl

theorem idx : ∀ t : Fin cfg0.N, win0_4.index t = ![t.val, 0] ∧ win0_0.index t = ![t.val, 0] ∧ win0_1.index t = ![t.val, 0]
    ∧ win0_2.index t = ![0, 0] ∧ win0_3.index t = ![0, 0] :=
  (by decide +kernel : ∀ t : Fin grid0.N, _)

theorem flushed_eq (c : Dev nD) (t : Fin cfg0.N) :
    (dat0 (F := Ideal) V c).flushed 4 t
      = ((cfg0.win 4).blk t).view.read (Elt Ideal) (msgOf (xg V c) (ea V c) (ewRow V c) (ebRow V c)) := by
  obtain ⟨h4, h0, h1, h2, h3⟩ := idx t
  exact (after0_4 V c t).trans (out_read (xg V c) (ea V c) (ewRow V c) (ebRow V c) t.val
    (.of h4 (win0_4.rect_emb_val t)) (.of h0 (win0_0.rect_emb_val t)) (.of h1 (win0_1.rect_emb_val t))
    (whole_of h2 (win0_2.rect_emb_val t)) (whole_of h3 (win0_3.rect_emb_val t)) :)

theorem cover (i : S1600000x128.Idx) :
    ∃ t : Fin cfg0.N, (cfg0.win 4).flush t = true ∧ i ∈ ((cfg0.win 4).blk t).view.set := by
  have hi : (i 0).val < 1600000 := (i 0).isLt
  have hN : cfg0.N = 200 := N_0
  obtain ⟨t, ht⟩ : ∃ t : Fin cfg0.N, t.val = (i 0).val / 8000 := ⟨⟨(i 0).val / 8000, by rw [hN]; omega⟩, rfl⟩
  refine ⟨t, flush0_4 t, ?_⟩
  show i ∈ ((View.whole main_v9).slice (win0_4.rect t)).set
  rw [View.set_slice_whole, Rect.mem_set_unit]
  exact mem_rows (by decide) i ((idx t).1.trans (by rw [ht]))

theorem value (c : Dev nD) :
    out V c = Spec.message (xg V c)
      (Spec.edgeLin (ea V c) (fun j => ewRow V c (ix2 0 (j 0))) (fun k => ebRow V c (ix2 0 (k 0)))) :=
  (dat0 (F := Ideal) V c).arrAt_eq_of_cover 4 _ (fun t _ => flushed_eq V c t) cover

end Cert.KernelIdeal.EdgeRegion0

end
-- ==== Proof.Stats.lean ====
import proofs.«414907_j52115133169838_1_alg».proof.Proof.Gen.KernelIdeal.Frame
import proofs.«414907_j52115133169838_1_alg».proof.Proof.Spec
import proofs.«414907_j52115133169838_1_alg».proof.Proof.RowBlocks
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost
import Idealize.ShloMosaic.Lib.StackMember

noncomputable section

namespace Cert.KernelIdeal.Stats

open Cert.KernelIdeal.Gen Cert.RowBlocks
open Idealize.ShloMosaic Idealize.ShloMosaic.TcCoe Idealize.ShloMosaic.Tactic Idealize.ShloMosaic.ValueIdx
open Idealize.SL Idealize.SL.Sem

def blockRow (t : Fin 20) (r : Fin 5000) : Fin 100000 := ⟨5000 * t.val + r.val, by have := t.isLt; have := r.isLt; omega⟩

-- a sum over 100000 rows, regrouped as 20 consecutive runs of 5000
theorem sum_rows_eq_range {M : Type*} [AddCommMonoid M] (f : Fin 100000 → M) :
    ∑ i, f i = ∑ t ∈ Finset.range 20, if h : t < 20 then ∑ r : Fin 5000, f (blockRow ⟨t, h⟩ r) else 0 := by
  have e : ∑ i, f i = ∑ t : Fin 20, ∑ r : Fin 5000, f (blockRow t r) := by
    rw [← Fintype.sum_prod_type']
    refine Fintype.sum_equiv (finProdFinEquiv (m := 20) (n := 5000)).symm _ _ fun i => congrArg f (Fin.ext ?_)
    simp only [blockRow, finProdFinEquiv, Equiv.coe_fn_symm_mk, Fin.divNat, Fin.modNat]
    have := Nat.div_add_mod i.val 5000
    omega
  rw [e, ← Fin.sum_univ_eq_sum_range (fun t => if h : t < 20 then ∑ r : Fin 5000, f (blockRow ⟨t, h⟩ r) else 0) 20]
  exact Fintype.sum_congr _ _ fun t => by simp [t.isLt]

-- the dot record is the plain matrix product, so at (p, q) it is the dot product of row p and column q
theorem matmul_zero_apply (l : FVec Ideal S5000x128 .f32) (r : FVec Ideal S128x128 .f32) (p : Fin 5000) (q : Fin 128) :
    matmul dot_S5000x128_S128x128_S5000x128_1_0_0_1_n_n none l r (constant (F := Ideal) S5000x128 .f32 0x00000000#32) (ix2 p q) = ∑ k : Fin 128, l (ix2 p k) * r (ix2 k q) :=
  (congrFun (matmul_zero_eq_dotGeneral dot_S5000x128_S128x128_S5000x128_1_0_0_1_n_n none l r) (ix2 p q)).trans (StackMember.dotGeneral_plain_apply none l r p q)

theorem pay4_apply (x0 x1 : Vec Ideal S5000x128 .f32) (x2 : Vec Ideal S128x128 .f32) (x3 : Vec Ideal S1x128 .f32)
    (p : Fin 5000) (q : Fin 128) :
    k1_pay4 (F := Ideal) x0 x1 x2 x3 (ix2 p q) = (∑ k : Fin 128, (x0 (ix2 p k) + x1 (ix2 p k)) * x2 (ix2 q k)) + x3 (ix2 0 q) := by
  unfold k1_pay4
  refine (addf_apply _ _ (ix2 p q)).trans (congrArg₂ (· + ·) ((matmul_zero_apply _ _ p q).trans ?_) ?_)
  · refine Finset.sum_congr rfl fun k _ => congrArg₂ (· * ·) ?_ (transpose_ix2_apply x2 transposes_S128x128_p1_0_S128x128 k q)
    rw [shapeCast_self, shapeCast_self]; rfl
  · rw [shapeCast_self]
    exact broadcastTo_1b_ab_apply x3 broadcasts_S1x128_S5000x128 p q

theorem colsum_apply (src : FVec Ideal S5000x128 .f32) (q : Fin 128) :
    shapeCast S1x128 (multiReduction .add [0] S128 src 0x00000000#32 reduces_S5000x128_S128 (.inl rfl) rfl) shapeCasts_S128_S1x128 (ix2 (0 : Fin 1) q)
      = ∑ r : Fin 5000, src (ix2 r q) := by
  refine (shapeCast_a_1a_apply _ shapeCasts_S128_S1x128 (0 : Fin 1) q).trans ?_
  refine (Ideal.multiReduction_add_single src 0x00000000#32 reduces_S5000x128_S128 (.inl rfl) rfl (ix1 q)).trans ?_
  exact Finset.sum_congr rfl fun r _ => congrArg src (Shape.idx_ext₂ rfl rfl)

section AnyFloat
variable {F : FTy → Type} [FloatOps F]

abbrev row0 : Rect S2x128 := Rect.unit (s := S2x128) ![0, 0] ![1, 128] inb_S2x128_S1x128_0_0
abbrev row1 : Rect S2x128 := Rect.unit (s := S2x128) ![1, 0] ![1, 128] inb_S2x128_S1x128_1_0
abbrev whole2 (w : Vec F S2x128 .f32) : View.Piece (Elt F) S2x128 .f32 :=
  ⟨Rect.unit (s := S2x128) ![0, 0] ![2, 128] inb_S2x128_S2x128_0_0, w⟩

def rowOf (s : Vec F S2x128 .f32) (r : Fin 2) : Vec F S1x128 .f32 := fun y => s (ix2 r (y 1 : Fin 128))
def twoRows (w0 w1 : Vec F S1x128 .f32) : Vec F S2x128 .f32 :=
  fun j => if (j 0).val = 0 then w0 (ix2 (0 : Fin 1) (j 1 : Fin 128)) else w1 (ix2 (0 : Fin 1) (j 1 : Fin 128))

theorem twoRows_apply0 (w0 w1 : Vec F S1x128 .f32) (q : Fin 128) : twoRows w0 w1 (ix2 (0 : Fin 2) q) = w0 (ix2 (0 : Fin 1) q) := by
  unfold twoRows; exact if_pos rfl
theorem twoRows_apply1 (w0 w1 : Vec F S1x128 .f32) (q : Fin 128) : twoRows w0 w1 (ix2 (1 : Fin 2) q) = w1 (ix2 (0 : Fin 1) q) := by
  unfold twoRows; exact if_neg (show ¬((1 : Fin 2).val = 0) by decide)
theorem rowOf_apply (s : Vec F S2x128 .f32) (r : Fin 2) (u : Fin 1) (q : Fin 128) : rowOf s r (ix2 u q) = s (ix2 r q) := rfl

-- a one-row or two-row block is determined by its entries (row, column)
theorem ext1 {α : Type} {f g : S1x128.Idx → α} (h : ∀ q : Fin 128, f (ix2 (0 : Fin 1) q) = g (ix2 (0 : Fin 1) q)) : f = g :=
  funext fun y => by
    obtain ⟨u, q, rfl⟩ : ∃ (u : Fin 1) (q : Fin 128), y = ix2 u q := ⟨y 0, y 1, eq_ix2 y⟩
    obtain rfl : u = 0 := Subsingleton.elim _ _
    exact h q
theorem ext2 {α : Type} {f g : S2x128.Idx → α} (h0 : ∀ q : Fin 128, f (ix2 (0 : Fin 2) q) = g (ix2 (0 : Fin 2) q))
    (h1 : ∀ q : Fin 128, f (ix2 (1 : Fin 2) q) = g (ix2 (1 : Fin 2) q)) : f = g :=
  funext fun j => by
    obtain ⟨r, q, rfl⟩ : ∃ (r : Fin 2) (q : Fin 128), j = ix2 r q := ⟨j 0, j 1, eq_ix2 j⟩
    match r with
    | ⟨0, _⟩ => exact h0 q
    | ⟨1, _⟩ => exact h1 q

theorem row0_emb (q : Fin 128) : row0.emb (ix2 (0 : Fin 1) q) = ix2 (0 : Fin 2) q :=
  Shape.idx_ext₂ rfl (show 0 + 1 * q.val = q.val by omega)
theorem row1_emb (q : Fin 128) : row1.emb (ix2 (0 : Fin 1) q) = ix2 (1 : Fin 2) q :=
  Shape.idx_ext₂ rfl (show 0 + 1 * q.val = q.val by omega)

theorem ld_row0 (X : Vec F S2x128 .f32) : View.ld X row0 = rowOf X 0 :=
  ext1 fun q => by show X (row0.emb (ix2 (0 : Fin 1) q)) = _; rw [row0_emb, rowOf_apply]
theorem ld_row1 (X : Vec F S2x128 .f32) : View.ld X row1 = rowOf X 1 :=
  ext1 fun q => by show X (row1.emb (ix2 (0 : Fin 1) q)) = _; rw [row1_emb, rowOf_apply]

theorem rows_disjoint : Disjoint row0.set row1.set :=
  Rect.unit_disjoint (0 : Fin 2) (Or.inl (by decide))

theorem not_mem_row1 (q : Fin 128) : ix2 (0 : Fin 2) q ∉ row1.set := fun h => by
  have h1 : 1 ≤ 0 := ((Rect.mem_set_unit.mp h) (0 : Fin 2)).1
  omega

-- the two row stores are disjoint and come last, so they decide both rows
theorem canon_rows (w1 w0 : Vec F S1x128 .f32) (L : List (View.Piece (Elt F) S2x128 .f32)) :
    View.canon ((⟨row1, w1⟩ : View.Piece (Elt F) S2x128 .f32) :: ⟨row0, w0⟩ :: L) = twoRows w0 w1 :=
  ext2
    (fun q => by
      refine (View.canon_cons_of_not_mem (Val := Elt F) (⟨row1, w1⟩ : View.Piece (Elt F) S2x128 .f32) (⟨row0, w0⟩ :: L) (not_mem_row1 q)).trans ?_
      have e := View.canon_cons_emb (Val := Elt F) row0 w0 L (ix2 (0 : Fin 1) q)
      rw [row0_emb] at e
      exact e.trans (twoRows_apply0 w0 w1 q).symm)
    (fun q => by
      have e := View.canon_cons_emb (Val := Elt F) row1 w1 (⟨row0, w0⟩ :: L) (ix2 (0 : Fin 1) q)
      rw [row1_emb] at e
      exact e.trans (twoRows_apply1 w0 w1 q).symm)

theorem readCov_rows_0 {sig' : RefSig} {κ : Kind} {sp : Space} (v : View sig' κ sp S2x128 .f32) (w1 w0 : Vec F S1x128 .f32)
    (L : List (View.Piece (Elt F) S2x128 .f32)) :
    v.readCov ((⟨row1, w1⟩ : View.Piece (Elt F) S2x128 .f32) :: ⟨row0, w0⟩ :: L) row0.toLoadRect = w0 :=
  (View.readCov_cons_of_disjoint (Val := Elt F) v (⟨row1, w1⟩ : View.Piece (Elt F) S2x128 .f32) (⟨row0, w0⟩ :: L) row0.toLoadRect rows_disjoint.symm).trans
    (View.readCov_cons_toLoadRect (Val := Elt F) v row0 w0 L)
theorem readCov_rows_1 {sig' : RefSig} {κ : Kind} {sp : Space} (v : View sig' κ sp S2x128 .f32) (w1 : Vec F S1x128 .f32)
    (L : List (View.Piece (Elt F) S2x128 .f32)) :
    v.readCov ((⟨row1, w1⟩ : View.Piece (Elt F) S2x128 .f32) :: L) row1.toLoadRect = w1 :=
  View.readCov_cons_toLoadRect (Val := Elt F) v row1 w1 L

theorem readCov_whole_row0 {sig' : RefSig} {κ : Kind} {sp : Space} (v : View sig' κ sp S2x128 .f32) (w : Vec F S2x128 .f32) :
    v.readCov [whole2 w] row0.toLoadRect = rowOf w 0 := by
  refine (View.readCov_eq_canon' (Val := Elt F) v [whole2 w] row0.toLoadRect).trans ?_
  rw [View.canon_unit_zero hz]
  exact ld_row0 w
theorem readCov_whole_row1 {sig' : RefSig} {κ : Kind} {sp : Space} (v : View sig' κ sp S2x128 .f32) (w : Vec F S2x128 .f32) (w0 : Vec F S1x128 .f32) :
    v.readCov [(⟨row0, w0⟩ : View.Piece (Elt F) S2x128 .f32), whole2 w] row1.toLoadRect = rowOf w 1 := by
  refine (View.readCov_cons_of_disjoint (Val := Elt F) v (⟨row0, w0⟩ : View.Piece (Elt F) S2x128 .f32) [whole2 w] row1.toLoadRect rows_disjoint).trans ?_
  refine (View.readCov_eq_canon' (Val := Elt F) v [whole2 w] row1.toLoadRect).trans ?_
  rw [View.canon_unit_zero hz]
  exact ld_row1 w

-- the per-block step on the two accumulated rows, and the final normalisation
def upd (s : Vec F S2x128 .f32) (x0 x1 : Vec F S5000x128 .f32) (x2 : Vec F S128x128 .f32) (x3 : Vec F S1x128 .f32) : Vec F S2x128 .f32 :=
  twoRows (k1_pay5 x0 x1 x2 x3 (rowOf s 0)) (k1_pay6 x0 x1 x2 x3 (rowOf s 1))

def closing (s : Vec F S2x128 .f32) : Vec F S2x128 .f32 :=
  twoRows (k1_pay1 (rowOf s 0)) (k1_pay2 (rowOf s 0) (rowOf s 1))

theorem rowOf_rows0 (w0 w1 : Vec F S1x128 .f32) : rowOf (twoRows w0 w1) 0 = w0 :=
  ext1 fun q => by rw [rowOf_apply, twoRows_apply0]
theorem rowOf_rows1 (w0 w1 : Vec F S1x128 .f32) : rowOf (twoRows w0 w1) 1 = w1 :=
  ext1 fun q => by rw [rowOf_apply, twoRows_apply1]

variable (c : Dev nD) (i : grid1.Coords)
  (a1 : Memref sig .tc .vmem S5000x128 .f32) (h1 : a1.IsWhole) (a2 : Memref sig .tc .vmem S5000x128 .f32) (h2 : a2.IsWhole)
  (a3 : Memref sig .tc .vmem S128x128 .f32) (h3 : a3.IsWhole) (a4 : Memref sig .tc .vmem S1x128 .f32) (h4 : a4.IsWhole)
  (a5 : Memref sig .tc .vmem S5000x128 .f32) (h5 : a5.IsWhole) (a6 : Memref sig .tc .vmem S2x128 .f32) (h6 : a6.IsWhole)
  (x0 x1 : Vec F S5000x128 .f32) (x2 : Vec F S128x128 .f32) (x3 : Vec F S1x128 .f32) (xo5 : Vec F S2x128 .f32)

-- in each of the three cases the stores leave the block's linear map and the stepped (at the end, normalised) rows
theorem canonA (hc0 : cond1_0 i) (hc1 : ¬cond1_1 i) :
    View.canon (kernelRun1_A c i a1 h1 a2 h2 a3 h3 a4 h4 a5 h5 a6 h6 hc0 hc1 x0 x1 x2 x3).1 = k1_pay4 x0 x1 x2 x3
    ∧ View.canon (kernelRun1_A c i a1 h1 a2 h2 a3 h3 a4 h4 a5 h5 a6 h6 hc0 hc1 x0 x1 x2 x3).2.1 = upd (k1_pay3 (F := F)) x0 x1 x2 x3 := by
  unfold kernelRun1_A
  dsimp only
  sl_unfold_words
  rw [View.canon_unit_zero hz, canon_rows]
  simp only [View.readAt_eq_ld, h1.read_unread, h2.read_unread, h3.read_unread, h4.read_unread,
    View.ld_unit_zero (S := ⟨2, _⟩) hz,
    readCov_whole_row0, readCov_whole_row1]
  exact ⟨trivial, rfl⟩

theorem canonB (hc0 : ¬cond1_0 i) (hc1 : ¬cond1_1 i) :
    View.canon (kernelRun1_B c i a1 h1 a2 h2 a3 h3 a4 h4 a5 h5 a6 h6 hc0 hc1 x0 x1 x2 x3 xo5).1 = k1_pay4 x0 x1 x2 x3
    ∧ View.canon (kernelRun1_B c i a1 h1 a2 h2 a3 h3 a4 h4 a5 h5 a6 h6 hc0 hc1 x0 x1 x2 x3 xo5).2.1 = upd xo5 x0 x1 x2 x3 := by
  unfold kernelRun1_B
  dsimp only
  sl_unfold_words
  rw [View.canon_unit_zero hz, canon_rows]
  simp only [View.readAt_eq_ld, h1.read_unread, h2.read_unread, h3.read_unread, h4.read_unread, h6.read_unread,
    View.ld_unit_zero (S := ⟨2, _⟩) hz,
    ld_row0, ld_row1]
  exact ⟨trivial, rfl⟩

theorem canonC (hc0 : ¬cond1_0 i) (hc1 : cond1_1 i) :
    View.canon (kernelRun1_C c i a1 h1 a2 h2 a3 h3 a4 h4 a5 h5 a6 h6 hc0 hc1 x0 x1 x2 x3 xo5).1 = k1_pay4 x0 x1 x2 x3
    ∧ View.canon (kernelRun1_C c i a1 h1 a2 h2 a3 h3 a4 h4 a5 h5 a6 h6 hc0 hc1 x0 x1 x2 x3 xo5).2.1 = closing (upd xo5 x0 x1 x2 x3) := by
  unfold kernelRun1_C
  dsimp only
  sl_unfold_words
  rw [View.canon_unit_zero hz, canon_rows]
  simp only [View.readAt_eq_ld, h1.read_unread, h2.read_unread, h3.read_unread, h4.read_unread, h6.read_unread,
    View.ld_unit_zero (S := ⟨2, _⟩) hz,
    ld_row0, ld_row1, readCov_rows_0, readCov_rows_1]
  unfold closing upd
  rw [rowOf_rows0, rowOf_rows1]
  exact ⟨trivial, rfl⟩

end AnyFloat

theorem pay3_apply (j : S2x128.Idx) : k1_pay3 (F := Ideal) j = 0 := Ideal.ofBits_zero_f32

theorem pay5_apply (x0 x1 : Vec Ideal S5000x128 .f32) (x2 : Vec Ideal S128x128 .f32) (x3 v21 : Vec Ideal S1x128 .f32) (q : Fin 128) :
    k1_pay5 (F := Ideal) x0 x1 x2 x3 v21 (ix2 (0 : Fin 1) q)
      = v21 (ix2 (0 : Fin 1) q) + ∑ r : Fin 5000, k1_pay4 (F := Ideal) x0 x1 x2 x3 (ix2 r q) := by
  unfold k1_pay5
  refine (addf_apply _ _ (ix2 (0 : Fin 1) q)).trans (congrArg₂ (· + ·) ?_ (colsum_apply (k1_pay4 (F := Ideal) x0 x1 x2 x3) q))
  rw [shapeCast_self]

theorem pay6_apply (x0 x1 : Vec Ideal S5000x128 .f32) (x2 : Vec Ideal S128x128 .f32) (x3 v25 : Vec Ideal S1x128 .f32) (q : Fin 128) :
    k1_pay6 (F := Ideal) x0 x1 x2 x3 v25 (ix2 (0 : Fin 1) q)
      = v25 (ix2 (0 : Fin 1) q) + ∑ r : Fin 5000, k1_pay4 (F := Ideal) x0 x1 x2 x3 (ix2 r q) * k1_pay4 (F := Ideal) x0 x1 x2 x3 (ix2 r q) := by
  unfold k1_pay6
  refine (addf_apply _ _ (ix2 (0 : Fin 1) q)).trans (congrArg₂ (· + ·) ?_
    (colsum_apply (mulf (k1_pay4 (F := Ideal) x0 x1 x2 x3) (k1_pay4 (F := Ideal) x0 x1 x2 x3)) q))
  rw [shapeCast_self]

theorem pay1_apply (v32 : Vec Ideal S1x128 .f32) (q : Fin 128) :
    k1_pay1 (F := Ideal) v32 (ix2 (0 : Fin 1) q) = Ideal.div (v32 (ix2 (0 : Fin 1) q)) Spec.rows := by
  unfold k1_pay1
  refine (divf_apply _ _ (ix2 (0 : Fin 1) q)).trans ?_
  rw [shapeCast_self]
  show Ideal.div (v32 (ix2 (0 : Fin 1) q)) (Ideal.ofBits .f32 0x47C35000#32) = _
  rw [Cert.Consts.ofBits_rows]

theorem pay2_apply (v32 v36 : Vec Ideal S1x128 .f32) (q : Fin 128) :
    k1_pay2 (F := Ideal) v32 v36 (ix2 (0 : Fin 1) q)
      = Ideal.div (v36 (ix2 (0 : Fin 1) q)) Spec.rows
        - Ideal.div (v32 (ix2 (0 : Fin 1) q)) Spec.rows * Ideal.div (v32 (ix2 (0 : Fin 1) q)) Spec.rows := by
  unfold k1_pay2
  refine (subf_apply _ _ (ix2 (0 : Fin 1) q)).trans (congrArg₂ (· - ·) ((divf_apply _ _ (ix2 (0 : Fin 1) q)).trans ?_)
    ((mulf_apply _ _ (ix2 (0 : Fin 1) q)).trans ?_))
  · rw [shapeCast_self]
    show Ideal.div (v36 (ix2 (0 : Fin 1) q)) (Ideal.ofBits .f32 0x47C35000#32) = _
    rw [Cert.Consts.ofBits_rows]
  · rw [pay1_apply]

theorem upd_apply0 (s : Vec Ideal S2x128 .f32) (x0 x1 : Vec Ideal S5000x128 .f32) (x2 : Vec Ideal S128x128 .f32) (x3 : Vec Ideal S1x128 .f32) (q : Fin 128) :
    upd s x0 x1 x2 x3 (ix2 (0 : Fin 2) q) = s (ix2 (0 : Fin 2) q) + ∑ r : Fin 5000, k1_pay4 (F := Ideal) x0 x1 x2 x3 (ix2 r q) := by
  unfold upd
  rw [twoRows_apply0, pay5_apply, rowOf_apply]
theorem upd_apply1 (s : Vec Ideal S2x128 .f32) (x0 x1 : Vec Ideal S5000x128 .f32) (x2 : Vec Ideal S128x128 .f32) (x3 : Vec Ideal S1x128 .f32) (q : Fin 128) :
    upd s x0 x1 x2 x3 (ix2 (1 : Fin 2) q)
      = s (ix2 (1 : Fin 2) q) + ∑ r : Fin 5000, k1_pay4 (F := Ideal) x0 x1 x2 x3 (ix2 r q) * k1_pay4 (F := Ideal) x0 x1 x2 x3 (ix2 r q) := by
  unfold upd
  rw [twoRows_apply1, pay6_apply, rowOf_apply]
theorem closing_apply0 (s : Vec Ideal S2x128 .f32) (q : Fin 128) :
    closing s (ix2 (0 : Fin 2) q) = Ideal.div (s (ix2 (0 : Fin 2) q)) Spec.rows := by
  unfold closing
  rw [twoRows_apply0, pay1_apply, rowOf_apply]
theorem closing_apply1 (s : Vec Ideal S2x128 .f32) (q : Fin 128) :
    closing s (ix2 (1 : Fin 2) q) = Ideal.div (s (ix2 (1 : Fin 2) q)) Spec.rows
      - Ideal.div (s (ix2 (0 : Fin 2) q)) Spec.rows * Ideal.div (s (ix2 (0 : Fin 2) q)) Spec.rows := by
  unfold closing
  rw [twoRows_apply1, pay2_apply, rowOf_apply, rowOf_apply]

section Run

variable {N : ℕ} (xb ab : Fin N → Vec Ideal S5000x128 .f32) (wb : Fin N → Vec Ideal S128x128 .f32)
  (bb : Fin N → Vec Ideal S1x128 .f32) (o : (n : ℕ) → n < N → Vec Ideal S5000x128 .f32 × Vec Ideal S2x128 .f32)

def zb (t : Fin N) : Vec Ideal S5000x128 .f32 := k1_pay4 (F := Ideal) (xb t) (ab t) (wb t) (bb t)

def colSum (q : Fin 128) (t : ℕ) : EReal :=
  if h : t < N then ∑ r : Fin 5000, zb xb ab wb bb ⟨t, h⟩ (ix2 r q) else 0
def colSq (q : Fin 128) (t : ℕ) : EReal :=
  if h : t < N then ∑ r : Fin 5000, zb xb ab wb bb ⟨t, h⟩ (ix2 r q) * zb xb ab wb bb ⟨t, h⟩ (ix2 r q) else 0

-- partial sums over the first n blocks: column sums in row 0, sums of squares in row 1
def acc (n : ℕ) : Vec Ideal S2x128 .f32 :=
  twoRows (fun y => ∑ t ∈ Finset.range n, colSum xb ab wb bb (y 1) t) (fun y => ∑ t ∈ Finset.range n, colSq xb ab wb bb (y 1) t)

theorem acc_apply0 (n : ℕ) (q : Fin 128) : acc xb ab wb bb n (ix2 (0 : Fin 2) q) = ∑ t ∈ Finset.range n, colSum xb ab wb bb q t :=
  twoRows_apply0 _ _ q
theorem acc_apply1 (n : ℕ) (q : Fin 128) : acc xb ab wb bb n (ix2 (1 : Fin 2) q) = ∑ t ∈ Finset.range n, colSq xb ab wb bb q t :=
  twoRows_apply1 _ _ q

theorem acc_zero : k1_pay3 (F := Ideal) = acc xb ab wb bb 0 :=
  ext2 (fun q => (pay3_apply _).trans ((acc_apply0 xb ab wb bb 0 q).trans (Finset.sum_range_zero _)).symm)
    (fun q => (pay3_apply _).trans ((acc_apply1 xb ab wb bb 0 q).trans (Finset.sum_range_zero _)).symm)

theorem upd_acc (n : ℕ) (hn : n < N) :
    upd (acc xb ab wb bb n) (xb ⟨n, hn⟩) (ab ⟨n, hn⟩) (wb ⟨n, hn⟩) (bb ⟨n, hn⟩) = acc xb ab wb bb (n + 1) :=
  ext2
    (fun q => by
      rw [upd_apply0, acc_apply0, acc_apply0, Finset.sum_range_succ]
      refine congrArg₂ (· + ·) rfl ?_
      unfold colSum; rw [dif_pos hn]; rfl)
    (fun q => by
      rw [upd_apply1, acc_apply1, acc_apply1, Finset.sum_range_succ]
      refine congrArg₂ (· + ·) rfl ?_
      unfold colSq; rw [dif_pos hn]; rfl)

variable (hA : ∀ t : Fin N, t.val % 20 = 0 → ¬t.val % 20 = 19 →
      o t.val t.isLt = (zb xb ab wb bb t, upd (k1_pay3 (F := Ideal)) (xb t) (ab t) (wb t) (bb t)))
  (hB : ∀ t : Fin N, ¬t.val % 20 = 0 → ¬t.val % 20 = 19 →
      o t.val t.isLt = (zb xb ab wb bb t, upd (o (t.val - 1) (Nat.lt_of_le_of_lt (Nat.sub_le _ _) t.isLt)).2 (xb t) (ab t) (wb t) (bb t)))
  (hC : ∀ t : Fin N, ¬t.val % 20 = 0 → t.val % 20 = 19 →
      o t.val t.isLt = (zb xb ab wb bb t, closing (upd (o (t.val - 1) (Nat.lt_of_le_of_lt (Nat.sub_le _ _) t.isLt)).2 (xb t) (ab t) (wb t) (bb t))))

include hA hB hC in
theorem fst_eq (t : Fin N) : (o t.val t.isLt).1 = zb xb ab wb bb t := by
  by_cases h0 : t.val % 20 = 0
  · rw [hA t h0 (by omega)]
  · by_cases h1 : t.val % 20 = 19
    · rw [hC t h0 h1]
    · rw [hB t h0 h1]

include hA hB in
-- induction along the grid: each step extends the partial sums by one block
theorem inv : ∀ (n : ℕ) (hn : n < N), n < 19 → (o n hn).2 = acc xb ab wb bb (n + 1)
  | 0, hn, _ => by
    refine (congrArg Prod.snd (hA ⟨0, hn⟩ rfl (by dsimp only; omega))).trans ?_
    rw [acc_zero xb ab wb bb]
    exact upd_acc xb ab wb bb 0 hn
  | n + 1, hn, h => by
    refine (congrArg Prod.snd (hB ⟨n + 1, hn⟩ (by dsimp only; omega) (by dsimp only; omega))).trans ?_
    show upd (o n (Nat.lt_of_succ_lt hn)).2 _ _ _ _ = _
    rw [inv n (Nat.lt_of_succ_lt hn) (by omega)]
    exact upd_acc xb ab wb bb (n + 1) hn

include hA hB hC in
theorem last (h19 : 19 < N) : (o 19 h19).2 = closing (acc xb ab wb bb 20) := by
  refine (congrArg Prod.snd (hC ⟨19, h19⟩ (by dsimp only; omega) rfl)).trans ?_
  show closing (upd (o 18 (Nat.lt_of_succ_lt h19)).2 _ _ _ _) = _
  rw [inv xb ab wb bb o hA hB 18 (Nat.lt_of_succ_lt h19) (by omega), upd_acc xb ab wb bb 19 h19]

variable (x aggr z : Vec Ideal S100000x128 .f32) (w1 : Vec Ideal S128x128 .f32) (b1 : Vec Ideal S1x128 .f32)
  (hx : ∀ (t : Fin N) (y : S5000x128.Idx) (i : S100000x128.Idx), (i 0).val = 5000 * t.val + (y 0).val → (i 1).val = (y 1).val → xb t y = x i)
  (ha : ∀ (t : Fin N) (y : S5000x128.Idx) (i : S100000x128.Idx), (i 0).val = 5000 * t.val + (y 0).val → (i 1).val = (y 1).val → ab t y = aggr i)
  (hw : ∀ t, wb t = w1) (hb : ∀ t, bb t = b1)

include hx ha hw hb in
theorem zb_apply (t : Fin N) (y : S5000x128.Idx) (i : S100000x128.Idx)
    (h0 : (i 0).val = 5000 * t.val + (y 0).val) (h1 : (i 1).val = (y 1).val) :
    zb xb ab wb bb t y = Spec.lin (Spec.addM x aggr) w1 (fun k => b1 (ix2 0 (k 0))) i := by
  obtain ⟨p, q, rfl⟩ : ∃ (p : Fin 5000) (q : Fin 128), y = ix2 p q := ⟨y 0, y 1, eq_ix2 y⟩
  obtain ⟨i0, i1, rfl⟩ : ∃ (i0 : Fin 100000) (i1 : Fin 128), i = ix2 i0 i1 := ⟨i 0, i 1, eq_ix2 i⟩
  obtain rfl : i1 = q := Fin.ext h1
  unfold zb
  rw [pay4_apply, hw, hb]
  show _ = (∑ k : Fin 128, (x (ix2 i0 k) + aggr (ix2 i0 k)) * w1 (ix2 i1 k)) + b1 (ix2 0 i1)
  refine congrArg₂ (· + ·) (Finset.sum_congr rfl fun k _ => ?_) rfl
  rw [hx t (ix2 p k) (ix2 i0 k) h0 rfl, ha t (ix2 p k) (ix2 i0 k) h0 rfl]

variable (s : Vec Ideal S2x128 .f32) (hN : N = 20)
  (hz : z = Spec.lin (Spec.addM x aggr) w1 (fun k => b1 (ix2 0 (k 0)))) (hs : s = closing (acc xb ab wb bb 20))

include hx ha hw hb hN hz in
-- with each block read as its rows of the whole array, the block sums add up to the array's column sums
theorem sum_rows (q : Fin 128) :
    ∑ i : Fin 100000, z (ix2 i q) = ∑ t ∈ Finset.range 20, colSum xb ab wb bb q t
    ∧ ∑ i : Fin 100000, z (ix2 i q) * z (ix2 i q) = ∑ t ∈ Finset.range 20, colSq xb ab wb bb q t := by
  subst hN hz
  rw [sum_rows_eq_range (fun i => Spec.lin (Spec.addM x aggr) w1 (fun k => b1 (ix2 0 (k 0))) (ix2 i q)),
    sum_rows_eq_range (fun i => Spec.lin (Spec.addM x aggr) w1 (fun k => b1 (ix2 0 (k 0))) (ix2 i q) * Spec.lin (Spec.addM x aggr) w1 (fun k => b1 (ix2 0 (k 0))) (ix2 i q))]
  have e (t : Fin 20) (r : Fin 5000) := zb_apply xb ab wb bb x aggr w1 b1 hx ha hw hb t (ix2 r q) (ix2 (blockRow t r) q) rfl rfl
  constructor <;> refine Finset.sum_congr rfl fun t ht => ?_
  · unfold colSum
    rw [dif_pos (Finset.mem_range.mp ht), dif_pos (Finset.mem_range.mp ht)]
    exact Finset.sum_congr rfl fun r _ => (e _ r).symm
  · unfold colSq
    rw [dif_pos (Finset.mem_range.mp ht), dif_pos (Finset.mem_range.mp ht)]
    exact Finset.sum_congr rfl fun r _ => by rw [e _ r]

include hx ha hw hb hN hz hs in
theorem stat_mean (k : Fin 128) : s (ix2 0 k) = Spec.colMean z (ix1 k) := by
  rw [hs, closing_apply0, acc_apply0, ← (sum_rows xb ab wb bb x aggr z w1 b1 hx ha hw hb hN hz k).1]
  rfl

include hx ha hw hb hN hz hs in
theorem stat_var (k : Fin 128) : s (ix2 1 k) = Spec.colVarSq z (ix1 k) := by
  obtain ⟨e0, e1⟩ := sum_rows xb ab wb bb x aggr z w1 b1 hx ha hw hb hN hz k
  rw [hs, closing_apply1, acc_apply1, acc_apply0, ← e0, ← e1]
  rfl

end Run

end Cert.KernelIdeal.Stats

end
-- ==== Proof.StatsRegion1.lean ====
import proofs.«414907_j52115133169838_1_alg».proof.Proof.Stats

noncomputable section

namespace Cert.KernelIdeal.StatsRegion1

open Cert.KernelIdeal.Gen Cert.KernelIdeal.Stats
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

abbrev x (c : Dev nD) : Vec Ideal S100000x128 .f32 := V c (Pipeline.arrRef spec1 0)
abbrev aggr (c : Dev nD) : Vec Ideal S100000x128 .f32 := V c (Pipeline.arrRef spec1 1)
abbrev w1 (c : Dev nD) : Vec Ideal S128x128 .f32 := V c (Pipeline.arrRef spec1 2)
abbrev b1Row (c : Dev nD) : Vec Ideal S1x128 .f32 := V c (Pipeline.arrRef spec1 3)
abbrev z (c : Dev nD) : Vec Ideal S100000x128 .f32 := (dat1 (F := Ideal) V c).arrAt 4 cfg1.N
abbrev stat (c : Dev nD) : Vec Ideal S2x128 .f32 := (dat1 (F := Ideal) V c).arrAt 5 cfg1.N

abbrev xb (c : Dev nD) (t : Fin cfg1.N) : Vec Ideal S5000x128 .f32 := iblk1 V c 0 t
abbrev ab (c : Dev nD) (t : Fin cfg1.N) : Vec Ideal S5000x128 .f32 := iblk1 V c 1 t
abbrev wb (c : Dev nD) (t : Fin cfg1.N) : Vec Ideal S128x128 .f32 := iblk1 V c 2 t
abbrev bb (c : Dev nD) (t : Fin cfg1.N) : Vec Ideal S1x128 .f32 := iblk1 V c 3 t
abbrev zb (c : Dev nD) : Fin cfg1.N → Vec Ideal S5000x128 .f32 := Stats.zb (xb V c) (ab V c) (wb V c) (bb V c)

-- what each kind of grid point leaves, read off the body's stores
theorem caseA (c : Dev nD) (t : Fin cfg1.N) (h0 : t.val % 20 = 0) (h1 : ¬t.val % 20 = 19) :
    outsAt1 V c t.val t.isLt = (zb V c t, upd (k1_pay3 (F := Ideal)) (xb V c t) (ab V c t) (wb V c t) (bb V c t)) := by
  rw [outsAt1_A V c t h0 h1]
  exact congrArg₂ Prod.mk ((View.read_writes_eq_canon _ _ _ fun y => cover1_A_4 (y := y) ..).trans (canonA ..).1)
    ((View.read_writes_eq_canon _ _ _ fun y => cover1_A_5 (y := y) ..).trans (canonA ..).2)
theorem caseB (c : Dev nD) (t : Fin cfg1.N) (h0 : ¬t.val % 20 = 0) (h1 : ¬t.val % 20 = 19) :
    outsAt1 V c t.val t.isLt = (zb V c t, upd (outsAt1 V c (t.val - 1) (Nat.lt_of_le_of_lt (Nat.sub_le _ _) t.isLt)).2 (xb V c t) (ab V c t) (wb V c t) (bb V c t)) := by
  rw [outsAt1_B V c t h0 h1]
  exact congrArg₂ Prod.mk ((View.read_writes_eq_canon _ _ _ fun y => cover1_B_4 (y := y) ..).trans (canonB ..).1)
    ((View.read_writes_eq_canon _ _ _ fun y => cover1_B_5 (y := y) ..).trans (canonB ..).2)
theorem caseC (c : Dev nD) (t : Fin cfg1.N) (h0 : ¬t.val % 20 = 0) (h1 : t.val % 20 = 19) :
    outsAt1 V c t.val t.isLt = (zb V c t, closing (upd (outsAt1 V c (t.val - 1) (Nat.lt_of_le_of_lt (Nat.sub_le _ _) t.isLt)).2 (xb V c t) (ab V c t) (wb V c t) (bb V c t))) := by
  rw [outsAt1_C V c t h0 h1]
  exact congrArg₂ Prod.mk ((View.read_writes_eq_canon _ _ _ fun y => cover1_C_4 (y := y) ..).trans (canonC ..).1)
    ((View.read_writes_eq_canon _ _ _ fun y => cover1_C_5 (y := y) ..).trans (canonC ..).2)

theorem hN : cfg1.N = 20 := N_1
theorem h19 : 19 < cfg1.N := by rw [hN]; decide

-- block indices of windows 0 to 4 at every grid point
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem xb_apply (c : Dev nD) (t : Fin cfg1.N) (y : S5000x128.Idx) (i : S100000x128.Idx)
    (h0 : (i 0).val = 5000 * t.val + (y 0).val) (h1 : (i 1).val = (y 1).val) : xb V c t y = x V c i := by
  obtain ⟨e0, e1, -⟩ := idx_facts t
  show V c (Pipeline.arrRef spec1 0) _ = V c (Pipeline.arrRef spec1 0) _
  refine congrArg _ (Shape.idx_ext₂ ?_ ?_)
  · show win1_0.index t (0 : Fin 2) * 5000 + 1 * (y 0).val = (i 0).val; rw [e0, h0]; omega
  · show win1_0.index t (1 : Fin 2) * 128 + 1 * (y 1).val = (i 1).val; rw [e1, h1]; omega
theorem ab_apply (c : Dev nD) (t : Fin cfg1.N) (y : S5000x128.Idx) (i : S100000x128.Idx)
    (h0 : (i 0).val = 5000 * t.val + (y 0).val) (h1 : (i 1).val = (y 1).val) : ab V c t y = aggr V c i := by
  obtain ⟨-, -, e0, e1, -⟩ := idx_facts t
  show V c (Pipeline.arrRef spec1 1) _ = V c (Pipeline.arrRef spec1 1) _
  refine congrArg _ (Shape.idx_ext₂ ?_ ?_)
  · show win1_1.index t (0 : Fin 2) * 5000 + 1 * (y 0).val = (i 0).val; rw [e0, h0]; omega
  · show win1_1.index t (1 : Fin 2) * 128 + 1 * (y 1).val = (i 1).val; rw [e1, h1]; omega
theorem wb_eq (c : Dev nD) (t : Fin cfg1.N) : wb V c t = w1 V c := by
  obtain ⟨-, -, -, -, e0, e1, -⟩ := idx_facts t
  funext y
  show V c (Pipeline.arrRef spec1 2) _ = V c (Pipeline.arrRef spec1 2) _
  exact congrArg _ (Shape.idx_ext₂ (win1_2.rect_emb_val_of_index_zero t 0 e0 y) (win1_2.rect_emb_val_of_index_zero t 1 e1 y))
theorem bb_eq (c : Dev nD) (t : Fin cfg1.N) : bb V c t = b1Row V c := by
  obtain ⟨-, -, -, -, -, -, e0, e1, -⟩ := idx_facts t
  funext y
  show V c (Pipeline.arrRef spec1 3) _ = V c (Pipeline.arrRef spec1 3) _
  exact congrArg _ (Shape.idx_ext₂ (win1_3.rect_emb_val_of_index_zero t 0 e0 y) (win1_3.rect_emb_val_of_index_zero t 1 e1 y))

-- each point's output block is that block of the linear map, and the blocks tile the rows
theorem z_value (c : Dev nD) :
    z V c = Spec.lin (Spec.addM (x V c) (aggr V c)) (w1 V c) (fun k => b1Row V c (ix2 0 (k 0))) :=
  (dat1 V c).arrAt_eq_of_cover 4 _
    (fun t _ => by
      obtain ⟨-, -, -, -, -, -, -, -, e0, e1⟩ := idx_facts t
      show (cfg1.win 4).cut (grid1.coords t) ((dat1 V c).after 4 t) = _
      rw [after1_4, Stats.fst_eq _ _ _ _ _ (caseA V c) (caseB V c) (caseC V c) t]
      funext y
      show zb V c t y = Spec.lin (Spec.addM (x V c) (aggr V c)) (w1 V c) (fun k => b1Row V c (ix2 0 (k 0))) (((cfg1.win 4).blk t).view.emb y)
      refine Stats.zb_apply _ _ _ _ _ _ _ _ (xb_apply V c) (ab_apply V c) (wb_eq V c) (bb_eq V c) t y _ ?_ ?_
      · show win1_4.index t (0 : Fin 2) * 5000 + 1 * (y 0).val = 5000 * t.val + (y 0).val; rw [e0]; omega
      · show win1_4.index t (1 : Fin 2) * 128 + 1 * (y 1).val = (y 1).val; rw [e1]; omega)
    fun i => by
      have hi0 : (i 0).val < 100000 := (i 0).isLt
      obtain ⟨t, ht⟩ : ∃ t : Fin cfg1.N, t.val = (i 0).val / 5000 := ⟨⟨_, by rw [hN]; omega⟩, rfl⟩
      obtain ⟨-, -, -, -, -, -, -, -, e0, e1⟩ := idx_facts t
      refine ⟨t, flush1_4 _, ?_⟩
      show i ∈ ((View.whole main_v17_0).slice (win1_4.rect t)).set
      rw [View.set_slice_whole, Rect.mem_set_unit]
      intro a
      match a with
      | ⟨0, _⟩ =>
        show win1_4.index t (0 : Fin 2) * 5000 ≤ (i 0).val ∧ (i 0).val < win1_4.index t (0 : Fin 2) * 5000 + 5000
        rw [e0]; omega
      | ⟨1, _⟩ =>
        show win1_4.index t (1 : Fin 2) * 128 ≤ (i 1).val ∧ (i 1).val < win1_4.index t (1 : Fin 2) * 128 + 128
        rw [e1]; have : (i 1).val < 128 := (i 1).isLt; omega

-- the statistics array is what the last block leaves: the normalised sums over all twenty blocks
theorem stat_eq (c : Dev nD) : stat V c = closing (acc (xb V c) (ab V c) (wb V c) (bb V c) 20) := by
  refine ((dat1 V c).arrAt_eq_of_cover 5 ((outsAt1 V c 19 h19).2) (fun t hf => ?_) fun i => ?_).trans
    (Stats.last _ _ _ _ _ (caseA V c) (caseB V c) (caseC V c) h19)
  · obtain rfl : t = ⟨19, h19⟩ := Fin.ext (by have := (flush1_5 t).mp hf; have := lt_of_lt_of_eq t.isLt hN; show t.val = 19; omega)
    show (cfg1.win 5).cut (grid1.coords ⟨19, h19⟩) ((dat1 V c).after 5 ⟨19, h19⟩) = _
    rw [after1_5]
    have hz' : (fun a => win1_5.index ⟨19, h19⟩ a * main_v17_1.ty.shape.size a) = fun _ => 0 := funext fun a => by fin_cases a <;> decide +kernel
    exact (Memref.read_access_unit_zero (Elt Ideal) main_v17_1 hz' (fun a => by rw [congrFun hz' a]; simp) ((outsAt1 V c 19 h19).2)).symm
  · refine ⟨⟨19, h19⟩, (flush1_5 _).mpr rfl, ?_⟩
    show i ∈ ((View.whole main_v17_1).slice (win1_5.rect ⟨19, h19⟩)).set
    rw [View.set_slice_whole, Rect.mem_set_unit]
    intro a
    have h0 : (i 0 : Nat) < 2 := (i 0).isLt
    have h1 : (i 1 : Nat) < 128 := (i 1).isLt
    match a with
    | ⟨0, _⟩ =>
      show win1_5.index ⟨19, h19⟩ 0 * win1_5.size 0 ≤ (i 0 : Nat) ∧ (i 0 : Nat) < win1_5.index ⟨19, h19⟩ 0 * win1_5.size 0 + win1_5.xsize (grid1.coords ⟨19, h19⟩) 0
      rw [show win1_5.index ⟨19, h19⟩ 0 * win1_5.size 0 = 0 from by decide +kernel, show win1_5.xsize (grid1.coords ⟨19, h19⟩) 0 = 2 from by decide +kernel]; omega
    | ⟨1, _⟩ =>
      show win1_5.index ⟨19, h19⟩ 1 * win1_5.size 1 ≤ (i 1 : Nat) ∧ (i 1 : Nat) < win1_5.index ⟨19, h19⟩ 1 * win1_5.size 1 + win1_5.xsize (grid1.coords ⟨19, h19⟩) 1
      rw [show win1_5.index ⟨19, h19⟩ 1 * win1_5.size 1 = 0 from by decide +kernel, show win1_5.xsize (grid1.coords ⟨19, h19⟩) 1 = 128 from by decide +kernel]; omega

theorem stat_mean (c : Dev nD) (k : Fin 128) :
    stat V c (ix2 0 k) = Spec.colMean (z V c) (ix1 k) :=
  Stats.stat_mean _ _ _ _ _ _ _ _ _ (xb_apply V c) (ab_apply V c) (wb_eq V c) (bb_eq V c) _ hN (z_value V c) (stat_eq V c) k

theorem stat_var (c : Dev nD) (k : Fin 128) :
    stat V c (ix2 1 k) = Spec.colVarSq (z V c) (ix1 k) :=
  Stats.stat_var _ _ _ _ _ _ _ _ _ (xb_apply V c) (ab_apply V c) (wb_eq V c) (bb_eq V c) _ hN (z_value V c) (stat_eq V c) k

end Cert.KernelIdeal.StatsRegion1

end
-- ==== Proof.NormRegion2.lean ====
import proofs.«414907_j52115133169838_1_alg».proof.Proof.Gen.KernelIdeal.Frame
import proofs.«414907_j52115133169838_1_alg».proof.Proof.Spec
import proofs.«414907_j52115133169838_1_alg».proof.Proof.RowBlocks
import Idealize.ShloMosaic.Lib.ValueLayout
import Idealize.ShloMosaic.PureOps.Ideal.Laws

noncomputable section

namespace Cert.KernelIdeal.NormRegion2

open Cert.KernelIdeal.Gen Cert.RowBlocks
open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

abbrev z (c : Dev nD) : Vec Ideal S100000x128 .f32 := V c (Pipeline.arrRef spec2 0)
abbrev stat (c : Dev nD) : Vec Ideal S2x128 .f32 := V c (Pipeline.arrRef spec2 1)
abbrev gRow (c : Dev nD) : Vec Ideal S1x128 .f32 := V c (Pipeline.arrRef spec2 2)
abbrev shRow (c : Dev nD) : Vec Ideal S1x128 .f32 := V c (Pipeline.arrRef spec2 3)
abbrev w2 (c : Dev nD) : Vec Ideal S128x128 .f32 := V c (Pipeline.arrRef spec2 4)
abbrev b2Row (c : Dev nD) : Vec Ideal S1x128 .f32 := V c (Pipeline.arrRef spec2 5)
abbrev out (c : Dev nD) : Vec Ideal S100000x128 .f32 := (dat2 (F := Ideal) V c).arrAt 6 cfg2.N

-- Row `i` of the two-row block, read through the one-row rectangle at row offset `o = i`.
theorem ld_row (x : Vec Ideal S2x128 .f32) (o : ℕ) (inb) (k : Fin 128) (i : Fin 2) (hi : (i : ℕ) = o) :
    View.ld x (Rect.unit (s := S2x128) ![o, 0] S1x128.size inb) (ix2 (0 : Fin 1) k) = x (ix2 i k) :=
  congrArg x (Shape.idx_ext₂ (by show o + 1 * 0 = (i : ℕ); omega) (by show 0 + 1 * k.val = k.val; omega))

theorem pay_apply (v0 v2 v4 v17 v26 : Vec Ideal S1x128 .f32) (v6 : Vec Ideal S5000x128 .f32) (v23 : Vec Ideal S128x128 .f32)
    (p : Fin 5000) (q : Fin 128) :
    k2_pay1 v0 v2 v4 v6 v17 v23 v26 (ix2 p q) =
      max ((∑ k : Fin 128, max (v4 (ix2 0 k) * (v6 (ix2 p k) - v0 (ix2 0 k)) * Ideal.rsqrt (v2 (ix2 0 k) + ((Cert.Consts.eps : ℝ) : EReal)) + v17 (ix2 0 k)) 0
          * v23 (ix2 q k)) + v26 (ix2 0 q)) 0 := by
  unfold k2_pay1
  simp only [shapeCast_self, maximumf_apply, addf_apply, broadcast_apply, product_apply dot_S5000x128_S128x128_S5000x128_1_0_0_1_n_n rfl,
    broadcastTo_1b_ab_apply, mulf_apply, subf_apply]
  show max ((∑ k : Fin 128, max (_ * Ideal.rsqrt (_ + Ideal.ofBits .f32 0x3727C5AC#32) + _) (Ideal.ofBits .f32 0x00000000#32) * _) + _)
    (Ideal.ofBits .f32 0x00000000#32) = _
  rw [Cert.Consts.ofBits_eps, Ideal.ofBits_zero_f32]

abbrev layer (Z : S100000x128.Idx → EReal) (St : S2x128.Idx → EReal) (g sh : S1x128.Idx → EReal)
    (W : S128x128.Idx → EReal) (b : S1x128.Idx → EReal) : S100000x128.Idx → EReal :=
  Spec.relu (Spec.lin
    (Spec.normAct (R := 100000) (C := 128) (fun k => g (ix2 0 (k 0))) (fun k => sh (ix2 0 (k 0))) Z
      (fun k => St (ix2 0 (k 0))) (fun k => St (ix2 1 (k 0))))
    W (fun k => b (ix2 0 (k 0))))

-- Every entry of the result depends on its own input row and the shared arrays only, so block `n` of the result is block `n` of the layer.
theorem out_read (Z : Vec Ideal S100000x128 .f32) (St : Vec Ideal S2x128 .f32) (g sh : Vec Ideal S1x128 .f32)
    (W : Vec Ideal S128x128 .f32) (b : Vec Ideal S1x128 .f32) (n : ℕ)
    {e6 e0 : S5000x128.Idx → S100000x128.Idx} {e1 : S2x128.Idx → S2x128.Idx} {e2 e3 e5 : S1x128.Idx → S1x128.Idx}
    {e4 : S128x128.Idx → S128x128.Idx} (h6 : RowsAt n e6) (h0 : RowsAt n e0) (h1 : ∀ y, e1 y = y) (h2 : ∀ y, e2 y = y)
    (h3 : ∀ y, e3 y = y) (h4 : ∀ y, e4 y = y) (h5 : ∀ y, e5 y = y) :
    out2_6 (F := Ideal) (fun y => Z (e0 y)) (fun y => St (e1 y)) (fun y => g (e2 y)) (fun y => sh (e3 y)) (fun y => W (e4 y))
      (fun y => b (e5 y)) = fun y => layer Z St g sh W b (e6 y) := by
  unfold out2_6
  rw [View.canon_unit_zero hz]
  simp only [View.ld_unit_zero (S := S5000x128) hz, View.ld_unit_zero (S := S1x128) hz, View.ld_unit_zero (S := S128x128) hz,
    h1, h2, h3, h4, h5]
  funext y
  obtain ⟨p, q, rfl⟩ : ∃ (p : Fin 5000) (q : Fin 128), y = ix2 p q := ⟨y 0, y 1, eq_ix2 y⟩
  obtain ⟨r, hr⟩ : ∃ r : Fin 100000, (r : ℕ) = n * 5000 + p := ⟨e6 (ix2 p q) 0, (h6 _).1⟩
  rw [pay_apply, h6.apply r p hr]
  refine congrArg (fun s => max (s + b (ix2 0 q)) 0) (Finset.sum_congr rfl fun k _ => ?_)
  rw [h0.apply r p hr, ld_row St 0 _ k 0 rfl, ld_row St 1 _ k 1 rfl]
  rfl

theorem idx : ∀ t : Fin cfg2.N, win2_6.index t = ![t.val, 0] ∧ win2_0.index t = ![t.val, 0] ∧ win2_1.index t = ![0, 0]
    ∧ win2_2.index t = ![0, 0] ∧ win2_3.index t = ![0, 0] ∧ win2_4.index t = ![0, 0] ∧ win2_5.index t = ![0, 0] :=
  (by decide +kernel : ∀ t : Fin grid2.N, _)

theorem flushed_eq (c : Dev nD) (t : Fin cfg2.N) :
    (dat2 (F := Ideal) V c).flushed 6 t = ((cfg2.win 6).blk t).view.read (Elt Ideal)
      (layer (z V c) (stat V c) (gRow V c) (shRow V c) (w2 V c) (b2Row V c)) := by
  obtain ⟨h6, h0, h1, h2, h3, h4, h5⟩ := idx t
  exact (after2_6 V c t).trans (out_read (z V c) (stat V c) (gRow V c) (shRow V c) (w2 V c) (b2Row V c) t.val
    (.of h6 (win2_6.rect_emb_val t)) (.of h0 (win2_0.rect_emb_val t)) (whole_of h1 (win2_1.rect_emb_val t))
    (whole_of h2 (win2_2.rect_emb_val t)) (whole_of h3 (win2_3.rect_emb_val t)) (whole_of h4 (win2_4.rect_emb_val t))
    (whole_of h5 (win2_5.rect_emb_val t)) :)

theorem cover (i : S100000x128.Idx) :
    ∃ t : Fin cfg2.N, (cfg2.win 6).flush t = true ∧ i ∈ ((cfg2.win 6).blk t).view.set := by
  have hi : (i 0).val < 100000 := (i 0).isLt
  have hN : cfg2.N = 20 := N_2
  obtain ⟨t, ht⟩ : ∃ t : Fin cfg2.N, t.val = (i 0).val / 5000 := ⟨⟨(i 0).val / 5000, by rw [hN]; omega⟩, rfl⟩
  refine ⟨t, flush2_6 t, ?_⟩
  show i ∈ ((View.whole main_v18).slice (win2_6.rect t)).set
  rw [View.set_slice_whole, Rect.mem_set_unit]
  exact mem_rows (by decide) i ((idx t).1.trans (by rw [ht]))

theorem value (c : Dev nD) :
    out V c = Spec.relu (Spec.lin
      (Spec.normAct (R := 100000) (C := 128) (fun k => gRow V c (ix2 0 (k 0))) (fun k => shRow V c (ix2 0 (k 0))) (z V c)
        (fun k => stat V c (ix2 0 (k 0))) (fun k => stat V c (ix2 1 (k 0))))
      (w2 V c) (fun k => b2Row V c (ix2 0 (k 0)))) :=
  (dat2 (F := Ideal) V c).arrAt_eq_of_cover 6 _ (fun t _ => flushed_eq V c t) cover

end Cert.KernelIdeal.NormRegion2

end
-- ==== Proof.KernelLayer1.lean ====
import proofs.«414907_j52115133169838_1_alg».proof.Proof.KernelShared
import proofs.«414907_j52115133169838_1_alg».proof.Proof.EdgeRegion0
import proofs.«414907_j52115133169838_1_alg».proof.Proof.StatsRegion1
import proofs.«414907_j52115133169838_1_alg».proof.Proof.NormRegion2

noncomputable section

namespace Cert.KernelIdeal.Layer1

open Cert.KernelIdeal.Gen Cert.KernelIdeal.Layer
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

open Cert.KernelIdeal.Args

section AnyFamily
variable {F : FTy → Type} [FloatOps F]

def lookupNodes (t : Vec F S512x128 .f32) (idx : IVec S100000 32) : Vec F S100000x128 .f32 :=
  let c : IVec S_ 32 := constantI S_ 32 0#32
  let v0 : IVec S100000 32 := broadcastInDim S100000 ![] bcast_S_S100000 c
  let v1 : IVec S100000 1 := cmpi .slt idx v0
  let c_0 : IVec S_ 32 := constantI S_ 32 512#32
  let v2 : IVec S100000 32 := broadcastInDim S100000 ![] bcast_S_S100000 c_0
  let v3 : IVec S100000 32 := addi idx v2
  let v4 : IVec S100000 32 := select v1 v3 idx
  let v5 : IVec S100000x1 32 := broadcastInDim S100000x1 ![0] bcast_S100000_S100000x1_0 v4
  let c_1 : IVec S1 32 := constantI S1 32 511#32
  let c_2 : IVec S_ 32 := constantI S_ 32 0#32
  let v6 : IVec S100000x1 32 := broadcastInDim S100000x1 ![] bcast_S_S100000x1 c_2
  let v7 : IVec S100000x1 1 := cmpi .sge v5 v6
  let v8 : IVec S1x1 32 := broadcastInDim S1x1 ![1] bcast_S1_S1x1_1 c_1
  let v9 : IVec S100000x1 32 := broadcastInDim S100000x1 ![0, 1] bcast_S1x1_S100000x1_0_1 v8
  let v10 : IVec S100000x1 1 := cmpi .sle v5 v9
  let v11 : IVec S100000x1 1 := andi v7 v10
  let c_3 : IVec S_ 1 := constantI S_ 1 1#1
  let v12 : IVec S100000 1 := Host.reduce IntOp.andi v11 c_3 reducesTo_S100000x1_S100000_d1 h_S_
  let v13 : Vec F S100000x128 .f32 := Host.gather gather_S512x128_S100000x1_S100000x128_1_0_n_n_0_1_1128 t v5
  let v14 : IVec S100000x128 1 := broadcastInDim S100000x128 ![0] bcast_S100000_S100000x128_0 v12
  let cst : Vec F S_ .f32 := constant (F := F) S_ .f32 0x7FC00000#32
  let v15 : Vec F S100000x128 .f32 := broadcastInDim S100000x128 ![] bcast_S_S100000x128 cst
  select v14 v13 v15

theorem s01_any (V : Valuation τ sig (Elt F)) :
    StableHlo.after (hostOps0_1 (F := F)) V (Proc.devRef .tc main_v5)
      = lookupNodes (V (Proc.devRef .tc main_arg4)) (V (Proc.devRef .tc main_v4)) := by
  after_results_simp
  simp only [StableHlo.TRef.ofBuf, StableHlo.TRef.toBuf, cast_cast_self]
  have e4 : ∀ h, (cast h (V (Proc.devRef .tc main_v4)) : IVec S100000 32) = V (Proc.devRef .tc main_v4) := fun h => rfl
  have e5 : ∀ h, (cast h (V (Proc.devRef .tc main_arg4)) : Vec F S512x128 .f32) = V (Proc.devRef .tc main_arg4) := fun h => rfl
  simp only [e4, e5]
  generalize V (Proc.devRef .tc main_v4) = w
  generalize V (Proc.devRef .tc main_arg4) = t
  refine (cast_eq _ _).trans ?_
  rfl

theorem s02_any (V : Valuation τ sig (Elt F)) :
    StableHlo.after (hostOps0_2 (F := F)) V (Proc.devRef .tc main_v6)
      = lookupEdges (V (Proc.devRef .tc main_v5)) (V (Proc.devRef .tc main_v1)) := by
  after_results_simp
  simp only [StableHlo.TRef.ofBuf, StableHlo.TRef.toBuf, cast_cast_self]
  have e1 : ∀ h, (cast h (V (Proc.devRef .tc main_v1)) : IVec S1600000 32) = V (Proc.devRef .tc main_v1) := fun h => rfl
  have e5 : ∀ h, (cast h (V (Proc.devRef .tc main_v5)) : Vec F S100000x128 .f32) = V (Proc.devRef .tc main_v5) := fun h => rfl
  simp only [e1, e5]
  generalize V (Proc.devRef .tc main_v1) = w
  generalize V (Proc.devRef .tc main_v5) = t
  refine (cast_eq _ _).trans ?_
  rfl

end AnyFamily

theorem lookupNodes_ideal (t : Vec Ideal S512x128 .f32) (idx : IVec S100000 32) :
    lookupNodes (F := Ideal) t idx = Cert.KernelOps.takeNodes t idx := rfl

section Stretches
variable (X : Valuation τ sig (Elt Ideal))

theorem s0_v4 : (StableHlo.after hostOps0 X (Proc.devRef .tc main_v4) : IVec S100000 32)
    = Cert.KernelOps.nodeWords (X (Proc.devRef .tc main_arg0)) := by
  after_results
  rfl
theorem s03_v7 : (StableHlo.after hostOps0_3 X (Proc.devRef .tc main_v7) : Vec Ideal S1x128 .f32)
    = shapeCast S1x128 (X (Proc.devRef .tc main_arg5) : Vec Ideal S128x1 .f32) shapeCasts_S128x1_S1x128 := by
  after_results
  rfl
theorem s03_v8 : (StableHlo.after hostOps0_3 X (Proc.devRef .tc main_v8) : Vec Ideal S1x128 .f32)
    = shapeCast S1x128 (X (Proc.devRef .tc main_arg6) : Vec Ideal S128 .f32) shapeCasts_S128_S1x128 := by
  after_results
  rfl
theorem s1_v12 : (StableHlo.after hostOps1 X (Proc.devRef .tc main_v12) : Vec Ideal S100000x128 .f32)
    = Host.scatterAdd scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 (X (Proc.devRef .tc main_v3) : IVec S1600000 32))
        (X (Proc.devRef .tc main_v9) : Vec Ideal S1600000x128 .f32) := by
  after_results
theorem s1_v13 : (StableHlo.after hostOps1 X (Proc.devRef .tc main_v13) : Vec Ideal S1x128 .f32)
    = shapeCast S1x128 (X (Proc.devRef .tc main_arg8) : Vec Ideal S128 .f32) shapeCasts_S128_S1x128 := by
  after_results
  rfl
theorem s1_v14 : (StableHlo.after hostOps1 X (Proc.devRef .tc main_v14) : Vec Ideal S1x128 .f32)
    = shapeCast S1x128 (X (Proc.devRef .tc main_arg9) : Vec Ideal S128 .f32) shapeCasts_S128_S1x128 := by
  after_results
  rfl
theorem s1_v15 : (StableHlo.after hostOps1 X (Proc.devRef .tc main_v15) : Vec Ideal S1x128 .f32)
    = shapeCast S1x128 (X (Proc.devRef .tc main_arg10) : Vec Ideal S128 .f32) shapeCasts_S128_S1x128 := by
  after_results
  rfl
theorem s1_v16 : (StableHlo.after hostOps1 X (Proc.devRef .tc main_v16) : Vec Ideal S1x128 .f32)
    = shapeCast S1x128 (X (Proc.devRef .tc main_arg12) : Vec Ideal S128 .f32) shapeCasts_S128_S1x128 := by
  after_results
  rfl

end Stretches

theorem ops_gatherNodes (t : Net.RM 512 128) (w : Net.WM 100000 1) :
    Cert.KernelOps.ops.gatherNodes t w = Cert.KernelOps.takeNodes t (Cert.KernelOps.nodeWords w) := by
  simp only [Cert.KernelOps.ops, Cert.KernelOps.gatherNodes]

abbrev lookup (c : Dev nD) : Net.RM 100000 128 := Cert.KernelOps.ops.gatherNodes (emb m c) (x m c)
abbrev msgs (c : Dev nD) : Net.RM 1600000 128 :=
  Spec.message (Cert.KernelOps.ops.gatherEdges (lookup m c) (ei m c)) (Spec.edgeLin (ea m c) (P1 m c).ew (P1 m c).eb)
abbrev pre1 (c : Dev nD) : Net.RM 100000 128 := Net.preAct Cert.KernelOps.ops (P1 m c) (ei m c) (ea m c) (lookup m c)

theorem W1_v1 (c : Dev nD) : (W1 m ρ c (Proc.devRef .tc main_v1) : IVec S1600000 32) = Cert.KernelOps.srcWords (ei m c) :=
  s0_v1 (W0 m ρ c)

theorem W2_v5 (c : Dev nD) : (W2 m ρ c (Proc.devRef .tc main_v5) : Net.RM 100000 128) = lookup m c :=
  (s01_any (W1 m ρ c)).trans <| (lookupNodes_ideal _ _).trans <|
    (congrArg₂ Cert.KernelOps.takeNodes (keep0 m ρ c main_arg4) (s0_v4 (W0 m ρ c))).trans
      (ops_gatherNodes (emb m c) (x m c)).symm

theorem W3_v6 (c : Dev nD) : (W3 m ρ c (Proc.devRef .tc main_v6) : Net.RM 1600000 128)
    = Cert.KernelOps.ops.gatherEdges (lookup m c) (ei m c) :=
  (s02_any (W2 m ρ c)).trans <| (lookupEdges_ideal _ _).trans <|
    (congrArg₂ Cert.KernelOps.takeEdges (W2_v5 m ρ c) ((keep0_1 m ρ c main_v1).trans (W1_v1 m ρ c))).trans
      (ops_gatherEdges (lookup m c) (ei m c)).symm

theorem W4_ew (c : Dev nD) :
    (fun j : (Spec.Mat 128 1).Idx => (W4 m ρ c (Proc.devRef .tc main_v7) : Vec Ideal S1x128 .f32) (ix2 0 (j 0))) = (P1 m c).ew :=
  (col_eq (s03_v7 (W3 m ρ c))).trans <|
    (keep0_2 m ρ c main_arg5).trans <| (keep0_1 m ρ c main_arg5).trans (keep0 m ρ c main_arg5)
theorem W4_eb (c : Dev nD) : rowRead (W4 m ρ c (Proc.devRef .tc main_v8)) = (P1 m c).eb :=
  (row_eq (s03_v8 (W3 m ρ c))).trans <|
    (keep0_2 m ρ c main_arg6).trans <| (keep0_1 m ρ c main_arg6).trans (keep0 m ρ c main_arg6)
theorem W4_ea (c : Dev nD) : (W4 m ρ c (Proc.devRef .tc main_arg2) : Net.RM 1600000 1) = ea m c := to4 m ρ c main_arg2

theorem W5_v9 (c : Dev nD) : (W5 m ρ c (Proc.devRef .tc main_v9) : Net.RM 1600000 128) = msgs m c :=
  ((W5_arr m ρ c 4).trans (EdgeRegion0.value (V4 m ρ) c)).trans
    (congrArg₂ (Spec.message (E := 1600000) (D := 128)) ((keep0_3 m ρ c main_v6).trans (W3_v6 m ρ c))
      (congr (congr (congrArg (Spec.edgeLin (E := 1600000) (D := 128)) (W4_ea m ρ c)) (W4_ew m ρ c)) (W4_eb m ρ c)))

theorem W5_v3 (c : Dev nD) : (W5 m ρ c (Proc.devRef .tc main_v3) : IVec S1600000 32) = Cert.KernelOps.dstWords (ei m c) :=
  (mid m ρ c main_v3).trans (s0_v3 (W0 m ρ c))
theorem W6_v12 (c : Dev nD) : (W6 m ρ c (Proc.devRef .tc main_v12) : Net.RM 100000 128)
    = Cert.KernelOps.ops.scatterEdges (msgs m c) (ei m c) := by
  have h := s1_v12 (W5 m ρ c)
  rw [W5_v3, W5_v9] at h
  exact h.trans (ops_scatterEdges (msgs m c) (ei m c)).symm
theorem W6_v5 (c : Dev nD) : (W6 m ρ c (Proc.devRef .tc main_v5) : Net.RM 100000 128) = lookup m c :=
  (keep1 m ρ c main_v5).trans <| (W5_of_ne m ρ c main_v5 (by decide)).trans <|
    (keep0_3 m ρ c main_v5).trans <| (keep0_2 m ρ c main_v5).trans (W2_v5 m ρ c)
theorem W6_b1 (c : Dev nD) : rowRead (W6 m ρ c (Proc.devRef .tc main_v13)) = (P1 m c).b1 :=
  (row_eq (s1_v13 (W5 m ρ c))).trans (to5 m ρ c main_arg8)
theorem W6_g (c : Dev nD) : rowRead (W6 m ρ c (Proc.devRef .tc main_v14)) = (P1 m c).g :=
  (row_eq (s1_v14 (W5 m ρ c))).trans (to5 m ρ c main_arg9)
theorem W6_sh (c : Dev nD) : rowRead (W6 m ρ c (Proc.devRef .tc main_v15)) = (P1 m c).sh :=
  (row_eq (s1_v15 (W5 m ρ c))).trans (to5 m ρ c main_arg10)
theorem W6_b2 (c : Dev nD) : rowRead (W6 m ρ c (Proc.devRef .tc main_v16)) = (P1 m c).b2 :=
  (row_eq (s1_v16 (W5 m ρ c))).trans (to5 m ρ c main_arg12)

theorem W7_z (c : Dev nD) : (W7 m ρ c (Proc.devRef .tc main_v17_0) : Net.RM 100000 128) = pre1 m c :=
  ((W7_arr m ρ c 4).trans (StatsRegion1.z_value (V6 m ρ) c)).trans
    (congr (congr (congrArg (Spec.lin (R := 100000) (K := 128) (O := 128))
      (congrArg₂ (Spec.addM (R := 100000) (C := 128)) (W6_v5 m ρ c) (W6_v12 m ρ c)))
        ((keep1 m ρ c main_arg7).trans (to5 m ρ c main_arg7))) (W6_b1 m ρ c))

theorem h1_value (c : Dev nD) :
    (W8 m ρ c (Proc.devRef .tc main_v18) : Net.RM 100000 128)
      = Net.layer Spec.colVarSq Cert.KernelOps.ops (P1 m c) (ei m c) (ea m c)
          (Cert.KernelOps.ops.gatherNodes (emb m c) (x m c)) := by
  have hz : StatsRegion1.z (V6 m ρ) c = pre1 m c := (W7_arr m ρ c 4).symm.trans (W7_z m ρ c)
  have es : NormRegion2.stat (V7 m ρ) c = StatsRegion1.stat (V6 m ρ) c := W7_arr m ρ c 5
  have em : (fun k : (Spec.Vc 128).Idx => NormRegion2.stat (V7 m ρ) c (ix2 0 (k 0))) = Spec.colMean (pre1 m c) :=
    stat_row Spec.colMean 0 es hz (StatsRegion1.stat_mean (V6 m ρ) c)
  have ev : (fun k : (Spec.Vc 128).Idx => NormRegion2.stat (V7 m ρ) c (ix2 1 (k 0))) = Spec.colVarSq (pre1 m c) :=
    stat_row Spec.colVarSq 1 es hz (StatsRegion1.stat_var (V6 m ρ) c)
  have eg : rowRead (NormRegion2.gRow (V7 m ρ) c) = (P1 m c).g :=
    (congrArg rowRead (W7_of_ne m ρ c main_v14 (by decide))).trans (W6_g m ρ c)
  have esh : rowRead (NormRegion2.shRow (V7 m ρ) c) = (P1 m c).sh :=
    (congrArg rowRead (W7_of_ne m ρ c main_v15 (by decide))).trans (W6_sh m ρ c)
  have eb2 : rowRead (NormRegion2.b2Row (V7 m ρ) c) = (P1 m c).b2 :=
    (congrArg rowRead (W7_of_ne m ρ c main_v16 (by decide))).trans (W6_b2 m ρ c)
  have ew2 : (NormRegion2.w2 (V7 m ρ) c : Net.RM 128 128) = (P1 m c).w2 :=
    (W7_of_ne m ρ c main_arg11 (by decide)).trans <| (keep1 m ρ c main_arg11).trans (to5 m ρ c main_arg11)
  exact ((W8_arr m ρ c 6).trans (NormRegion2.value (V7 m ρ) c)).trans
    (congrArg (Spec.relu (R := 100000) (C := 128)) (congr (congr (congrArg (Spec.lin (R := 100000) (K := 128) (O := 128))
      (congr (congr (congr (congr (congrArg (Spec.normAct (R := 100000) (C := 128)) eg) esh) (W7_z m ρ c))
        em) ev)) ew2) eb2))

end Cert.KernelIdeal.Layer1

end
-- ==== Proof.EdgeRegion3.lean ====
import proofs.«414907_j52115133169838_1_alg».proof.Proof.Gen.KernelIdeal.Frame
import proofs.«414907_j52115133169838_1_alg».proof.Proof.EdgeRegion0

noncomputable section

namespace Cert.KernelIdeal.EdgeRegion3

open Cert.KernelIdeal.Gen Cert.RowBlocks
open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

abbrev xg (c : Dev nD) : Vec Ideal S1600000x128 .f32 := V c (Pipeline.arrRef spec3 0)
abbrev ea (c : Dev nD) : Vec Ideal S1600000x1 .f32 := V c (Pipeline.arrRef spec3 1)
abbrev ewRow (c : Dev nD) : Vec Ideal S1x128 .f32 := V c (Pipeline.arrRef spec3 2)
abbrev ebRow (c : Dev nD) : Vec Ideal S1x128 .f32 := V c (Pipeline.arrRef spec3 3)
abbrev out (c : Dev nD) : Vec Ideal S1600000x128 .f32 := (dat3 (F := Ideal) V c).arrAt 4 cfg3.N

theorem idx : ∀ t : Fin cfg3.N, win3_4.index t = ![t.val, 0] ∧ win3_0.index t = ![t.val, 0] ∧ win3_1.index t = ![t.val, 0]
    ∧ win3_2.index t = ![0, 0] ∧ win3_3.index t = ![0, 0] :=
  (by decide +kernel : ∀ t : Fin grid3.N, _)

theorem flushed_eq (c : Dev nD) (t : Fin cfg3.N) :
    (dat3 (F := Ideal) V c).flushed 4 t
      = ((cfg3.win 4).blk t).view.read (Elt Ideal) (EdgeRegion0.msgOf (xg V c) (ea V c) (ewRow V c) (ebRow V c)) := by
  obtain ⟨h4, h0, h1, h2, h3⟩ := idx t
  exact (after3_4 V c t).trans (EdgeRegion0.out_read (xg V c) (ea V c) (ewRow V c) (ebRow V c) t.val
    (.of h4 (win3_4.rect_emb_val t)) (.of h0 (win3_0.rect_emb_val t)) (.of h1 (win3_1.rect_emb_val t))
    (whole_of h2 (win3_2.rect_emb_val t)) (whole_of h3 (win3_3.rect_emb_val t)) :)

theorem cover (i : S1600000x128.Idx) :
    ∃ t : Fin cfg3.N, (cfg3.win 4).flush t = true ∧ i ∈ ((cfg3.win 4).blk t).view.set := by
  have hi : (i 0).val < 1600000 := (i 0).isLt
  have hN : cfg3.N = 200 := N_3
  obtain ⟨t, ht⟩ : ∃ t : Fin cfg3.N, t.val = (i 0).val / 8000 := ⟨⟨(i 0).val / 8000, by rw [hN]; omega⟩, rfl⟩
  refine ⟨t, flush3_4 t, ?_⟩
  show i ∈ ((View.whole main_v22).slice (win3_4.rect t)).set
  rw [View.set_slice_whole, Rect.mem_set_unit]
  exact mem_rows (by decide) i ((idx t).1.trans (by rw [ht]))

theorem value (c : Dev nD) :
    out V c = Spec.message (xg V c)
      (Spec.edgeLin (ea V c) (fun j => ewRow V c (ix2 0 (j 0))) (fun k => ebRow V c (ix2 0 (k 0)))) :=
  (dat3 (F := Ideal) V c).arrAt_eq_of_cover 4 _ (fun t _ => flushed_eq V c t) cover

end Cert.KernelIdeal.EdgeRegion3

end
-- ==== Proof.StatsRegion4.lean ====
import proofs.«414907_j52115133169838_1_alg».proof.Proof.Stats

noncomputable section

namespace Cert.KernelIdeal.StatsRegion4

open Cert.KernelIdeal.Gen Cert.KernelIdeal.Stats
open Idealize.ShloMosaic Idealize.ShloMosaic.TcCoe Idealize.ShloMosaic.Tactic Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

abbrev x (c : Dev nD) : Vec Ideal S100000x128 .f32 := V c (Pipeline.arrRef spec4 0)
abbrev aggr (c : Dev nD) : Vec Ideal S100000x128 .f32 := V c (Pipeline.arrRef spec4 1)
abbrev w1 (c : Dev nD) : Vec Ideal S128x128 .f32 := V c (Pipeline.arrRef spec4 2)
abbrev b1Row (c : Dev nD) : Vec Ideal S1x128 .f32 := V c (Pipeline.arrRef spec4 3)
abbrev z (c : Dev nD) : Vec Ideal S100000x128 .f32 := (dat4 (F := Ideal) V c).arrAt 4 cfg4.N
abbrev stat (c : Dev nD) : Vec Ideal S2x128 .f32 := (dat4 (F := Ideal) V c).arrAt 5 cfg4.N

abbrev xb (c : Dev nD) (t : Fin cfg4.N) : Vec Ideal S5000x128 .f32 := iblk4 V c 0 t
abbrev ab (c : Dev nD) (t : Fin cfg4.N) : Vec Ideal S5000x128 .f32 := iblk4 V c 1 t
abbrev wb (c : Dev nD) (t : Fin cfg4.N) : Vec Ideal S128x128 .f32 := iblk4 V c 2 t
abbrev bb (c : Dev nD) (t : Fin cfg4.N) : Vec Ideal S1x128 .f32 := iblk4 V c 3 t
abbrev zb (c : Dev nD) : Fin cfg4.N → Vec Ideal S5000x128 .f32 := Stats.zb (xb V c) (ab V c) (wb V c) (bb V c)

-- the body here is, term for term, the body of the other statistics region
theorem sameA : @kernelRun4_A Ideal _ = @kernelRun1_A Ideal _ := rfl
theorem sameB : @kernelRun4_B Ideal _ = @kernelRun1_B Ideal _ := rfl
theorem sameC : @kernelRun4_C Ideal _ = @kernelRun1_C Ideal _ := rfl

-- what each kind of grid point leaves, read off the body's stores
theorem caseA (c : Dev nD) (t : Fin cfg4.N) (h0 : t.val % 20 = 0) (h1 : ¬t.val % 20 = 19) :
    outsAt4 V c t.val t.isLt = (zb V c t, upd (k1_pay3 (F := Ideal)) (xb V c t) (ab V c t) (wb V c t) (bb V c t)) := by
  rw [outsAt4_A V c t h0 h1]
  refine congrArg₂ Prod.mk ((View.read_writes_eq_canon _ _ _ fun y => cover4_A_4 (y := y) ..).trans ?_)
    ((View.read_writes_eq_canon _ _ _ fun y => cover4_A_5 (y := y) ..).trans ?_) <;> rw [sameA]
  exacts [(canonA ..).1, (canonA ..).2]
theorem caseB (c : Dev nD) (t : Fin cfg4.N) (h0 : ¬t.val % 20 = 0) (h1 : ¬t.val % 20 = 19) :
    outsAt4 V c t.val t.isLt = (zb V c t, upd (outsAt4 V c (t.val - 1) (Nat.lt_of_le_of_lt (Nat.sub_le _ _) t.isLt)).2 (xb V c t) (ab V c t) (wb V c t) (bb V c t)) := by
  rw [outsAt4_B V c t h0 h1]
  refine congrArg₂ Prod.mk ((View.read_writes_eq_canon _ _ _ fun y => cover4_B_4 (y := y) ..).trans ?_)
    ((View.read_writes_eq_canon _ _ _ fun y => cover4_B_5 (y := y) ..).trans ?_) <;> rw [sameB]
  exacts [(canonB ..).1, (canonB ..).2]
theorem caseC (c : Dev nD) (t : Fin cfg4.N) (h0 : ¬t.val % 20 = 0) (h1 : t.val % 20 = 19) :
    outsAt4 V c t.val t.isLt = (zb V c t, closing (upd (outsAt4 V c (t.val - 1) (Nat.lt_of_le_of_lt (Nat.sub_le _ _) t.isLt)).2 (xb V c t) (ab V c t) (wb V c t) (bb V c t))) := by
  rw [outsAt4_C V c t h0 h1]
  refine congrArg₂ Prod.mk ((View.read_writes_eq_canon _ _ _ fun y => cover4_C_4 (y := y) ..).trans ?_)
    ((View.read_writes_eq_canon _ _ _ fun y => cover4_C_5 (y := y) ..).trans ?_) <;> rw [sameC]
  exacts [(canonC ..).1, (canonC ..).2]

theorem hN : cfg4.N = 20 := N_4
theorem h19 : 19 < cfg4.N := by rw [hN]; decide

-- block indices of windows 0 to 4 at every grid point
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

theorem xb_apply (c : Dev nD) (t : Fin cfg4.N) (y : S5000x128.Idx) (i : S100000x128.Idx)
    (h0 : (i 0).val = 5000 * t.val + (y 0).val) (h1 : (i 1).val = (y 1).val) : xb V c t y = x V c i := by
  obtain ⟨e0, e1, -⟩ := idx_facts t
  show V c (Pipeline.arrRef spec4 0) _ = V c (Pipeline.arrRef spec4 0) _
  refine congrArg _ (Shape.idx_ext₂ ?_ ?_)
  · show win4_0.index t (0 : Fin 2) * 5000 + 1 * (y 0).val = (i 0).val; rw [e0, h0]; omega
  · show win4_0.index t (1 : Fin 2) * 128 + 1 * (y 1).val = (i 1).val; rw [e1, h1]; omega
theorem ab_apply (c : Dev nD) (t : Fin cfg4.N) (y : S5000x128.Idx) (i : S100000x128.Idx)
    (h0 : (i 0).val = 5000 * t.val + (y 0).val) (h1 : (i 1).val = (y 1).val) : ab V c t y = aggr V c i := by
  obtain ⟨-, -, e0, e1, -⟩ := idx_facts t
  show V c (Pipeline.arrRef spec4 1) _ = V c (Pipeline.arrRef spec4 1) _
  refine congrArg _ (Shape.idx_ext₂ ?_ ?_)
  · show win4_1.index t (0 : Fin 2) * 5000 + 1 * (y 0).val = (i 0).val; rw [e0, h0]; omega
  · show win4_1.index t (1 : Fin 2) * 128 + 1 * (y 1).val = (i 1).val; rw [e1, h1]; omega
theorem wb_eq (c : Dev nD) (t : Fin cfg4.N) : wb V c t = w1 V c := by
  obtain ⟨-, -, -, -, e0, e1, -⟩ := idx_facts t
  funext y
  show V c (Pipeline.arrRef spec4 2) _ = V c (Pipeline.arrRef spec4 2) _
  exact congrArg _ (Shape.idx_ext₂ (win4_2.rect_emb_val_of_index_zero t 0 e0 y) (win4_2.rect_emb_val_of_index_zero t 1 e1 y))
theorem bb_eq (c : Dev nD) (t : Fin cfg4.N) : bb V c t = b1Row V c := by
  obtain ⟨-, -, -, -, -, -, e0, e1, -⟩ := idx_facts t
  funext y
  show V c (Pipeline.arrRef spec4 3) _ = V c (Pipeline.arrRef spec4 3) _
  exact congrArg _ (Shape.idx_ext₂ (win4_3.rect_emb_val_of_index_zero t 0 e0 y) (win4_3.rect_emb_val_of_index_zero t 1 e1 y))

-- each point's output block is that block of the linear map, and the blocks tile the rows
theorem z_value (c : Dev nD) :
    z V c = Spec.lin (Spec.addM (x V c) (aggr V c)) (w1 V c) (fun k => b1Row V c (ix2 0 (k 0))) :=
  (dat4 V c).arrAt_eq_of_cover 4 _
    (fun t _ => by
      obtain ⟨-, -, -, -, -, -, -, -, e0, e1⟩ := idx_facts t
      show (cfg4.win 4).cut (grid4.coords t) ((dat4 V c).after 4 t) = _
      rw [after4_4, Stats.fst_eq _ _ _ _ _ (caseA V c) (caseB V c) (caseC V c) t]
      funext y
      show zb V c t y = Spec.lin (Spec.addM (x V c) (aggr V c)) (w1 V c) (fun k => b1Row V c (ix2 0 (k 0))) (((cfg4.win 4).blk t).view.emb y)
      refine Stats.zb_apply _ _ _ _ _ _ _ _ (xb_apply V c) (ab_apply V c) (wb_eq V c) (bb_eq V c) t y _ ?_ ?_
      · show win4_4.index t (0 : Fin 2) * 5000 + 1 * (y 0).val = 5000 * t.val + (y 0).val; rw [e0]; omega
      · show win4_4.index t (1 : Fin 2) * 128 + 1 * (y 1).val = (y 1).val; rw [e1]; omega)
    fun i => by
      have hi0 : (i 0).val < 100000 := (i 0).isLt
      obtain ⟨t, ht⟩ : ∃ t : Fin cfg4.N, t.val = (i 0).val / 5000 := ⟨⟨_, by rw [hN]; omega⟩, rfl⟩
      obtain ⟨-, -, -, -, -, -, -, -, e0, e1⟩ := idx_facts t
      refine ⟨t, flush4_4 _, ?_⟩
      show i ∈ ((View.whole main_v30_0).slice (win4_4.rect t)).set
      rw [View.set_slice_whole, Rect.mem_set_unit]
      intro a
      match a with
      | ⟨0, _⟩ =>
        show win4_4.index t (0 : Fin 2) * 5000 ≤ (i 0).val ∧ (i 0).val < win4_4.index t (0 : Fin 2) * 5000 + 5000
        rw [e0]; omega
      | ⟨1, _⟩ =>
        show win4_4.index t (1 : Fin 2) * 128 ≤ (i 1).val ∧ (i 1).val < win4_4.index t (1 : Fin 2) * 128 + 128
        rw [e1]; have : (i 1).val < 128 := (i 1).isLt; omega

-- the statistics array is what the last block leaves: the normalised sums over all twenty blocks
theorem stat_eq (c : Dev nD) : stat V c = closing (acc (xb V c) (ab V c) (wb V c) (bb V c) 20) := by
  refine ((dat4 V c).arrAt_eq_of_cover 5 ((outsAt4 V c 19 h19).2) (fun t hf => ?_) fun i => ?_).trans
    (Stats.last _ _ _ _ _ (caseA V c) (caseB V c) (caseC V c) h19)
  · obtain rfl : t = ⟨19, h19⟩ := Fin.ext (by have := (flush4_5 t).mp hf; have := lt_of_lt_of_eq t.isLt hN; show t.val = 19; omega)
    show (cfg4.win 5).cut (grid4.coords ⟨19, h19⟩) ((dat4 V c).after 5 ⟨19, h19⟩) = _
    rw [after4_5]
    have hz' : (fun a => win4_5.index ⟨19, h19⟩ a * main_v30_1.ty.shape.size a) = fun _ => 0 := funext fun a => by fin_cases a <;> decide +kernel
    exact (Memref.read_access_unit_zero (Elt Ideal) main_v30_1 hz' (fun a => by rw [congrFun hz' a]; simp) ((outsAt4 V c 19 h19).2)).symm
  · refine ⟨⟨19, h19⟩, (flush4_5 _).mpr rfl, ?_⟩
    show i ∈ ((View.whole main_v30_1).slice (win4_5.rect ⟨19, h19⟩)).set
    rw [View.set_slice_whole, Rect.mem_set_unit]
    intro a
    have h0 : (i 0 : Nat) < 2 := (i 0).isLt
    have h1 : (i 1 : Nat) < 128 := (i 1).isLt
    match a with
    | ⟨0, _⟩ =>
      show win4_5.index ⟨19, h19⟩ 0 * win4_5.size 0 ≤ (i 0 : Nat) ∧ (i 0 : Nat) < win4_5.index ⟨19, h19⟩ 0 * win4_5.size 0 + win4_5.xsize (grid4.coords ⟨19, h19⟩) 0
      rw [show win4_5.index ⟨19, h19⟩ 0 * win4_5.size 0 = 0 from by decide +kernel, show win4_5.xsize (grid4.coords ⟨19, h19⟩) 0 = 2 from by decide +kernel]; omega
    | ⟨1, _⟩ =>
      show win4_5.index ⟨19, h19⟩ 1 * win4_5.size 1 ≤ (i 1 : Nat) ∧ (i 1 : Nat) < win4_5.index ⟨19, h19⟩ 1 * win4_5.size 1 + win4_5.xsize (grid4.coords ⟨19, h19⟩) 1
      rw [show win4_5.index ⟨19, h19⟩ 1 * win4_5.size 1 = 0 from by decide +kernel, show win4_5.xsize (grid4.coords ⟨19, h19⟩) 1 = 128 from by decide +kernel]; omega

theorem stat_mean (c : Dev nD) (k : Fin 128) :
    stat V c (ix2 0 k) = Spec.colMean (z V c) (ix1 k) :=
  Stats.stat_mean _ _ _ _ _ _ _ _ _ (xb_apply V c) (ab_apply V c) (wb_eq V c) (bb_eq V c) _ hN (z_value V c) (stat_eq V c) k

theorem stat_var (c : Dev nD) (k : Fin 128) :
    stat V c (ix2 1 k) = Spec.colVarSq (z V c) (ix1 k) :=
  Stats.stat_var _ _ _ _ _ _ _ _ _ (xb_apply V c) (ab_apply V c) (wb_eq V c) (bb_eq V c) _ hN (z_value V c) (stat_eq V c) k

end Cert.KernelIdeal.StatsRegion4

end
-- ==== Proof.NormRegion5.lean ====
import proofs.«414907_j52115133169838_1_alg».proof.Proof.Gen.KernelIdeal.Frame
import proofs.«414907_j52115133169838_1_alg».proof.Proof.NormRegion2

noncomputable section

namespace Cert.KernelIdeal.NormRegion5

open Cert.KernelIdeal.Gen Cert.RowBlocks
open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

abbrev z (c : Dev nD) : Vec Ideal S100000x128 .f32 := V c (Pipeline.arrRef spec5 0)
abbrev stat (c : Dev nD) : Vec Ideal S2x128 .f32 := V c (Pipeline.arrRef spec5 1)
abbrev gRow (c : Dev nD) : Vec Ideal S1x128 .f32 := V c (Pipeline.arrRef spec5 2)
abbrev shRow (c : Dev nD) : Vec Ideal S1x128 .f32 := V c (Pipeline.arrRef spec5 3)
abbrev w2 (c : Dev nD) : Vec Ideal S128x128 .f32 := V c (Pipeline.arrRef spec5 4)
abbrev b2Row (c : Dev nD) : Vec Ideal S1x128 .f32 := V c (Pipeline.arrRef spec5 5)
abbrev out (c : Dev nD) : Vec Ideal S100000x128 .f32 := (dat5 (F := Ideal) V c).arrAt 6 cfg5.N

theorem idx : ∀ t : Fin cfg5.N, win5_6.index t = ![t.val, 0] ∧ win5_0.index t = ![t.val, 0] ∧ win5_1.index t = ![0, 0]
    ∧ win5_2.index t = ![0, 0] ∧ win5_3.index t = ![0, 0] ∧ win5_4.index t = ![0, 0] ∧ win5_5.index t = ![0, 0] :=
  (by decide +kernel : ∀ t : Fin grid5.N, _)

theorem flushed_eq (c : Dev nD) (t : Fin cfg5.N) :
    (dat5 (F := Ideal) V c).flushed 6 t = ((cfg5.win 6).blk t).view.read (Elt Ideal)
      (NormRegion2.layer (z V c) (stat V c) (gRow V c) (shRow V c) (w2 V c) (b2Row V c)) := by
  obtain ⟨h6, h0, h1, h2, h3, h4, h5⟩ := idx t
  exact (after5_6 V c t).trans (NormRegion2.out_read (z V c) (stat V c) (gRow V c) (shRow V c) (w2 V c) (b2Row V c) t.val
    (.of h6 (win5_6.rect_emb_val t)) (.of h0 (win5_0.rect_emb_val t)) (whole_of h1 (win5_1.rect_emb_val t))
    (whole_of h2 (win5_2.rect_emb_val t)) (whole_of h3 (win5_3.rect_emb_val t)) (whole_of h4 (win5_4.rect_emb_val t))
    (whole_of h5 (win5_5.rect_emb_val t)) :)

theorem cover (i : S100000x128.Idx) :
    ∃ t : Fin cfg5.N, (cfg5.win 6).flush t = true ∧ i ∈ ((cfg5.win 6).blk t).view.set := by
  have hi : (i 0).val < 100000 := (i 0).isLt
  have hN : cfg5.N = 20 := N_5
  obtain ⟨t, ht⟩ : ∃ t : Fin cfg5.N, t.val = (i 0).val / 5000 := ⟨⟨(i 0).val / 5000, by rw [hN]; omega⟩, rfl⟩
  refine ⟨t, flush5_6 t, ?_⟩
  show i ∈ ((View.whole main_v31).slice (win5_6.rect t)).set
  rw [View.set_slice_whole, Rect.mem_set_unit]
  exact mem_rows (by decide) i ((idx t).1.trans (by rw [ht]))

theorem value (c : Dev nD) :
    out V c = Spec.relu (Spec.lin
      (Spec.normAct (R := 100000) (C := 128) (fun k => gRow V c (ix2 0 (k 0))) (fun k => shRow V c (ix2 0 (k 0))) (z V c)
        (fun k => stat V c (ix2 0 (k 0))) (fun k => stat V c (ix2 1 (k 0))))
      (w2 V c) (fun k => b2Row V c (ix2 0 (k 0)))) :=
  (dat5 (F := Ideal) V c).arrAt_eq_of_cover 6 _ (fun t _ => flushed_eq V c t) cover

end Cert.KernelIdeal.NormRegion5

end
-- ==== Proof.KernelLayer2.lean ====
import proofs.«414907_j52115133169838_1_alg».proof.Proof.KernelShared
import proofs.«414907_j52115133169838_1_alg».proof.Proof.EdgeRegion3
import proofs.«414907_j52115133169838_1_alg».proof.Proof.StatsRegion4
import proofs.«414907_j52115133169838_1_alg».proof.Proof.NormRegion5

noncomputable section

namespace Cert.KernelIdeal.Layer2

open Cert.KernelIdeal.Gen Cert.KernelIdeal.Layer
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

open Cert.KernelIdeal.Args

theorem s3_any {F : FTy → Type} [FloatOps F] (V : Valuation τ sig (Elt F)) :
    StableHlo.after (hostOps3 (F := F)) V (Proc.devRef .tc main_v19)
      = lookupEdges (V (Proc.devRef .tc main_v18)) (V (Proc.devRef .tc main_v1)) := by
  after_results_simp
  simp only [StableHlo.TRef.ofBuf, StableHlo.TRef.toBuf, cast_cast_self]
  have e1 : ∀ h, (cast h (V (Proc.devRef .tc main_v1)) : IVec S1600000 32) = V (Proc.devRef .tc main_v1) := fun h => rfl
  have e18 : ∀ h, (cast h (V (Proc.devRef .tc main_v18)) : Vec F S100000x128 .f32) = V (Proc.devRef .tc main_v18) := fun h => rfl
  simp only [e1, e18]
  generalize V (Proc.devRef .tc main_v1) = w
  generalize V (Proc.devRef .tc main_v18) = t
  refine (cast_eq _ _).trans ?_
  rfl

section Stretches
variable (X : Valuation τ sig (Elt Ideal))

theorem s31_v20 : (StableHlo.after hostOps3_1 X (Proc.devRef .tc main_v20) : Vec Ideal S1x128 .f32)
    = shapeCast S1x128 (X (Proc.devRef .tc main_arg13) : Vec Ideal S128x1 .f32) shapeCasts_S128x1_S1x128 := by
  after_results
  rfl
theorem s31_v21 : (StableHlo.after hostOps3_1 X (Proc.devRef .tc main_v21) : Vec Ideal S1x128 .f32)
    = shapeCast S1x128 (X (Proc.devRef .tc main_arg14) : Vec Ideal S128 .f32) shapeCasts_S128_S1x128 := by
  after_results
  rfl
theorem s4_v25 : (StableHlo.after hostOps4 X (Proc.devRef .tc main_v25) : Vec Ideal S100000x128 .f32)
    = Host.scatterAdd scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 (X (Proc.devRef .tc main_v3) : IVec S1600000 32))
        (X (Proc.devRef .tc main_v22) : Vec Ideal S1600000x128 .f32) := by
  after_results
theorem s4_v26 : (StableHlo.after hostOps4 X (Proc.devRef .tc main_v26) : Vec Ideal S1x128 .f32)
    = shapeCast S1x128 (X (Proc.devRef .tc main_arg16) : Vec Ideal S128 .f32) shapeCasts_S128_S1x128 := by
  after_results
  rfl
theorem s4_v27 : (StableHlo.after hostOps4 X (Proc.devRef .tc main_v27) : Vec Ideal S1x128 .f32)
    = shapeCast S1x128 (X (Proc.devRef .tc main_arg17) : Vec Ideal S128 .f32) shapeCasts_S128_S1x128 := by
  after_results
  rfl
theorem s4_v28 : (StableHlo.after hostOps4 X (Proc.devRef .tc main_v28) : Vec Ideal S1x128 .f32)
    = shapeCast S1x128 (X (Proc.devRef .tc main_arg18) : Vec Ideal S128 .f32) shapeCasts_S128_S1x128 := by
  after_results
  rfl
theorem s4_v29 : (StableHlo.after hostOps4 X (Proc.devRef .tc main_v29) : Vec Ideal S1x128 .f32)
    = shapeCast S1x128 (X (Proc.devRef .tc main_arg20) : Vec Ideal S128 .f32) shapeCasts_S128_S1x128 := by
  after_results
  rfl

end Stretches

theorem keep3 (c : Dev nD) (r : Ref sig .tc) (h : r ∉ wr3 := by decide) :
    W9 m ρ c (Proc.devRef .tc r) = W8 m ρ c (Proc.devRef .tc r) :=
  StableHlo.after_of_writes_sub hostOps3 _ subs.2.1 h
theorem keep3_1 (c : Dev nD) (r : Ref sig .tc) (h : r ∉ wr3_1 := by decide) :
    W10 m ρ c (Proc.devRef .tc r) = W9 m ρ c (Proc.devRef .tc r) :=
  StableHlo.after_of_writes_sub hostOps3_1 _ subs.2.2.1 h
theorem keep4 (c : Dev nD) (r : Ref sig .tc) (h : r ∉ wr4 := by decide) :
    W12 m ρ c (Proc.devRef .tc r) = W11 m ρ c (Proc.devRef .tc r) :=
  StableHlo.after_of_writes_sub hostOps4 _ subs.2.2.2 h

theorem to8 (c : Dev nD) (r : Ref sig .tc) (h5 : ∀ w, Pipeline.arrRef spec2 w ≠ r := by decide)
    (h4 : ∀ w, Pipeline.arrRef spec1 w ≠ r := by decide) (hs : r ∉ wr1 := by decide)
    (h0 : ∀ w, Pipeline.arrRef spec0 w ≠ r := by decide) (h3 : r ∉ wr0_3 := by decide) (h2 : r ∉ wr0_2 := by decide)
    (h1 : r ∉ wr0_1 := by decide) (h : r ∉ wr0 := by decide) :
    W8 m ρ c (Proc.devRef .tc r) = m ((c : Thread nD τ).loc r) :=
  (early m ρ c r h5 h4 hs h0 h3 h2 h1).trans (keep0 m ρ c r h)
theorem at10 (c : Dev nD) (r : Ref sig .tc) {v}
    (h8 : W8 m ρ c (Proc.devRef .tc r) = v) (h31 : r ∉ wr3_1 := by decide) (h3 : r ∉ wr3 := by decide) :
    W10 m ρ c (Proc.devRef .tc r) = v :=
  (keep3_1 m ρ c r h31).trans <| (keep3 m ρ c r h3).trans h8
theorem at11 (c : Dev nD) (r : Ref sig .tc) {v}
    (h8 : W8 m ρ c (Proc.devRef .tc r) = v) (h11 : ∀ w, Pipeline.arrRef spec3 w ≠ r := by decide)
    (h31 : r ∉ wr3_1 := by decide) (h3 : r ∉ wr3 := by decide) : W11 m ρ c (Proc.devRef .tc r) = v :=
  (W11_of_ne m ρ c r h11).trans (at10 m ρ c r h8 h31 h3)

-- the edge attributes are an input of region 0, and a region leaves its inputs as it finds them
theorem ea8 (c : Dev nD) : W8 m ρ c (Proc.devRef .tc main_arg2) = m ((c : Thread nD τ).loc main_arg2) :=
  (W8_of_ne m ρ c main_arg2 (by decide)).trans <| (W7_of_ne m ρ c main_arg2 (by decide)).trans <|
    (keep1 m ρ c main_arg2).trans <|
    ((W5_arr m ρ c 1).trans (((dat0 (V4 m ρ) c).arrAt_in 1 rfl _).trans (A_eq0 (V4 m ρ) c 1))).trans (to4 m ρ c main_arg2)

abbrev out1 (c : Dev nD) : Net.RM 100000 128 := W8 m ρ c (Proc.devRef .tc main_v18)
abbrev msgs2 (c : Dev nD) : Net.RM 1600000 128 :=
  Spec.message (Cert.KernelOps.ops.gatherEdges (out1 m ρ c) (ei m c)) (Spec.edgeLin (ea m c) (P2 m c).ew (P2 m c).eb)
abbrev pre2 (c : Dev nD) : Net.RM 100000 128 := Net.preAct Cert.KernelOps.ops (P2 m c) (ei m c) (ea m c) (out1 m ρ c)

theorem W10_v19 (c : Dev nD) : (W10 m ρ c (Proc.devRef .tc main_v19) : Net.RM 1600000 128)
    = Cert.KernelOps.ops.gatherEdges (out1 m ρ c) (ei m c) :=
  (keep3_1 m ρ c main_v19).trans <| (s3_any (W8 m ρ c)).trans <| (lookupEdges_ideal _ _).trans <|
    (congrArg (Cert.KernelOps.takeEdges (out1 m ρ c)) ((early m ρ c main_v1).trans (s0_v1 (W0 m ρ c)))).trans
      (ops_gatherEdges (out1 m ρ c) (ei m c)).symm

theorem W11_v22 (c : Dev nD) : (W11 m ρ c (Proc.devRef .tc main_v22) : Net.RM 1600000 128) = msgs2 m ρ c :=
  ((W11_arr m ρ c 4).trans (EdgeRegion3.value (V10 m ρ) c)).trans
    (congrArg₂ (Spec.message (E := 1600000) (D := 128)) (W10_v19 m ρ c)
      (congr (congr (congrArg (Spec.edgeLin (E := 1600000) (D := 128)) (at10 m ρ c main_arg2 (ea8 m ρ c)))
        ((col_eq (s31_v20 (W9 m ρ c))).trans <| (keep3 m ρ c main_arg13).trans (to8 m ρ c main_arg13)))
        ((row_eq (s31_v21 (W9 m ρ c))).trans <| (keep3 m ρ c main_arg14).trans (to8 m ρ c main_arg14))))

theorem W12_v25 (c : Dev nD) : (W12 m ρ c (Proc.devRef .tc main_v25) : Net.RM 100000 128)
    = Cert.KernelOps.ops.scatterEdges (msgs2 m ρ c) (ei m c) := by
  have h := s4_v25 (W11 m ρ c)
  rw [at11 m ρ c main_v3 ((early m ρ c main_v3).trans (s0_v3 (W0 m ρ c))), W11_v22] at h
  exact h.trans (ops_scatterEdges (msgs2 m ρ c) (ei m c)).symm
theorem W12_v18 (c : Dev nD) : W12 m ρ c (Proc.devRef .tc main_v18) = W8 m ρ c (Proc.devRef .tc main_v18) :=
  (keep4 m ρ c main_v18).trans (at11 m ρ c main_v18 rfl)

theorem z13 (c : Dev nD) : StatsRegion4.z (V12 m ρ) c = pre2 m ρ c :=
  (StatsRegion4.z_value (V12 m ρ) c).trans
    (congr (congr (congrArg (Spec.lin (R := 100000) (K := 128) (O := 128))
      (congrArg₂ (Spec.addM (R := 100000) (C := 128)) (W12_v18 m ρ c) (W12_v25 m ρ c)))
        ((keep4 m ρ c main_arg15).trans (at11 m ρ c main_arg15 (to8 m ρ c main_arg15))))
      ((row_eq (s4_v26 (W11 m ρ c))).trans (at11 m ρ c main_arg16 (to8 m ρ c main_arg16))))

theorem h1_kept (c : Dev nD) :
    W14 m ρ c (Proc.devRef .tc main_v18) = W8 m ρ c (Proc.devRef .tc main_v18) :=
  (W14_of_ne m ρ c main_v18 (by decide)).trans <|
  ((W13_arr m ρ c 0).trans (((dat4 (V12 m ρ) c).arrAt_in 0 rfl _).trans (A_eq4 (V12 m ρ) c 0))).trans (W12_v18 m ρ c)

theorem h2_value (c : Dev nD) :
    (W14 m ρ c (Proc.devRef .tc main_v31) : Net.RM 100000 128)
      = Net.layer Spec.colVarSq Cert.KernelOps.ops (P2 m c) (ei m c) (ea m c)
          (W8 m ρ c (Proc.devRef .tc main_v18) : Net.RM 100000 128) := by
  have ez : NormRegion5.z (V13 m ρ) c = pre2 m ρ c := (W13_arr m ρ c 4).trans (z13 m ρ c)
  have es : NormRegion5.stat (V13 m ρ) c = StatsRegion4.stat (V12 m ρ) c := W13_arr m ρ c 5
  have em : (fun k : (Spec.Vc 128).Idx => NormRegion5.stat (V13 m ρ) c (ix2 0 (k 0))) = Spec.colMean (pre2 m ρ c) :=
    stat_row Spec.colMean 0 es (z13 m ρ c) (StatsRegion4.stat_mean (V12 m ρ) c)
  have ev : (fun k : (Spec.Vc 128).Idx => NormRegion5.stat (V13 m ρ) c (ix2 1 (k 0))) = Spec.colVarSq (pre2 m ρ c) :=
    stat_row Spec.colVarSq 1 es (z13 m ρ c) (StatsRegion4.stat_var (V12 m ρ) c)
  have eg : rowRead (NormRegion5.gRow (V13 m ρ) c) = (P2 m c).g :=
    (congrArg rowRead (W13_of_ne m ρ c main_v27 (by decide))).trans <|
      (row_eq (s4_v27 (W11 m ρ c))).trans (at11 m ρ c main_arg17 (to8 m ρ c main_arg17))
  have esh : rowRead (NormRegion5.shRow (V13 m ρ) c) = (P2 m c).sh :=
    (congrArg rowRead (W13_of_ne m ρ c main_v28 (by decide))).trans <|
      (row_eq (s4_v28 (W11 m ρ c))).trans (at11 m ρ c main_arg18 (to8 m ρ c main_arg18))
  have eb2 : rowRead (NormRegion5.b2Row (V13 m ρ) c) = (P2 m c).b2 :=
    (congrArg rowRead (W13_of_ne m ρ c main_v29 (by decide))).trans <|
      (row_eq (s4_v29 (W11 m ρ c))).trans (at11 m ρ c main_arg20 (to8 m ρ c main_arg20))
  have ew2 : (NormRegion5.w2 (V13 m ρ) c : Net.RM 128 128) = (P2 m c).w2 :=
    (W13_of_ne m ρ c main_arg19 (by decide)).trans <|
      (keep4 m ρ c main_arg19).trans (at11 m ρ c main_arg19 (to8 m ρ c main_arg19))
  exact ((W14_arr m ρ c 6).trans (NormRegion5.value (V13 m ρ) c)).trans
    (congrArg (Spec.relu (R := 100000) (C := 128)) (congr (congr (congrArg (Spec.lin (R := 100000) (K := 128) (O := 128))
      (congr (congr (congr (congr (congrArg (Spec.normAct (R := 100000) (C := 128)) eg) esh) ez) em) ev)) ew2) eb2))

end Cert.KernelIdeal.Layer2

end
-- ==== Proof.HeadsRegion6.lean ====
import proofs.«414907_j52115133169838_1_alg».proof.Proof.Gen.KernelIdeal.Frame
import proofs.«414907_j52115133169838_1_alg».proof.Proof.Spec
import proofs.«414907_j52115133169838_1_alg».proof.Proof.RowBlocks
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

noncomputable section

namespace Cert.KernelIdeal.HeadsRegion6

open Cert.KernelIdeal.Gen Cert.RowBlocks
open Idealize.ShloMosaic Idealize.ShloMosaic.TcCoe Idealize.ShloMosaic.Tactic Idealize.ShloMosaic.ValueIdx
open Idealize.SL Idealize.SL.Sem
open Idealize.ShloMosaic.Pipeline (Dat Cfg Window)

-- Both products are against transposed weights and each bias row is added to every row: the two linear maps of `Spec.head`.
theorem pay_head (x0 : FVec Ideal S512x256 .f32) (w1 : FVec Ideal S128x256 .f32) (b1 : FVec Ideal S1x128 .f32)
    (w2 : FVec Ideal S512x128 .f32) (b2 : FVec Ideal S1x512 .f32) :
    k6_pay3 (F := Ideal) x0 w1 b1 w2 b2
      = Spec.head x0 w1 (fun k => b1 (ix2 0 (k 0))) w2 (fun k => b2 (ix2 0 (k 0))) := by
  funext j
  obtain ⟨p, q, rfl⟩ : ∃ (p : Fin 512) (q : Fin 512), j = ix2 p q := ⟨j 0, j 1, eq_ix2 j⟩
  unfold k6_pay3 k6_pay2
  simp only [shapeCast_self]
  rw [addf_apply, product_apply dot_S512x128_S128x512_S512x512_1_0_0_1_n_n rfl, broadcastTo_1b_ab_apply]
  refine congrArg (· + b2 (ix2 0 q)) (Finset.sum_congr rfl fun k _ => ?_)
  rw [maximumf_apply, addf_apply, broadcast_apply, product_apply dot_S512x256_S256x128_S512x128_1_0_0_1_n_n rfl,
    broadcastTo_1b_ab_apply, show (Scalar.ofBits .f32 0x00000000#32 : Ideal .f32) = 0 from Ideal.ofBits_zero_f32]
  rfl

-- A linear map's entry depends on its own input row and its own column only.
theorem lin_congr {R R' K O : Nat} (X : (Spec.Mat R K).Idx → EReal) (X' : (Spec.Mat R' K).Idx → EReal)
    (w : (Spec.Mat O K).Idx → EReal) (b : (Spec.Vc O).Idx → EReal) (j : (Spec.Mat R O).Idx) (i : (Spec.Mat R' O).Idx)
    (hX : ∀ k, X (ix2 (j 0) k) = X' (ix2 (i 0) k)) (h1 : (j 1).val = (i 1).val) : Spec.lin X w b j = Spec.lin X' w b i := by
  have e : j 1 = i 1 := Fin.ext h1
  unfold Spec.lin
  rw [e]
  simp only [hX]

-- Hence the head of a block of rows agrees, row for row, with the head of all the rows.
theorem head_of_rows (H : Vec Ideal S2048x256 .f32) (x0 : Vec Ideal S512x256 .f32) (w1 : Vec Ideal S128x256 .f32)
    (b1 : (Spec.Vc 128).Idx → EReal) (w2 : Vec Ideal S512x128 .f32) (b2 : (Spec.Vc 512).Idx → EReal) (n : Nat)
    (hx : ∀ (y : S512x256.Idx) (z : S2048x256.Idx), (z 0).val = n * 512 + (y 0).val → (z 1).val = (y 1).val → x0 y = H z)
    (j : S512x512.Idx) (i : S2048x512.Idx) (hi0 : (i 0).val = n * 512 + (j 0).val) (hi1 : (i 1).val = (j 1).val) :
    Spec.head x0 w1 b1 w2 b2 j = Spec.head H w1 b1 w2 b2 i :=
  lin_congr _ _ w2 b2 j i (fun k => congrArg (max · 0) (lin_congr x0 H w1 b1 _ _ (fun l => hx _ _ hi0 rfl) rfl)) hi1.symm

variable (V : (c : Dev nD) → (b : Ref sig .tc) → Buf (Elt Ideal) ((c : Thread nD τ).loc b))

abbrev h (c : Dev nD) : Vec Ideal S2048x256 .f32 := V c (Pipeline.arrRef spec6 0)
abbrev fw1 (c : Dev nD) : Vec Ideal S128x256 .f32 := V c (Pipeline.arrRef spec6 1)
abbrev fb1Row (c : Dev nD) : Vec Ideal S1x128 .f32 := V c (Pipeline.arrRef spec6 2)
abbrev fw2 (c : Dev nD) : Vec Ideal S512x128 .f32 := V c (Pipeline.arrRef spec6 3)
abbrev fb2Row (c : Dev nD) : Vec Ideal S1x512 .f32 := V c (Pipeline.arrRef spec6 4)
abbrev bw1 (c : Dev nD) : Vec Ideal S128x256 .f32 := V c (Pipeline.arrRef spec6 5)
abbrev bb1Row (c : Dev nD) : Vec Ideal S1x128 .f32 := V c (Pipeline.arrRef spec6 6)
abbrev bw2 (c : Dev nD) : Vec Ideal S512x128 .f32 := V c (Pipeline.arrRef spec6 7)
abbrev bb2Row (c : Dev nD) : Vec Ideal S1x512 .f32 := V c (Pipeline.arrRef spec6 8)
abbrev outF (c : Dev nD) : Vec Ideal S2048x512 .f32 := (dat6 (F := Ideal) V c).arrAt 9 cfg6.N
abbrev outB (c : Dev nD) : Vec Ideal S2048x512 .f32 := (dat6 (F := Ideal) V c).arrAt 10 cfg6.N

theorem idx_rows : ∀ t : Fin cfg6.N,
    (win6_0.index t (0 : Fin 2) = t.val ∧ win6_0.index t (1 : Fin 2) = 0)
    ∧ (win6_9.index t (0 : Fin 2) = t.val ∧ win6_9.index t (1 : Fin 2) = 0)
    ∧ (win6_10.index t (0 : Fin 2) = t.val ∧ win6_10.index t (1 : Fin 2) = 0) :=
  (by decide +kernel : ∀ t : Fin grid6.N, _)

theorem idx_fixed : ∀ w : Fin 11, 0 < w.val ∧ w.val < 9 → ∀ (t : Fin grid6.N) (a : Fin (win6 w).shape.rank),
    (win6 w).index t a = 0 := by decide +kernel

-- An array read through an embedding that keeps every coordinate is the array.
theorem read_fixed {S : Shape} {α : Type} (X : S.Idx → α) (f : S.Idx → S.Idx) (hf : ∀ y a, ((f y a : Fin _) : Nat) = y a) :
    (fun y => X (f y)) = X :=
  funext fun y => congrArg X (funext fun a => Fin.ext (hf y a))

theorem fw1_block (c : Dev nD) (t : Fin cfg6.N) : iblk6 V c 1 t = fw1 V c :=
  read_fixed _ _ fun y a => Window.rect_emb_val_of_index_zero win6_1 t a (idx_fixed 1 (by decide) t a) y
theorem fb1Row_block (c : Dev nD) (t : Fin cfg6.N) : iblk6 V c 2 t = fb1Row V c :=
  read_fixed _ _ fun y a => Window.rect_emb_val_of_index_zero win6_2 t a (idx_fixed 2 (by decide) t a) y
theorem fw2_block (c : Dev nD) (t : Fin cfg6.N) : iblk6 V c 3 t = fw2 V c :=
  read_fixed _ _ fun y a => Window.rect_emb_val_of_index_zero win6_3 t a (idx_fixed 3 (by decide) t a) y
theorem fb2Row_block (c : Dev nD) (t : Fin cfg6.N) : iblk6 V c 4 t = fb2Row V c :=
  read_fixed _ _ fun y a => Window.rect_emb_val_of_index_zero win6_4 t a (idx_fixed 4 (by decide) t a) y
theorem bw1_block (c : Dev nD) (t : Fin cfg6.N) : iblk6 V c 5 t = bw1 V c :=
  read_fixed _ _ fun y a => Window.rect_emb_val_of_index_zero win6_5 t a (idx_fixed 5 (by decide) t a) y
theorem bb1Row_block (c : Dev nD) (t : Fin cfg6.N) : iblk6 V c 6 t = bb1Row V c :=
  read_fixed _ _ fun y a => Window.rect_emb_val_of_index_zero win6_6 t a (idx_fixed 6 (by decide) t a) y
theorem bw2_block (c : Dev nD) (t : Fin cfg6.N) : iblk6 V c 7 t = bw2 V c :=
  read_fixed _ _ fun y a => Window.rect_emb_val_of_index_zero win6_7 t a (idx_fixed 7 (by decide) t a) y
theorem bb2Row_block (c : Dev nD) (t : Fin cfg6.N) : iblk6 V c 8 t = bb2Row V c :=
  read_fixed _ _ fun y a => Window.rect_emb_val_of_index_zero win6_8 t a (idx_fixed 8 (by decide) t a) y

theorem h_block (c : Dev nD) (t : Fin cfg6.N) (y : S512x256.Idx) (z : S2048x256.Idx)
    (h0 : (z 0).val = t.val * 512 + (y 0).val) (h1 : (z 1).val = (y 1).val) :
    (iblk6 V c 0 t : Vec Ideal S512x256 .f32) y = h V c z := by
  obtain ⟨⟨e0, e1⟩, -⟩ := idx_rows t
  refine congrArg (V c (Pipeline.arrRef spec6 0)) (Shape.idx_ext₂
    ((Window.rect_emb_val win6_0 t y 0).trans ?_) ((Window.rect_emb_val win6_0 t y 1).trans ?_))
  · show win6_0.index t (0 : Fin 2) * 512 + (y 0).val = (z 0).val
    rw [e0, h0]
  · show win6_0.index t (1 : Fin 2) * 256 + (y 1).val = (z 1).val
    rw [e1, h1, Nat.zero_mul, Nat.zero_add]

-- Read through an embedding t blocks of rows down, the head of point t's pooled block is the head of all the rows.
theorem out_head (c : Dev nD) (t : Fin cfg6.N) (w1 : Vec Ideal S128x256 .f32) (b1 : Vec Ideal S1x128 .f32)
    (w2 : Vec Ideal S512x128 .f32) (b2 : Vec Ideal S1x512 .f32) (I : Fin 2 → Nat) (hI : I 0 = t.val ∧ I 1 = 0)
    (f : S512x512.Idx → S2048x512.Idx) (hf : ∀ j a, ((f j a : Fin _) : Nat) = I a * S512x512.size a + j a) :
    (View.canon [⟨r6_5, k6_pay3 (F := Ideal) (View.ld (iblk6 V c 0 t) r6_0) (View.ld w1 r6_1) (View.ld b1 r6_2)
        (View.ld w2 r6_3) (View.ld b2 r6_4)⟩] : Vec Ideal S512x512 .f32)
      = fun j => Spec.head (h V c) w1 (fun k => b1 (ix2 0 (k 0))) w2 (fun k => b2 (ix2 0 (k 0))) (f j) := by
  rw [View.canon_unit_zero hz]
  simp only [View.ld_unit_zero (S := ⟨2, _⟩) hz]
  rw [pay_head]
  funext j
  exact head_of_rows (h V c) (iblk6 V c 0 t) w1 _ w2 _ t.val (h_block V c t) j (f j)
    ((hf j 0).trans (congrArg (· * 512 + (j 0).val) hI.1)) ((hf j 1).trans (by rw [hI.2, Nat.zero_mul, Nat.zero_add]))

-- Every index of an output lies in some point's block of rows: the point its row's quotient by 512 names.
theorem row_cover (i : S2048x512.Idx) (I : Fin cfg6.N → Fin 2 → Nat) (hI : ∀ t, I t 0 = t.val ∧ I t 1 = 0) :
    ∃ t : Fin cfg6.N, ∀ a : Fin 2, I t a * S512x512.size a ≤ (i a).val ∧ (i a).val < I t a * S512x512.size a + S512x512.size a := by
  have := idx2_lt0 i
  have := idx2_lt1 i
  obtain ⟨t, ht⟩ : ∃ t : Fin cfg6.N, t.val = (i 0).val / 512 :=
    ⟨⟨(i 0).val / 512, by show (i 0).val / 512 < grid6.N; rw [N_6]; omega⟩, rfl⟩
  refine ⟨t, fun a => ?_⟩
  match a with
  | ⟨0, _⟩ => show I t 0 * 512 ≤ (i 0).val ∧ (i 0).val < I t 0 * 512 + 512; rw [(hI t).1, ht]; omega
  | ⟨1, _⟩ => show I t 1 * 512 ≤ (i 1).val ∧ (i 1).val < I t 1 * 512 + 512; rw [(hI t).2]; omega

theorem value_f (c : Dev nD) :
    outF V c = Spec.head (h V c) (fw1 V c) (fun k => fb1Row V c (ix2 0 (k 0))) (fw2 V c) (fun k => fb2Row V c (ix2 0 (k 0))) :=
  (dat6 (F := Ideal) V c).arrAt_eq_of_cover 9 _
    (fun t _ => by
      show (cfg6.win 9).cut (grid6.coords t) ((dat6 V c).after 9 t) = _
      rw [after6_9, fw1_block, fb1Row_block, fw2_block, fb2Row_block]
      exact out_head V c t _ _ _ _ _ (idx_rows t).2.1 _ (Window.rect_emb_val win6_9 t))
    fun i => by
      obtain ⟨t, ht⟩ := row_cover i win6_9.index fun t => (idx_rows t).2.1
      refine ⟨t, flush6_9 t, ?_⟩
      show i ∈ ((View.whole main_v43_0).slice (win6_9.rect t)).set
      rw [View.set_slice_whole, Rect.mem_set_unit]
      exact ht

theorem value_b (c : Dev nD) :
    outB V c = Spec.head (h V c) (bw1 V c) (fun k => bb1Row V c (ix2 0 (k 0))) (bw2 V c) (fun k => bb2Row V c (ix2 0 (k 0))) :=
  (dat6 (F := Ideal) V c).arrAt_eq_of_cover 10 _
    (fun t _ => by
      show (cfg6.win 10).cut (grid6.coords t) ((dat6 V c).after 10 t) = _
      rw [after6_10, bw1_block, bb1Row_block, bw2_block, bb2Row_block]
      exact out_head V c t _ _ _ _ _ (idx_rows t).2.2 _ (Window.rect_emb_val win6_10 t))
    fun i => by
      obtain ⟨t, ht⟩ := row_cover i win6_10.index fun t => (idx_rows t).2.2
      refine ⟨t, flush6_10 t, ?_⟩
      show i ∈ ((View.whole main_v43_1).slice (win6_10.rect t)).set
      rw [View.set_slice_whole, Rect.mem_set_unit]
      exact ht

end Cert.KernelIdeal.HeadsRegion6

end
-- ==== Proof.KernelHeads.lean ====
import proofs.«414907_j52115133169838_1_alg».proof.Proof.Gen.KernelIdeal.Frame
import proofs.«414907_j52115133169838_1_alg».proof.Proof.KernelArgs
import proofs.«414907_j52115133169838_1_alg».proof.Proof.HeadsRegion6
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Heads

open Cert.KernelIdeal.Gen
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

open Cert.KernelIdeal.Args

abbrev pooled (c : Dev nD) : Net.RM 2048 256 :=
  Cert.KernelOps.ops.join
    (Cert.KernelOps.ops.pool (W14 m ρ c (Proc.devRef .tc main_v18) : Net.RM 100000 128) (batch m c))
    (Cert.KernelOps.ops.pool (W14 m ρ c (Proc.devRef .tc main_v31) : Net.RM 100000 128) (batch m c))

-- The references the last host stretch writes.
abbrev written : List (Ref sig .tc) :=
  [main_cst_1, main_v32, main_v33, main_v34, main_cst_2, main_v35, main_v36, main_v37, main_v38, main_v39, main_v40,
    main_v41, main_v42]

theorem host_writes : (hostOps6 : List (HloOp τ sig (Elt Ideal))).Forall fun op =>
    op.writes ⊆ (written.map (Proc.devRef (τ := τ) .tc)).toFinset := by
  simp only [hostOps6, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

-- Nothing after region 5 writes such a reference, so what it holds there is what it holds at the end.
theorem exit5 (c : Dev nD) (b : Ref sig .tc) (h6 : ∀ w, Pipeline.arrRef spec6 w ≠ b) (hb : b ∉ written)
    (hend : W16 m ρ c (Proc.devRef .tc b) = m ((c : Thread nD τ).loc b)) :
    W14 m ρ c (Proc.devRef .tc b) = m ((c : Thread nD τ).loc b) :=
  ((StableHlo.after_of_writes_sub hostOps6 _ host_writes hb).symm.trans (W16_of_ne m ρ c b h6).symm).trans hend

theorem entry_pooled (c : Dev nD) : HeadsRegion6.h (V15 m ρ) c = pooled m ρ c := by
  show StableHlo.after hostOps6 (W14 m ρ c) (Proc.devRef .tc main_v38) = _
  after_results
  rw [exit5 m ρ c _ (by decide) (by decide) (W16_main_arg3 m ρ c)]
  rfl

-- An input array of region 6 is the same before and after it.
theorem entry_in (c : Dev nD) (w : Fin cfg6.W) (hin : (cfg6.win w).isOut = false) :
    V15 m ρ c (Pipeline.arrRef spec6 w) = W16 m ρ c (Proc.devRef .tc (Pipeline.arrRef spec6 w)) :=
  ((W16_arr m ρ c w).trans (((dat6 (V15 m ρ) c).arrAt_in w hin _).trans (A_eq6 (V15 m ρ) c w))).symm

-- A vector written as a one-row matrix is read back from the row.
theorem row_eq {n : Nat} {R : Vec Ideal ⟨2, ![1, n]⟩ .f32} {X : Vec Ideal ⟨1, ![n]⟩ .f32}
    (hc : (⟨1, ![n]⟩ : Shape).ShapeCasts ⟨2, ![1, n]⟩) (hR : R = shapeCast ⟨2, ![1, n]⟩ X hc) :
    (fun k => R (ix2 0 (k 0))) = X := by
  subst hR
  funext k
  exact (shapeCast_a_1a_apply X hc 0 (k 0)).trans (congrArg X (eq_ix1 k).symm)

theorem entry_fb1Row (c : Dev nD) : (fun k => HeadsRegion6.fb1Row (V15 m ρ) c (ix2 0 (k 0))) = (HF m c).b1 :=
  row_eq shapeCasts_S128_S1x128 (by
    show StableHlo.after hostOps6 (W14 m ρ c) (Proc.devRef .tc main_v39) = _
    after_results
    rw [exit5 m ρ c _ (by decide) (by decide) (W16_main_arg22 m ρ c)]
    rfl)

theorem entry_fb2Row (c : Dev nD) : (fun k => HeadsRegion6.fb2Row (V15 m ρ) c (ix2 0 (k 0))) = (HF m c).b2 :=
  row_eq shapeCasts_S512_S1x512 (by
    show StableHlo.after hostOps6 (W14 m ρ c) (Proc.devRef .tc main_v40) = _
    after_results
    rw [exit5 m ρ c _ (by decide) (by decide) (W16_main_arg24 m ρ c)]
    rfl)

theorem entry_bb1Row (c : Dev nD) : (fun k => HeadsRegion6.bb1Row (V15 m ρ) c (ix2 0 (k 0))) = (HB m c).b1 :=
  row_eq shapeCasts_S128_S1x128 (by
    show StableHlo.after hostOps6 (W14 m ρ c) (Proc.devRef .tc main_v41) = _
    after_results
    rw [exit5 m ρ c _ (by decide) (by decide) (W16_main_arg26 m ρ c)]
    rfl)

theorem entry_bb2Row (c : Dev nD) : (fun k => HeadsRegion6.bb2Row (V15 m ρ) c (ix2 0 (k 0))) = (HB m c).b2 :=
  row_eq shapeCasts_S512_S1x512 (by
    show StableHlo.after hostOps6 (W14 m ρ c) (Proc.devRef .tc main_v42) = _
    after_results
    rw [exit5 m ρ c _ (by decide) (by decide) (W16_main_arg28 m ρ c)]
    rfl)

theorem head_congr {a a' : Net.RM 2048 256} {w1 w1' : Net.RM 128 256} {b1 b1' : Net.RV 128} {w2 w2' : Net.RM 512 128}
    {b2 b2' : Net.RV 512} (ha : a = a') (hw1 : w1 = w1') (hb1 : b1 = b1') (hw2 : w2 = w2') (hb2 : b2 = b2') :
    Spec.head a w1 b1 w2 b2 = Spec.head a' w1' b1' w2' b2' := by
  subst ha hw1 hb1 hw2 hb2; rfl

theorem out_f (c : Dev nD) :
    (W16 m ρ c (Proc.devRef .tc main_v43_0) : Net.RM 2048 512)
      = Spec.head (pooled m ρ c) (HF m c).w1 (HF m c).b1 (HF m c).w2 (HF m c).b2 :=
  ((W16_arr m ρ c 9).trans (HeadsRegion6.value_f (V15 m ρ) c)).trans
    (head_congr (entry_pooled m ρ c) ((entry_in m ρ c 1 rfl).trans (W16_main_arg21 m ρ c)) (entry_fb1Row m ρ c)
      ((entry_in m ρ c 3 rfl).trans (W16_main_arg23 m ρ c)) (entry_fb2Row m ρ c))

theorem out_b (c : Dev nD) :
    (W16 m ρ c (Proc.devRef .tc main_v43_1) : Net.RM 2048 512)
      = Spec.head (pooled m ρ c) (HB m c).w1 (HB m c).b1 (HB m c).w2 (HB m c).b2 :=
  ((W16_arr m ρ c 10).trans (HeadsRegion6.value_b (V15 m ρ) c)).trans
    (head_congr (entry_pooled m ρ c) ((entry_in m ρ c 5 rfl).trans (W16_main_arg25 m ρ c)) (entry_bb1Row m ρ c)
      ((entry_in m ρ c 7 rfl).trans (W16_main_arg27 m ρ c)) (entry_bb2Row m ρ c))

end Cert.KernelIdeal.Heads

end
-- ==== Proof.KernelValue.lean ====
-- The kernel program's two result arrays are the network of its arguments under the mean-of-squares variance.
import proofs.«414907_j52115133169838_1_alg».proof.Proof.Gen.KernelIdeal.Frame
import proofs.«414907_j52115133169838_1_alg».proof.Proof.KernelArgs
import proofs.«414907_j52115133169838_1_alg».proof.Proof.KernelLayer1
import proofs.«414907_j52115133169838_1_alg».proof.Proof.KernelLayer2
import proofs.«414907_j52115133169838_1_alg».proof.Proof.KernelHeads
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Value

open Cert.KernelIdeal.Gen
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

open Cert.KernelIdeal.Args

theorem results (c : Dev nD) :
    ((W16 m ρ c (Proc.devRef .tc main_v43_0) : Net.RM 2048 512), (W16 m ρ c (Proc.devRef .tc main_v43_1) : Net.RM 2048 512))
      = Net.net Spec.colVarSq Cert.KernelOps.ops (x m c) (ei m c) (ea m c) (batch m c) (emb m c) (P1 m c) (P2 m c) (HF m c) (HB m c) := by
  have e1 := Cert.KernelIdeal.Layer1.h1_value m ρ c
  have e2 := Cert.KernelIdeal.Layer2.h2_value m ρ c
  have ek := Cert.KernelIdeal.Layer2.h1_kept m ρ c
  have ef := Cert.KernelIdeal.Heads.out_f m ρ c
  have eb := Cert.KernelIdeal.Heads.out_b m ρ c
  unfold Net.net
  rw [ef, eb]
  unfold Cert.KernelIdeal.Heads.pooled
  rw [e2, ek, e1]

end Cert.KernelIdeal.Value

end
-- ==== Proof.ReadP.lean ====
import proofs.«414907_j52115133169838_1_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S100000x1, .i32⟩ : BufTy).Contents (Elt F))
  (x1 : (⟨S2x1600000, .i32⟩ : BufTy).Contents (Elt F))
  (x2 : (⟨S1600000x1, .f32⟩ : BufTy).Contents (Elt F))
  (x3 : (⟨S100000, .i32⟩ : BufTy).Contents (Elt F))
  (x4 : (⟨S512x128, .f32⟩ : BufTy).Contents (Elt F))
  (x5 : (⟨S128x1, .f32⟩ : BufTy).Contents (Elt F))
  (x6 : (⟨S128, .f32⟩ : BufTy).Contents (Elt F))
  (x7 : (⟨S128x128, .f32⟩ : BufTy).Contents (Elt F))
  (x8 : (⟨S128, .f32⟩ : BufTy).Contents (Elt F))
  (x9 : (⟨S128, .f32⟩ : BufTy).Contents (Elt F))
  (x10 : (⟨S128, .f32⟩ : BufTy).Contents (Elt F))
  (x11 : (⟨S128x128, .f32⟩ : BufTy).Contents (Elt F))
  (x12 : (⟨S128, .f32⟩ : BufTy).Contents (Elt F))
  (x13 : (⟨S128x1, .f32⟩ : BufTy).Contents (Elt F))
  (x14 : (⟨S128, .f32⟩ : BufTy).Contents (Elt F))
  (x15 : (⟨S128x128, .f32⟩ : BufTy).Contents (Elt F))
  (x16 : (⟨S128, .f32⟩ : BufTy).Contents (Elt F))
  (x17 : (⟨S128, .f32⟩ : BufTy).Contents (Elt F))
  (x18 : (⟨S128, .f32⟩ : BufTy).Contents (Elt F))
  (x19 : (⟨S128x128, .f32⟩ : BufTy).Contents (Elt F))
  (x20 : (⟨S128, .f32⟩ : BufTy).Contents (Elt F))
  (x21 : (⟨S128x256, .f32⟩ : BufTy).Contents (Elt F))
  (x22 : (⟨S128, .f32⟩ : BufTy).Contents (Elt F))
  (x23 : (⟨S512x128, .f32⟩ : BufTy).Contents (Elt F))
  (x24 : (⟨S512, .f32⟩ : BufTy).Contents (Elt F))
  (x25 : (⟨S128x256, .f32⟩ : BufTy).Contents (Elt F))
  (x26 : (⟨S128, .f32⟩ : BufTy).Contents (Elt F))
  (x27 : (⟨S512x128, .f32⟩ : BufTy).Contents (Elt F))
  (x28 : (⟨S512, .f32⟩ : BufTy).Contents (Elt F))

def val_main_v0 : (⟨S1x1600000, .i32⟩ : BufTy).Contents (Elt F) :=
  extractStridedSlice S1x1600000 ![0, 0] (x1) slices_S2x1600000_S1x1600000_0_0
def val_main_v1 : (⟨S1600000, .i32⟩ : BufTy).Contents (Elt F) :=
  shapeCast _ (val_main_v0 (F := F) x1) shapeCasts_S1x1600000_S1600000
def val_main_v2 : (⟨S1x1600000, .i32⟩ : BufTy).Contents (Elt F) :=
  extractStridedSlice S1x1600000 ![1, 0] (x1) slices_S2x1600000_S1x1600000_1_0
def val_main_v3 : (⟨S1600000, .i32⟩ : BufTy).Contents (Elt F) :=
  shapeCast _ (val_main_v2 (F := F) x1) shapeCasts_S1x1600000_S1600000
def val_main_v4 : (⟨S100000, .i32⟩ : BufTy).Contents (Elt F) :=
  shapeCast _ (x0) shapeCasts_S100000x1_S100000
def val_main_c : (⟨S_, .i32⟩ : BufTy).Contents (Elt F) :=
  constantI S_ 32 0#32
def val_main_v5 : (⟨S100000, .i32⟩ : BufTy).Contents (Elt F) :=
  broadcastInDim S100000 ![] bcast_S_S100000 (val_main_c (F := F))
def val_main_v6 : (⟨S100000, .i1⟩ : BufTy).Contents (Elt F) :=
  cmpi .slt (val_main_v4 (F := F) x0) (val_main_v5 (F := F))
def val_main_c_0 : (⟨S_, .i32⟩ : BufTy).Contents (Elt F) :=
  constantI S_ 32 512#32
def val_main_v7 : (⟨S100000, .i32⟩ : BufTy).Contents (Elt F) :=
  broadcastInDim S100000 ![] bcast_S_S100000 (val_main_c_0 (F := F))
def val_main_v8 : (⟨S100000, .i32⟩ : BufTy).Contents (Elt F) :=
  addi (val_main_v4 (F := F) x0) (val_main_v7 (F := F))
def val_main_v9 : (⟨S100000, .i32⟩ : BufTy).Contents (Elt F) :=
  select (val_main_v6 (F := F) x0) (val_main_v8 (F := F) x0) (val_main_v4 (F := F) x0)
def val_main_v10 : (⟨S100000x1, .i32⟩ : BufTy).Contents (Elt F) :=
  broadcastInDim S100000x1 ![0] bcast_S100000_S100000x1_0 (val_main_v9 (F := F) x0)
def val_main_v11 : (⟨S100000x128, .f32⟩ : BufTy).Contents (Elt F) :=
  Host.gather gather_S512x128_S100000x1_S100000x128_1_0_n_n_0_1_1128 (x4) (val_main_v10 (F := F) x0)
def val_main_v12 : (⟨S1x128, .f32⟩ : BufTy).Contents (Elt F) :=
  transpose S1x128 [1, 0] (x5) transposes_S128x1_S1x128_1_0
def val_main_v13 : (⟨S1600000x128, .f32⟩ : BufTy).Contents (Elt F) :=
  Host.dotGeneral dot_S1600000x1_S1x128_S1600000x128_1_0_0_1_n_n none (x2) (val_main_v12 (F := F) x5)
def val_main_v14 : (⟨S1x128, .f32⟩ : BufTy).Contents (Elt F) :=
  broadcastInDim S1x128 ![1] bcast_S128_S1x128_1 (x6)
def val_main_v15 : (⟨S1600000x128, .f32⟩ : BufTy).Contents (Elt F) :=
  broadcastInDim S1600000x128 ![0, 1] bcast_S1x128_S1600000x128_0_1 (val_main_v14 (F := F) x6)
def val_main_v16 : (⟨S1600000x128, .f32⟩ : BufTy).Contents (Elt F) :=
  addf (val_main_v13 (F := F) x2 x5) (val_main_v15 (F := F) x6)
def val_main_c_1 : (⟨S_, .i32⟩ : BufTy).Contents (Elt F) :=
  constantI S_ 32 0#32
def val_main_v17 : (⟨S1600000, .i32⟩ : BufTy).Contents (Elt F) :=
  broadcastInDim S1600000 ![] bcast_S_S1600000 (val_main_c_1 (F := F))
def val_main_v18 : (⟨S1600000, .i1⟩ : BufTy).Contents (Elt F) :=
  cmpi .slt (val_main_v1 (F := F) x1) (val_main_v17 (F := F))
def val_main_c_2 : (⟨S_, .i32⟩ : BufTy).Contents (Elt F) :=
  constantI S_ 32 100000#32
def val_main_v19 : (⟨S1600000, .i32⟩ : BufTy).Contents (Elt F) :=
  broadcastInDim S1600000 ![] bcast_S_S1600000 (val_main_c_2 (F := F))
def val_main_v20 : (⟨S1600000, .i32⟩ : BufTy).Contents (Elt F) :=
  addi (val_main_v1 (F := F) x1) (val_main_v19 (F := F))
def val_main_v21 : (⟨S1600000, .i32⟩ : BufTy).Contents (Elt F) :=
  select (val_main_v18 (F := F) x1) (val_main_v20 (F := F) x1) (val_main_v1 (F := F) x1)
def val_main_v22 : (⟨S1600000x1, .i32⟩ : BufTy).Contents (Elt F) :=
  broadcastInDim S1600000x1 ![0] bcast_S1600000_S1600000x1_0 (val_main_v21 (F := F) x1)
def val_main_v23 : (⟨S1600000x128, .f32⟩ : BufTy).Contents (Elt F) :=
  Host.gather gather_S100000x128_S1600000x1_S1600000x128_1_0_n_n_0_1_1128 (val_main_v11 (F := F) x0 x4) (val_main_v22 (F := F) x1)
def val_main_v24 : (⟨S1600000x128, .f32⟩ : BufTy).Contents (Elt F) :=
  addf (val_main_v23 (F := F) x0 x1 x4) (val_main_v16 (F := F) x2 x5 x6)
def val_main_call0_cst : (⟨S_, .f32⟩ : BufTy).Contents (Elt F) :=
  constant S_ .f32 0x00000000#32
def val_main_call0_v0 : (⟨S1600000x128, .f32⟩ : BufTy).Contents (Elt F) :=
  broadcastInDim S1600000x128 ![] bcast_S_S1600000x128 (val_main_call0_cst (F := F))
def val_main_v25 : (⟨S1600000x128, .f32⟩ : BufTy).Contents (Elt F) :=
  maximumf (val_main_v24 (F := F) x0 x1 x2 x4 x5 x6) (val_main_call0_v0 (F := F))
def val_main_cst : (⟨S_, .f32⟩ : BufTy).Contents (Elt F) :=
  constant S_ .f32 0x00000000#32
def val_main_v26 : (⟨S100000x128, .f32⟩ : BufTy).Contents (Elt F) :=
  broadcastInDim S100000x128 ![] bcast_S_S100000x128 (val_main_cst (F := F))
def val_main_v27 : (⟨S1600000x1, .i32⟩ : BufTy).Contents (Elt F) :=
  broadcastInDim S1600000x1 ![0] bcast_S1600000_S1600000x1_0 (val_main_v3 (F := F) x1)
def val_main_v28 : (⟨S100000x128, .f32⟩ : BufTy).Contents (Elt F) :=
  Host.scatterAdd scatter_S100000x128_S1600000x1_S1600000x128_1_0_0_1 (val_main_v26 (F := F)) (val_main_v27 (F := F) x1) (val_main_v25 (F := F) x0 x1 x2 x4 x5 x6)
def val_main_v29 : (⟨S100000x128, .f32⟩ : BufTy).Contents (Elt F) :=
  addf (val_main_v11 (F := F) x0 x4) (val_main_v28 (F := F) x0 x1 x2 x4 x5 x6)
def val_main_v30 : (⟨S128x128, .f32⟩ : BufTy).Contents (Elt F) :=
  transpose S128x128 [1, 0] (x7) transposes_S128x128_S128x128_1_0
def val_main_v31 : (⟨S100000x128, .f32⟩ : BufTy).Contents (Elt F) :=
  Host.dotGeneral dot_S100000x128_S128x128_S100000x128_1_0_0_1_n_n none (val_main_v29 (F := F) x0 x1 x2 x4 x5 x6) (val_main_v30 (F := F) x7)
def val_main_v32 : (⟨S1x128, .f32⟩ : BufTy).Contents (Elt F) :=
  broadcastInDim S1x128 ![1] bcast_S128_S1x128_1 (x8)
def val_main_v33 : (⟨S100000x128, .f32⟩ : BufTy).Contents (Elt F) :=
  broadcastInDim S100000x128 ![0, 1] bcast_S1x128_S100000x128_0_1 (val_main_v32 (F := F) x8)
def val_main_v34 : (⟨S100000x128, .f32⟩ : BufTy).Contents (Elt F) :=
  addf (val_main_v31 (F := F) x0 x1 x2 x4 x5 x6 x7) (val_main_v33 (F := F) x8)
def val_main_cst_3 : (⟨S_, .f32⟩ : BufTy).Contents (Elt F) :=
  constant S_ .f32 0x00000000#32
def val_main_v35 : (⟨S128, .f32⟩ : BufTy).Contents (Elt F) :=
  Host.reduceAdd (val_main_v34 (F := F) x0 x1 x2 x4 x5 x6 x7 x8) (val_main_cst_3 (F := F)) reducesTo_S100000x128_S128_d0 h_S_
def val_main_cst_4 : (⟨S_, .f32⟩ : BufTy).Contents (Elt F) :=
  constant S_ .f32 0x47C35000#32
def val_main_v36 : (⟨S128, .f32⟩ : BufTy).Contents (Elt F) :=
  broadcastInDim S128 ![] bcast_S_S128 (val_main_cst_4 (F := F))
def val_main_v37 : (⟨S128, .f32⟩ : BufTy).Contents (Elt F) :=
  Host.divf (val_main_v35 (F := F) x0 x1 x2 x4 x5 x6 x7 x8) (val_main_v36 (F := F))
def val_main_v38 : (⟨S1x128, .f32⟩ : BufTy).Contents (Elt F) :=
  broadcastInDim S1x128 ![1] bcast_S128_S1x128_1 (val_main_v37 (F := F) x0 x1 x2 x4 x5 x6 x7 x8)
def val_main_v39 : (⟨S100000x128, .f32⟩ : BufTy).Contents (Elt F) :=
  broadcastInDim S100000x128 ![0, 1] bcast_S1x128_S100000x128_0_1 (val_main_v38 (F := F) x0 x1 x2 x4 x5 x6 x7 x8)
def val_main_v40 : (⟨S100000x128, .f32⟩ : BufTy).Contents (Elt F) :=
  subf (val_main_v34 (F := F) x0 x1 x2 x4 x5 x6 x7 x8) (val_main_v39 (F := F) x0 x1 x2 x4 x5 x6 x7 x8)
def val_main_v41 : (⟨S100000x128, .f32⟩ : BufTy).Contents (Elt F) :=
  mulf (val_main_v40 (F := F) x0 x1 x2 x4 x5 x6 x7 x8) (val_main_v40 (F := F) x0 x1 x2 x4 x5 x6 x7 x8)
def val_main_cst_5 : (⟨S_, .f32⟩ : BufTy).Contents (Elt F) :=
  constant S_ .f32 0x00000000#32
def val_main_v42 : (⟨S128, .f32⟩ : BufTy).Contents (Elt F) :=
  Host.reduceAdd (val_main_v41 (F := F) x0 x1 x2 x4 x5 x6 x7 x8) (val_main_cst_5 (F := F)) reducesTo_S100000x128_S128_d0 h_S_
def val_main_cst_6 : (⟨S_, .f32⟩ : BufTy).Contents (Elt F) :=
  constant S_ .f32 0x47C35000#32
def val_main_v43 : (⟨S128, .f32⟩ : BufTy).Contents (Elt F) :=
  broadcastInDim S128 ![] bcast_S_S128 (val_main_cst_6 (F := F))
def val_main_v44 : (⟨S128, .f32⟩ : BufTy).Contents (Elt F) :=
  Host.divf (val_main_v42 (F := F) x0 x1 x2 x4 x5 x6 x7 x8) (val_main_v43 (F := F))
def val_main_v45 : (⟨S1x128, .f32⟩ : BufTy).Contents (Elt F) :=
  broadcastInDim S1x128 ![1] bcast_S128_S1x128_1 (val_main_v37 (F := F) x0 x1 x2 x4 x5 x6 x7 x8)
def val_main_v46 : (⟨S100000x128, .f32⟩ : BufTy).Contents (Elt F) :=
  broadcastInDim S100000x128 ![0, 1] bcast_S1x128_S100000x128_0_1 (val_main_v45 (F := F) x0 x1 x2 x4 x5 x6 x7 x8)
def val_main_v47 : (⟨S100000x128, .f32⟩ : BufTy).Contents (Elt F) :=
  subf (val_main_v34 (F := F) x0 x1 x2 x4 x5 x6 x7 x8) (val_main_v46 (F := F) x0 x1 x2 x4 x5 x6 x7 x8)
def val_main_v48 : (⟨S1x128, .f32⟩ : BufTy).Contents (Elt F) :=
  broadcastInDim S1x128 ![1] bcast_S128_S1x128_1 (x9)
def val_main_v49 : (⟨S100000x128, .f32⟩ : BufTy).Contents (Elt F) :=
  broadcastInDim S100000x128 ![0, 1] bcast_S1x128_S100000x128_0_1 (val_main_v48 (F := F) x9)
def val_main_v50 : (⟨S100000x128, .f32⟩ : BufTy).Contents (Elt F) :=
  mulf (val_main_v49 (F := F) x9) (val_main_v47 (F := F) x0 x1 x2 x4 x5 x6 x7 x8)
def val_main_cst_7 : (⟨S_, .f32⟩ : BufTy).Contents (Elt F) :=
  constant S_ .f32 0x3727C5AC#32
def val_main_v51 : (⟨S128, .f32⟩ : BufTy).Contents (Elt F) :=
  broadcastInDim S128 ![] bcast_S_S128 (val_main_cst_7 (F := F))
def val_main_v52 : (⟨S128, .f32⟩ : BufTy).Contents (Elt F) :=
  addf (val_main_v44 (F := F) x0 x1 x2 x4 x5 x6 x7 x8) (val_main_v51 (F := F))
def val_main_v53 : (⟨S128, .f32⟩ : BufTy).Contents (Elt F) :=
  Host.rsqrt (val_main_v52 (F := F) x0 x1 x2 x4 x5 x6 x7 x8)
def val_main_v54 : (⟨S1x128, .f32⟩ : BufTy).Contents (Elt F) :=
  broadcastInDim S1x128 ![1] bcast_S128_S1x128_1 (val_main_v53 (F := F) x0 x1 x2 x4 x5 x6 x7 x8)
def val_main_v55 : (⟨S100000x128, .f32⟩ : BufTy).Contents (Elt F) :=
  broadcastInDim S100000x128 ![0, 1] bcast_S1x128_S100000x128_0_1 (val_main_v54 (F := F) x0 x1 x2 x4 x5 x6 x7 x8)
def val_main_v56 : (⟨S100000x128, .f32⟩ : BufTy).Contents (Elt F) :=
  mulf (val_main_v50 (F := F) x0 x1 x2 x4 x5 x6 x7 x8 x9) (val_main_v55 (F := F) x0 x1 x2 x4 x5 x6 x7 x8)
def val_main_v57 : (⟨S1x128, .f32⟩ : BufTy).Contents (Elt F) :=
  broadcastInDim S1x128 ![1] bcast_S128_S1x128_1 (x10)
def val_main_v58 : (⟨S100000x128, .f32⟩ : BufTy).Contents (Elt F) :=
  broadcastInDim S100000x128 ![0, 1] bcast_S1x128_S100000x128_0_1 (val_main_v57 (F := F) x10)
def val_main_v59 : (⟨S100000x128, .f32⟩ : BufTy).Contents (Elt F) :=
  addf (val_main_v56 (F := F) x0 x1 x2 x4 x5 x6 x7 x8 x9) (val_main_v58 (F := F) x10)
def val_main_call1_cst : (⟨S_, .f32⟩ : BufTy).Contents (Elt F) :=
  constant S_ .f32 0x00000000#32
def val_main_call1_v0 : (⟨S100000x128, .f32⟩ : BufTy).Contents (Elt F) :=
  broadcastInDim S100000x128 ![] bcast_S_S100000x128 (val_main_call1_cst (F := F))
def val_main_v60 : (⟨S100000x128, .f32⟩ : BufTy).Contents (Elt F) :=
  maximumf (val_main_v59 (F := F) x0 x1 x2 x4 x5 x6 x7 x8 x9 x10) (val_main_call1_v0 (F := F))
def val_main_v61 : (⟨S128x128, .f32⟩ : BufTy).Contents (Elt F) :=
  transpose S128x128 [1, 0] (x11) transposes_S128x128_S128x128_1_0
def val_main_v62 : (⟨S100000x128, .f32⟩ : BufTy).Contents (Elt F) :=
  Host.dotGeneral dot_S100000x128_S128x128_S100000x128_1_0_0_1_n_n none (val_main_v60 (F := F) x0 x1 x2 x4 x5 x6 x7 x8 x9 x10) (val_main_v61 (F := F) x11)
def val_main_v63 : (⟨S1x128, .f32⟩ : BufTy).Contents (Elt F) :=
  broadcastInDim S1x128 ![1] bcast_S128_S1x128_1 (x12)
def val_main_v64 : (⟨S100000x128, .f32⟩ : BufTy).Contents (Elt F) :=
  broadcastInDim S100000x128 ![0, 1] bcast_S1x128_S100000x128_0_1 (val_main_v63 (F := F) x12)
def val_main_v65 : (⟨S100000x128, .f32⟩ : BufTy).Contents (Elt F) :=
  addf (val_main_v62 (F := F) x0 x1 x2 x4 x5 x6 x7 x8 x9 x10 x11) (val_main_v64 (F := F) x12)
def val_main_call2_cst : (⟨S_, .f32⟩ : BufTy).Contents (Elt F) :=
  constant S_ .f32 0x00000000#32
def val_main_call2_v0 : (⟨S100000x128, .f32⟩ : BufTy).Contents (Elt F) :=
  broadcastInDim S100000x128 ![] bcast_S_S100000x128 (val_main_call2_cst (F := F))
def val_main_v66 : (⟨S100000x128, .f32⟩ : BufTy).Contents (Elt F) :=
  maximumf (val_main_v65 (F := F) x0 x1 x2 x4 x5 x6 x7 x8 x9 x10 x11 x12) (val_main_call2_v0 (F := F))
def val_main_v67 : (⟨S1x128, .f32⟩ : BufTy).Contents (Elt F) :=
  transpose S1x128 [1, 0] (x13) transposes_S128x1_S1x128_1_0
def val_main_v68 : (⟨S1600000x128, .f32⟩ : BufTy).Contents (Elt F) :=
  Host.dotGeneral dot_S1600000x1_S1x128_S1600000x128_1_0_0_1_n_n none (x2) (val_main_v67 (F := F) x13)
def val_main_v69 : (⟨S1x128, .f32⟩ : BufTy).Contents (Elt F) :=
  broadcastInDim S1x128 ![1] bcast_S128_S1x128_1 (x14)
def val_main_v70 : (⟨S1600000x128, .f32⟩ : BufTy).Contents (Elt F) :=
  broadcastInDim S1600000x128 ![0, 1] bcast_S1x128_S1600000x128_0_1 (val_main_v69 (F := F) x14)
def val_main_v71 : (⟨S1600000x128, .f32⟩ : BufTy).Contents (Elt F) :=
  addf (val_main_v68 (F := F) x2 x13) (val_main_v70 (F := F) x14)
def val_main_c_8 : (⟨S_, .i32⟩ : BufTy).Contents (Elt F) :=
  constantI S_ 32 0#32
def val_main_v72 : (⟨S1600000, .i32⟩ : BufTy).Contents (Elt F) :=
  broadcastInDim S1600000 ![] bcast_S_S1600000 (val_main_c_8 (F := F))
def val_main_v73 : (⟨S1600000, .i1⟩ : BufTy).Contents (Elt F) :=
  cmpi .slt (val_main_v1 (F := F) x1) (val_main_v72 (F := F))
def val_main_c_9 : (⟨S_, .i32⟩ : BufTy).Contents (Elt F) :=
  constantI S_ 32 100000#32
def val_main_v74 : (⟨S1600000, .i32⟩ : BufTy).Contents (Elt F) :=
  broadcastInDim S1600000 ![] bcast_S_S1600000 (val_main_c_9 (F := F))
def val_main_v75 : (⟨S1600000, .i32⟩ : BufTy).Contents (Elt F) :=
  addi (val_main_v1 (F := F) x1) (val_main_v74 (F := F))
def val_main_v76 : (⟨S1600000, .i32⟩ : BufTy).Contents (Elt F) :=
  select (val_main_v73 (F := F) x1) (val_main_v75 (F := F) x1) (val_main_v1 (F := F) x1)
def val_main_v77 : (⟨S1600000x1, .i32⟩ : BufTy).Contents (Elt F) :=
  broadcastInDim S1600000x1 ![0] bcast_S1600000_S1600000x1_0 (val_main_v76 (F := F) x1)
def val_main_v78 : (⟨S1600000x128, .f32⟩ : BufTy).Contents (Elt F) :=
  Host.gather gather_S100000x128_S1600000x1_S1600000x128_1_0_n_n_0_1_1128 (val_main_v66 (F := F) x0 x1 x2 x4 x5 x6 x7 x8 x9 x10 x11 x12) (val_main_v77 (F := F) x1)
def val_main_v79 : (⟨S1600000x128, .f32⟩ : BufTy).Contents (Elt F) :=
  addf (val_main_v78 (F := F) x0 x1 x2 x4 x5 x6 x7 x8 x9 x10 x11 x12) (val_main_v71 (F := F) x2 x13 x14)
def val_main_call3_cst : (⟨S_, .f32⟩ : BufTy).Contents (Elt F) :=
  constant S_ .f32 0x00000000#32
def val_main_call3_v0 : (⟨S1600000x128, .f32⟩ : BufTy).Contents (Elt F) :=
  broadcastInDim S1600000x128 ![] bcast_S_S1600000x128 (val_main_call3_cst (F := F))
def val_main_v80 : (⟨S1600000x128, .f32⟩ : BufTy).Contents (Elt F) :=
  maximumf (val_main_v79 (F := F) x0 x1 x2 x4 x5 x6 x7 x8 x9 x10 x11 x12 x13 x14) (val_main_call3_v0 (F := F))
def val_main_cst_10 : (⟨S_, .f32⟩ : BufTy).Contents (Elt F) :=
  constant S_ .f32 0x00000000#32
def val_main_v81 : (⟨S100000x128, .f32⟩ : BufTy).Contents (Elt F) :=
  broadcastInDim S100000x128 ![] bcast_S_S100000x128 (val_main_cst_10 (F := F))
def val_main_v82 : (⟨S1600000x1, .i32⟩ : BufTy).Contents (Elt F) :=
  broadcastInDim S1600000x1 ![0] bcast_S1600000_S1600000x1_0 (val_main_v3 (F := F) x1)
def val_main_v83 : (⟨S100000x128, .f32⟩ : BufTy).Contents (Elt F) :=
  Host.scatterAdd scatter_S100000x128_S1600000x1_S1600000x128_1_0_0_1 (val_main_v81 (F := F)) (val_main_v82 (F := F) x1) (val_main_v80 (F := F) x0 x1 x2 x4 x5 x6 x7 x8 x9 x10 x11 x12 x13 x14)
def val_main_v84 : (⟨S100000x128, .f32⟩ : BufTy).Contents (Elt F) :=
  addf (val_main_v66 (F := F) x0 x1 x2 x4 x5 x6 x7 x8 x9 x10 x11 x12) (val_main_v83 (F := F) x0 x1 x2 x4 x5 x6 x7 x8 x9 x10 x11 x12 x13 x14)
def val_main_v85 : (⟨S128x128, .f32⟩ : BufTy).Contents (Elt F) :=
  transpose S128x128 [1, 0] (x15) transposes_S128x128_S128x128_1_0
def val_main_v86 : (⟨S100000x128, .f32⟩ : BufTy).Contents (Elt F) :=
  Host.dotGeneral dot_S100000x128_S128x128_S100000x128_1_0_0_1_n_n none (val_main_v84 (F := F) x0 x1 x2 x4 x5 x6 x7 x8 x9 x10 x11 x12 x13 x14) (val_main_v85 (F := F) x15)
def val_main_v87 : (⟨S1x128, .f32⟩ : BufTy).Contents (Elt F) :=
  broadcastInDim S1x128 ![1] bcast_S128_S1x128_1 (x16)
def val_main_v88 : (⟨S100000x128, .f32⟩ : BufTy).Contents (Elt F) :=
  broadcastInDim S100000x128 ![0, 1] bcast_S1x128_S100000x128_0_1 (val_main_v87 (F := F) x16)
def val_main_v89 : (⟨S100000x128, .f32⟩ : BufTy).Contents (Elt F) :=
  addf (val_main_v86 (F := F) x0 x1 x2 x4 x5 x6 x7 x8 x9 x10 x11 x12 x13 x14 x15) (val_main_v88 (F := F) x16)
def val_main_cst_11 : (⟨S_, .f32⟩ : BufTy).Contents (Elt F) :=
  constant S_ .f32 0x00000000#32
def val_main_v90 : (⟨S128, .f32⟩ : BufTy).Contents (Elt F) :=
  Host.reduceAdd (val_main_v89 (F := F) x0 x1 x2 x4 x5 x6 x7 x8 x9 x10 x11 x12 x13 x14 x15 x16) (val_main_cst_11 (F := F)) reducesTo_S100000x128_S128_d0 h_S_
def val_main_cst_12 : (⟨S_, .f32⟩ : BufTy).Contents (Elt F) :=
  constant S_ .f32 0x47C35000#32
def val_main_v91 : (⟨S128, .f32⟩ : BufTy).Contents (Elt F) :=
  broadcastInDim S128 ![] bcast_S_S128 (val_main_cst_12 (F := F))
def val_main_v92 : (⟨S128, .f32⟩ : BufTy).Contents (Elt F) :=
  Host.divf (val_main_v90 (F := F) x0 x1 x2 x4 x5 x6 x7 x8 x9 x10 x11 x12 x13 x14 x15 x16) (val_main_v91 (F := F))
def val_main_v93 : (⟨S1x128, .f32⟩ : BufTy).Contents (Elt F) :=
  broadcastInDim S1x128 ![1] bcast_S128_S1x128_1 (val_main_v92 (F := F) x0 x1 x2 x4 x5 x6 x7 x8 x9 x10 x11 x12 x13 x14 x15 x16)
def val_main_v94 : (⟨S100000x128, .f32⟩ : BufTy).Contents (Elt F) :=
  broadcastInDim S100000x128 ![0, 1] bcast_S1x128_S100000x128_0_1 (val_main_v93 (F := F) x0 x1 x2 x4 x5 x6 x7 x8 x9 x10 x11 x12 x13 x14 x15 x16)
def val_main_v95 : (⟨S100000x128, .f32⟩ : BufTy).Contents (Elt F) :=
  subf (val_main_v89 (F := F) x0 x1 x2 x4 x5 x6 x7 x8 x9 x10 x11 x12 x13 x14 x15 x16) (val_main_v94 (F := F) x0 x1 x2 x4 x5 x6 x7 x8 x9 x10 x11 x12 x13 x14 x15 x16)
def val_main_v96 : (⟨S100000x128, .f32⟩ : BufTy).Contents (Elt F) :=
  mulf (val_main_v95 (F := F) x0 x1 x2 x4 x5 x6 x7 x8 x9 x10 x11 x12 x13 x14 x15 x16) (val_main_v95 (F := F) x0 x1 x2 x4 x5 x6 x7 x8 x9 x10 x11 x12 x13 x14 x15 x16)
def val_main_cst_13 : (⟨S_, .f32⟩ : BufTy).Contents (Elt F) :=
  constant S_ .f32 0x00000000#32
def val_main_v97 : (⟨S128, .f32⟩ : BufTy).Contents (Elt F) :=
  Host.reduceAdd (val_main_v96 (F := F) x0 x1 x2 x4 x5 x6 x7 x8 x9 x10 x11 x12 x13 x14 x15 x16) (val_main_cst_13 (F := F)) reducesTo_S100000x128_S128_d0 h_S_
def val_main_cst_14 : (⟨S_, .f32⟩ : BufTy).Contents (Elt F) :=
  constant S_ .f32 0x47C35000#32
def val_main_v98 : (⟨S128, .f32⟩ : BufTy).Contents (Elt F) :=
  broadcastInDim S128 ![] bcast_S_S128 (val_main_cst_14 (F := F))
def val_main_v99 : (⟨S128, .f32⟩ : BufTy).Contents (Elt F) :=
  Host.divf (val_main_v97 (F := F) x0 x1 x2 x4 x5 x6 x7 x8 x9 x10 x11 x12 x13 x14 x15 x16) (val_main_v98 (F := F))
def val_main_v100 : (⟨S1x128, .f32⟩ : BufTy).Contents (Elt F) :=
  broadcastInDim S1x128 ![1] bcast_S128_S1x128_1 (val_main_v92 (F := F) x0 x1 x2 x4 x5 x6 x7 x8 x9 x10 x11 x12 x13 x14 x15 x16)
def val_main_v101 : (⟨S100000x128, .f32⟩ : BufTy).Contents (Elt F) :=
  broadcastInDim S100000x128 ![0, 1] bcast_S1x128_S100000x128_0_1 (val_main_v100 (F := F) x0 x1 x2 x4 x5 x6 x7 x8 x9 x10 x11 x12 x13 x14 x15 x16)
def val_main_v102 : (⟨S100000x128, .f32⟩ : BufTy).Contents (Elt F) :=
  subf (val_main_v89 (F := F) x0 x1 x2 x4 x5 x6 x7 x8 x9 x10 x11 x12 x13 x14 x15 x16) (val_main_v101 (F := F) x0 x1 x2 x4 x5 x6 x7 x8 x9 x10 x11 x12 x13 x14 x15 x16)
def val_main_v103 : (⟨S1x128, .f32⟩ : BufTy).Contents (Elt F) :=
  broadcastInDim S1x128 ![1] bcast_S128_S1x128_1 (x17)
def val_main_v104 : (⟨S100000x128, .f32⟩ : BufTy).Contents (Elt F) :=
  broadcastInDim S100000x128 ![0, 1] bcast_S1x128_S100000x128_0_1 (val_main_v103 (F := F) x17)
def val_main_v105 : (⟨S100000x128, .f32⟩ : BufTy).Contents (Elt F) :=
  mulf (val_main_v104 (F := F) x17) (val_main_v102 (F := F) x0 x1 x2 x4 x5 x6 x7 x8 x9 x10 x11 x12 x13 x14 x15 x16)
def val_main_cst_15 : (⟨S_, .f32⟩ : BufTy).Contents (Elt F) :=
  constant S_ .f32 0x3727C5AC#32
def val_main_v106 : (⟨S128, .f32⟩ : BufTy).Contents (Elt F) :=
  broadcastInDim S128 ![] bcast_S_S128 (val_main_cst_15 (F := F))
def val_main_v107 : (⟨S128, .f32⟩ : BufTy).Contents (Elt F) :=
  addf (val_main_v99 (F := F) x0 x1 x2 x4 x5 x6 x7 x8 x9 x10 x11 x12 x13 x14 x15 x16) (val_main_v106 (F := F))
def val_main_v108 : (⟨S128, .f32⟩ : BufTy).Contents (Elt F) :=
  Host.rsqrt (val_main_v107 (F := F) x0 x1 x2 x4 x5 x6 x7 x8 x9 x10 x11 x12 x13 x14 x15 x16)
def val_main_v109 : (⟨S1x128, .f32⟩ : BufTy).Contents (Elt F) :=
  broadcastInDim S1x128 ![1] bcast_S128_S1x128_1 (val_main_v108 (F := F) x0 x1 x2 x4 x5 x6 x7 x8 x9 x10 x11 x12 x13 x14 x15 x16)
def val_main_v110 : (⟨S100000x128, .f32⟩ : BufTy).Contents (Elt F) :=
  broadcastInDim S100000x128 ![0, 1] bcast_S1x128_S100000x128_0_1 (val_main_v109 (F := F) x0 x1 x2 x4 x5 x6 x7 x8 x9 x10 x11 x12 x13 x14 x15 x16)
def val_main_v111 : (⟨S100000x128, .f32⟩ : BufTy).Contents (Elt F) :=
  mulf (val_main_v105 (F := F) x0 x1 x2 x4 x5 x6 x7 x8 x9 x10 x11 x12 x13 x14 x15 x16 x17) (val_main_v110 (F := F) x0 x1 x2 x4 x5 x6 x7 x8 x9 x10 x11 x12 x13 x14 x15 x16)
def val_main_v112 : (⟨S1x128, .f32⟩ : BufTy).Contents (Elt F) :=
  broadcastInDim S1x128 ![1] bcast_S128_S1x128_1 (x18)
def val_main_v113 : (⟨S100000x128, .f32⟩ : BufTy).Contents (Elt F) :=
  broadcastInDim S100000x128 ![0, 1] bcast_S1x128_S100000x128_0_1 (val_main_v112 (F := F) x18)
def val_main_v114 : (⟨S100000x128, .f32⟩ : BufTy).Contents (Elt F) :=
  addf (val_main_v111 (F := F) x0 x1 x2 x4 x5 x6 x7 x8 x9 x10 x11 x12 x13 x14 x15 x16 x17) (val_main_v113 (F := F) x18)
def val_main_call4_cst : (⟨S_, .f32⟩ : BufTy).Contents (Elt F) :=
  constant S_ .f32 0x00000000#32
def val_main_call4_v0 : (⟨S100000x128, .f32⟩ : BufTy).Contents (Elt F) :=
  broadcastInDim S100000x128 ![] bcast_S_S100000x128 (val_main_call4_cst (F := F))
def val_main_v115 : (⟨S100000x128, .f32⟩ : BufTy).Contents (Elt F) :=
  maximumf (val_main_v114 (F := F) x0 x1 x2 x4 x5 x6 x7 x8 x9 x10 x11 x12 x13 x14 x15 x16 x17 x18) (val_main_call4_v0 (F := F))
def val_main_v116 : (⟨S128x128, .f32⟩ : BufTy).Contents (Elt F) :=
  transpose S128x128 [1, 0] (x19) transposes_S128x128_S128x128_1_0
def val_main_v117 : (⟨S100000x128, .f32⟩ : BufTy).Contents (Elt F) :=
  Host.dotGeneral dot_S100000x128_S128x128_S100000x128_1_0_0_1_n_n none (val_main_v115 (F := F) x0 x1 x2 x4 x5 x6 x7 x8 x9 x10 x11 x12 x13 x14 x15 x16 x17 x18) (val_main_v116 (F := F) x19)
def val_main_v118 : (⟨S1x128, .f32⟩ : BufTy).Contents (Elt F) :=
  broadcastInDim S1x128 ![1] bcast_S128_S1x128_1 (x20)
def val_main_v119 : (⟨S100000x128, .f32⟩ : BufTy).Contents (Elt F) :=
  broadcastInDim S100000x128 ![0, 1] bcast_S1x128_S100000x128_0_1 (val_main_v118 (F := F) x20)
def val_main_v120 : (⟨S100000x128, .f32⟩ : BufTy).Contents (Elt F) :=
  addf (val_main_v117 (F := F) x0 x1 x2 x4 x5 x6 x7 x8 x9 x10 x11 x12 x13 x14 x15 x16 x17 x18 x19) (val_main_v119 (F := F) x20)
def val_main_call5_cst : (⟨S_, .f32⟩ : BufTy).Contents (Elt F) :=
  constant S_ .f32 0x00000000#32
def val_main_call5_v0 : (⟨S100000x128, .f32⟩ : BufTy).Contents (Elt F) :=
  broadcastInDim S100000x128 ![] bcast_S_S100000x128 (val_main_call5_cst (F := F))
def val_main_v121 : (⟨S100000x128, .f32⟩ : BufTy).Contents (Elt F) :=
  maximumf (val_main_v120 (F := F) x0 x1 x2 x4 x5 x6 x7 x8 x9 x10 x11 x12 x13 x14 x15 x16 x17 x18 x19 x20) (val_main_call5_v0 (F := F))
def val_main_cst_16 : (⟨S_, .f32⟩ : BufTy).Contents (Elt F) :=
  constant S_ .f32 0x00000000#32
def val_main_v122 : (⟨S2048x128, .f32⟩ : BufTy).Contents (Elt F) :=
  broadcastInDim S2048x128 ![] bcast_S_S2048x128 (val_main_cst_16 (F := F))
def val_main_v123 : (⟨S100000x1, .i32⟩ : BufTy).Contents (Elt F) :=
  broadcastInDim S100000x1 ![0] bcast_S100000_S100000x1_0 (x3)
def val_main_v124 : (⟨S2048x128, .f32⟩ : BufTy).Contents (Elt F) :=
  Host.scatterAdd scatter_S2048x128_S100000x1_S100000x128_1_0_0_1 (val_main_v122 (F := F)) (val_main_v123 (F := F) x3) (val_main_v66 (F := F) x0 x1 x2 x4 x5 x6 x7 x8 x9 x10 x11 x12)
def val_main_cst_17 : (⟨S_, .f32⟩ : BufTy).Contents (Elt F) :=
  constant S_ .f32 0x00000000#32
def val_main_v125 : (⟨S2048x128, .f32⟩ : BufTy).Contents (Elt F) :=
  broadcastInDim S2048x128 ![] bcast_S_S2048x128 (val_main_cst_17 (F := F))
def val_main_v126 : (⟨S100000x1, .i32⟩ : BufTy).Contents (Elt F) :=
  broadcastInDim S100000x1 ![0] bcast_S100000_S100000x1_0 (x3)
def val_main_v127 : (⟨S2048x128, .f32⟩ : BufTy).Contents (Elt F) :=
  Host.scatterAdd scatter_S2048x128_S100000x1_S100000x128_1_0_0_1 (val_main_v125 (F := F)) (val_main_v126 (F := F) x3) (val_main_v121 (F := F) x0 x1 x2 x4 x5 x6 x7 x8 x9 x10 x11 x12 x13 x14 x15 x16 x17 x18 x19 x20)
def val_main_v128 : (⟨S2048x256, .f32⟩ : BufTy).Contents (Elt F) :=
  concatenate S2048x256 1 [⟨S2048x128, (val_main_v124 (F := F) x0 x1 x2 x3 x4 x5 x6 x7 x8 x9 x10 x11 x12)⟩, ⟨S2048x128, (val_main_v127 (F := F) x0 x1 x2 x3 x4 x5 x6 x7 x8 x9 x10 x11 x12 x13 x14 x15 x16 x17 x18 x19 x20)⟩] concatenates_S2048x128_S2048x128_S2048x256_d1
def val_main_v129 : (⟨S256x128, .f32⟩ : BufTy).Contents (Elt F) :=
  transpose S256x128 [1, 0] (x21) transposes_S128x256_S256x128_1_0
def val_main_v130 : (⟨S2048x128, .f32⟩ : BufTy).Contents (Elt F) :=
  Host.dotGeneral dot_S2048x256_S256x128_S2048x128_1_0_0_1_n_n none (val_main_v128 (F := F) x0 x1 x2 x3 x4 x5 x6 x7 x8 x9 x10 x11 x12 x13 x14 x15 x16 x17 x18 x19 x20) (val_main_v129 (F := F) x21)
def val_main_v131 : (⟨S1x128, .f32⟩ : BufTy).Contents (Elt F) :=
  broadcastInDim S1x128 ![1] bcast_S128_S1x128_1 (x22)
def val_main_v132 : (⟨S2048x128, .f32⟩ : BufTy).Contents (Elt F) :=
  broadcastInDim S2048x128 ![0, 1] bcast_S1x128_S2048x128_0_1 (val_main_v131 (F := F) x22)
def val_main_v133 : (⟨S2048x128, .f32⟩ : BufTy).Contents (Elt F) :=
  addf (val_main_v130 (F := F) x0 x1 x2 x3 x4 x5 x6 x7 x8 x9 x10 x11 x12 x13 x14 x15 x16 x17 x18 x19 x20 x21) (val_main_v132 (F := F) x22)
def val_main_call6_cst : (⟨S_, .f32⟩ : BufTy).Contents (Elt F) :=
  constant S_ .f32 0x00000000#32
def val_main_call6_v0 : (⟨S2048x128, .f32⟩ : BufTy).Contents (Elt F) :=
  broadcastInDim S2048x128 ![] bcast_S_S2048x128 (val_main_call6_cst (F := F))
def val_main_v134 : (⟨S2048x128, .f32⟩ : BufTy).Contents (Elt F) :=
  maximumf (val_main_v133 (F := F) x0 x1 x2 x3 x4 x5 x6 x7 x8 x9 x10 x11 x12 x13 x14 x15 x16 x17 x18 x19 x20 x21 x22) (val_main_call6_v0 (F := F))
def val_main_v135 : (⟨S128x512, .f32⟩ : BufTy).Contents (Elt F) :=
  transpose S128x512 [1, 0] (x23) transposes_S512x128_S128x512_1_0
def val_main_v136 : (⟨S2048x512, .f32⟩ : BufTy).Contents (Elt F) :=
  Host.dotGeneral dot_S2048x128_S128x512_S2048x512_1_0_0_1_n_n none (val_main_v134 (F := F) x0 x1 x2 x3 x4 x5 x6 x7 x8 x9 x10 x11 x12 x13 x14 x15 x16 x17 x18 x19 x20 x21 x22) (val_main_v135 (F := F) x23)
def val_main_v137 : (⟨S1x512, .f32⟩ : BufTy).Contents (Elt F) :=
  broadcastInDim S1x512 ![1] bcast_S512_S1x512_1 (x24)
def val_main_v138 : (⟨S2048x512, .f32⟩ : BufTy).Contents (Elt F) :=
  broadcastInDim S2048x512 ![0, 1] bcast_S1x512_S2048x512_0_1 (val_main_v137 (F := F) x24)
def val_main_v139 : (⟨S2048x512, .f32⟩ : BufTy).Contents (Elt F) :=
  addf (val_main_v136 (F := F) x0 x1 x2 x3 x4 x5 x6 x7 x8 x9 x10 x11 x12 x13 x14 x15 x16 x17 x18 x19 x20 x21 x22 x23) (val_main_v138 (F := F) x24)
def val_main_v140 : (⟨S256x128, .f32⟩ : BufTy).Contents (Elt F) :=
  transpose S256x128 [1, 0] (x25) transposes_S128x256_S256x128_1_0
def val_main_v141 : (⟨S2048x128, .f32⟩ : BufTy).Contents (Elt F) :=
  Host.dotGeneral dot_S2048x256_S256x128_S2048x128_1_0_0_1_n_n none (val_main_v128 (F := F) x0 x1 x2 x3 x4 x5 x6 x7 x8 x9 x10 x11 x12 x13 x14 x15 x16 x17 x18 x19 x20) (val_main_v140 (F := F) x25)
def val_main_v142 : (⟨S1x128, .f32⟩ : BufTy).Contents (Elt F) :=
  broadcastInDim S1x128 ![1] bcast_S128_S1x128_1 (x26)
def val_main_v143 : (⟨S2048x128, .f32⟩ : BufTy).Contents (Elt F) :=
  broadcastInDim S2048x128 ![0, 1] bcast_S1x128_S2048x128_0_1 (val_main_v142 (F := F) x26)
def val_main_v144 : (⟨S2048x128, .f32⟩ : BufTy).Contents (Elt F) :=
  addf (val_main_v141 (F := F) x0 x1 x2 x3 x4 x5 x6 x7 x8 x9 x10 x11 x12 x13 x14 x15 x16 x17 x18 x19 x20 x25) (val_main_v143 (F := F) x26)
def val_main_call7_cst : (⟨S_, .f32⟩ : BufTy).Contents (Elt F) :=
  constant S_ .f32 0x00000000#32
def val_main_call7_v0 : (⟨S2048x128, .f32⟩ : BufTy).Contents (Elt F) :=
  broadcastInDim S2048x128 ![] bcast_S_S2048x128 (val_main_call7_cst (F := F))
def val_main_v145 : (⟨S2048x128, .f32⟩ : BufTy).Contents (Elt F) :=
  maximumf (val_main_v144 (F := F) x0 x1 x2 x3 x4 x5 x6 x7 x8 x9 x10 x11 x12 x13 x14 x15 x16 x17 x18 x19 x20 x25 x26) (val_main_call7_v0 (F := F))
def val_main_v146 : (⟨S128x512, .f32⟩ : BufTy).Contents (Elt F) :=
  transpose S128x512 [1, 0] (x27) transposes_S512x128_S128x512_1_0
def val_main_v147 : (⟨S2048x512, .f32⟩ : BufTy).Contents (Elt F) :=
  Host.dotGeneral dot_S2048x128_S128x512_S2048x512_1_0_0_1_n_n none (val_main_v145 (F := F) x0 x1 x2 x3 x4 x5 x6 x7 x8 x9 x10 x11 x12 x13 x14 x15 x16 x17 x18 x19 x20 x25 x26) (val_main_v146 (F := F) x27)
def val_main_v148 : (⟨S1x512, .f32⟩ : BufTy).Contents (Elt F) :=
  broadcastInDim S1x512 ![1] bcast_S512_S1x512_1 (x28)
def val_main_v149 : (⟨S2048x512, .f32⟩ : BufTy).Contents (Elt F) :=
  broadcastInDim S2048x512 ![0, 1] bcast_S1x512_S2048x512_0_1 (val_main_v148 (F := F) x28)
def val_main_v150 : (⟨S2048x512, .f32⟩ : BufTy).Contents (Elt F) :=
  addf (val_main_v147 (F := F) x0 x1 x2 x3 x4 x5 x6 x7 x8 x9 x10 x11 x12 x13 x14 x15 x16 x17 x18 x19 x20 x25 x26 x27) (val_main_v149 (F := F) x28)

end Cert.ReferenceIdeal.ReadP

end
-- ==== Proof.RefRun.lean ====
import proofs.«414907_j52115133169838_1_alg».proof.Proof.Gen.ReferenceIdeal
import proofs.«414907_j52115133169838_1_alg».proof.Proof.ReadP
import Idealize.ShloMosaic.Lib.StableHlo.Run
import Idealize.ShloMosaic.Lib.Pipeline.Frame
import Idealize.ShloMosaic.Lib.Pipeline.Regions

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

-- The program's 187 operations in six consecutive pieces, cut where few buffers are still to be read.
abbrev ops1 : List (HloOp τ sig (Elt F)) :=
  [
    unary main_arg1 main_v0 (extractStridedSlice S1x1600000 ![0, 0] · slices_S2x1600000_S1x1600000_0_0),
    reshape main_v0 main_v1 rfl shapeCasts_S1x1600000_S1600000,
    unary main_arg1 main_v2 (extractStridedSlice S1x1600000 ![1, 0] · slices_S2x1600000_S1x1600000_1_0),
    reshape main_v2 main_v3 rfl shapeCasts_S1x1600000_S1600000,
    reshape main_arg0 main_v4 rfl shapeCasts_S100000x1_S100000,
    nullary main_c (constantI S_ 32 0#32),
    unary main_c main_v5 (broadcastInDim S100000 ![] bcast_S_S100000),
    binary main_v4 main_v5 main_v6 (cmpi .slt),
    nullary main_c_0 (constantI S_ 32 512#32),
    unary main_c_0 main_v7 (broadcastInDim S100000 ![] bcast_S_S100000),
    binary main_v4 main_v7 main_v8 addi,
    ternary main_v6 main_v8 main_v4 main_v9 select,
    unary main_v9 main_v10 (broadcastInDim S100000x1 ![0] bcast_S100000_S100000x1_0),
    binary main_arg4 main_v10 main_v11 (fun x i => Host.gather gather_S512x128_S100000x1_S100000x128_1_0_n_n_0_1_1128 x i),
    unary main_arg5 main_v12 (transpose S1x128 [1, 0] · transposes_S128x1_S1x128_1_0),
    binary main_arg2 main_v12 main_v13 (fun l r => Host.dotGeneral dot_S1600000x1_S1x128_S1600000x128_1_0_0_1_n_n none l r),
    unary main_arg6 main_v14 (broadcastInDim S1x128 ![1] bcast_S128_S1x128_1),
    unary main_v14 main_v15 (broadcastInDim S1600000x128 ![0, 1] bcast_S1x128_S1600000x128_0_1),
    binary main_v13 main_v15 main_v16 addf,
    nullary main_c_1 (constantI S_ 32 0#32),
    unary main_c_1 main_v17 (broadcastInDim S1600000 ![] bcast_S_S1600000),
    binary main_v1 main_v17 main_v18 (cmpi .slt),
    nullary main_c_2 (constantI S_ 32 100000#32),
    unary main_c_2 main_v19 (broadcastInDim S1600000 ![] bcast_S_S1600000),
    binary main_v1 main_v19 main_v20 addi,
    ternary main_v18 main_v20 main_v1 main_v21 select,
    unary main_v21 main_v22 (broadcastInDim S1600000x1 ![0] bcast_S1600000_S1600000x1_0),
    binary main_v11 main_v22 main_v23 (fun x i => Host.gather gather_S100000x128_S1600000x1_S1600000x128_1_0_n_n_0_1_1128 x i),
    binary main_v23 main_v16 main_v24 addf,
    nullary main_call0_cst (constant S_ .f32 0x00000000#32),
    unary main_call0_cst main_call0_v0 (broadcastInDim S1600000x128 ![] bcast_S_S1600000x128),
    binary main_v24 main_call0_v0 main_v25 maximumf,
    nullary main_cst (constant S_ .f32 0x00000000#32),
    unary main_cst main_v26 (broadcastInDim S100000x128 ![] bcast_S_S100000x128),
    unary main_v3 main_v27 (broadcastInDim S1600000x1 ![0] bcast_S1600000_S1600000x1_0),
    ternary main_v26 main_v27 main_v25 main_v28 (fun x i u => Host.scatterAdd scatter_S100000x128_S1600000x1_S1600000x128_1_0_0_1 x i u),
    binary main_v11 main_v28 main_v29 addf,
    unary main_arg7 main_v30 (transpose S128x128 [1, 0] · transposes_S128x128_S128x128_1_0),
    binary main_v29 main_v30 main_v31 (fun l r => Host.dotGeneral dot_S100000x128_S128x128_S100000x128_1_0_0_1_n_n none l r),
    unary main_arg8 main_v32 (broadcastInDim S1x128 ![1] bcast_S128_S1x128_1),
    unary main_v32 main_v33 (broadcastInDim S100000x128 ![0, 1] bcast_S1x128_S100000x128_0_1),
    binary main_v31 main_v33 main_v34 addf ]

abbrev ops2 : List (HloOp τ sig (Elt F)) :=
  [
    nullary main_cst_3 (constant S_ .f32 0x00000000#32),
    binary main_v34 main_cst_3 main_v35 (fun x v => Host.reduceAdd x v reducesTo_S100000x128_S128_d0 h_S_),
    nullary main_cst_4 (constant S_ .f32 0x47C35000#32),
    unary main_cst_4 main_v36 (broadcastInDim S128 ![] bcast_S_S128),
    binary main_v35 main_v36 main_v37 Host.divf,
    unary main_v37 main_v38 (broadcastInDim S1x128 ![1] bcast_S128_S1x128_1),
    unary main_v38 main_v39 (broadcastInDim S100000x128 ![0, 1] bcast_S1x128_S100000x128_0_1),
    binary main_v34 main_v39 main_v40 subf,
    binary main_v40 main_v40 main_v41 mulf,
    nullary main_cst_5 (constant S_ .f32 0x00000000#32),
    binary main_v41 main_cst_5 main_v42 (fun x v => Host.reduceAdd x v reducesTo_S100000x128_S128_d0 h_S_),
    nullary main_cst_6 (constant S_ .f32 0x47C35000#32),
    unary main_cst_6 main_v43 (broadcastInDim S128 ![] bcast_S_S128),
    binary main_v42 main_v43 main_v44 Host.divf,
    unary main_v37 main_v45 (broadcastInDim S1x128 ![1] bcast_S128_S1x128_1),
    unary main_v45 main_v46 (broadcastInDim S100000x128 ![0, 1] bcast_S1x128_S100000x128_0_1),
    binary main_v34 main_v46 main_v47 subf,
    unary main_arg9 main_v48 (broadcastInDim S1x128 ![1] bcast_S128_S1x128_1),
    unary main_v48 main_v49 (broadcastInDim S100000x128 ![0, 1] bcast_S1x128_S100000x128_0_1),
    binary main_v49 main_v47 main_v50 mulf ]

abbrev ops3 : List (HloOp τ sig (Elt F)) :=
  [
    nullary main_cst_7 (constant S_ .f32 0x3727C5AC#32),
    unary main_cst_7 main_v51 (broadcastInDim S128 ![] bcast_S_S128),
    binary main_v44 main_v51 main_v52 addf,
    unary main_v52 main_v53 Host.rsqrt,
    unary main_v53 main_v54 (broadcastInDim S1x128 ![1] bcast_S128_S1x128_1),
    unary main_v54 main_v55 (broadcastInDim S100000x128 ![0, 1] bcast_S1x128_S100000x128_0_1),
    binary main_v50 main_v55 main_v56 mulf,
    unary main_arg10 main_v57 (broadcastInDim S1x128 ![1] bcast_S128_S1x128_1),
    unary main_v57 main_v58 (broadcastInDim S100000x128 ![0, 1] bcast_S1x128_S100000x128_0_1),
    binary main_v56 main_v58 main_v59 addf,
    nullary main_call1_cst (constant S_ .f32 0x00000000#32),
    unary main_call1_cst main_call1_v0 (broadcastInDim S100000x128 ![] bcast_S_S100000x128),
    binary main_v59 main_call1_v0 main_v60 maximumf,
    unary main_arg11 main_v61 (transpose S128x128 [1, 0] · transposes_S128x128_S128x128_1_0),
    binary main_v60 main_v61 main_v62 (fun l r => Host.dotGeneral dot_S100000x128_S128x128_S100000x128_1_0_0_1_n_n none l r),
    unary main_arg12 main_v63 (broadcastInDim S1x128 ![1] bcast_S128_S1x128_1),
    unary main_v63 main_v64 (broadcastInDim S100000x128 ![0, 1] bcast_S1x128_S100000x128_0_1),
    binary main_v62 main_v64 main_v65 addf,
    nullary main_call2_cst (constant S_ .f32 0x00000000#32),
    unary main_call2_cst main_call2_v0 (broadcastInDim S100000x128 ![] bcast_S_S100000x128),
    binary main_v65 main_call2_v0 main_v66 maximumf ]

abbrev ops4 : List (HloOp τ sig (Elt F)) :=
  [
    unary main_arg13 main_v67 (transpose S1x128 [1, 0] · transposes_S128x1_S1x128_1_0),
    binary main_arg2 main_v67 main_v68 (fun l r => Host.dotGeneral dot_S1600000x1_S1x128_S1600000x128_1_0_0_1_n_n none l r),
    unary main_arg14 main_v69 (broadcastInDim S1x128 ![1] bcast_S128_S1x128_1),
    unary main_v69 main_v70 (broadcastInDim S1600000x128 ![0, 1] bcast_S1x128_S1600000x128_0_1),
    binary main_v68 main_v70 main_v71 addf,
    nullary main_c_8 (constantI S_ 32 0#32),
    unary main_c_8 main_v72 (broadcastInDim S1600000 ![] bcast_S_S1600000),
    binary main_v1 main_v72 main_v73 (cmpi .slt),
    nullary main_c_9 (constantI S_ 32 100000#32),
    unary main_c_9 main_v74 (broadcastInDim S1600000 ![] bcast_S_S1600000),
    binary main_v1 main_v74 main_v75 addi,
    ternary main_v73 main_v75 main_v1 main_v76 select,
    unary main_v76 main_v77 (broadcastInDim S1600000x1 ![0] bcast_S1600000_S1600000x1_0),
    binary main_v66 main_v77 main_v78 (fun x i => Host.gather gather_S100000x128_S1600000x1_S1600000x128_1_0_n_n_0_1_1128 x i),
    binary main_v78 main_v71 main_v79 addf,
    nullary main_call3_cst (constant S_ .f32 0x00000000#32),
    unary main_call3_cst main_call3_v0 (broadcastInDim S1600000x128 ![] bcast_S_S1600000x128),
    binary main_v79 main_call3_v0 main_v80 maximumf,
    nullary main_cst_10 (constant S_ .f32 0x00000000#32),
    unary main_cst_10 main_v81 (broadcastInDim S100000x128 ![] bcast_S_S100000x128),
    unary main_v3 main_v82 (broadcastInDim S1600000x1 ![0] bcast_S1600000_S1600000x1_0),
    ternary main_v81 main_v82 main_v80 main_v83 (fun x i u => Host.scatterAdd scatter_S100000x128_S1600000x1_S1600000x128_1_0_0_1 x i u),
    binary main_v66 main_v83 main_v84 addf,
    unary main_arg15 main_v85 (transpose S128x128 [1, 0] · transposes_S128x128_S128x128_1_0),
    binary main_v84 main_v85 main_v86 (fun l r => Host.dotGeneral dot_S100000x128_S128x128_S100000x128_1_0_0_1_n_n none l r),
    unary main_arg16 main_v87 (broadcastInDim S1x128 ![1] bcast_S128_S1x128_1),
    unary main_v87 main_v88 (broadcastInDim S100000x128 ![0, 1] bcast_S1x128_S100000x128_0_1),
    binary main_v86 main_v88 main_v89 addf,
    nullary main_cst_11 (constant S_ .f32 0x00000000#32),
    binary main_v89 main_cst_11 main_v90 (fun x v => Host.reduceAdd x v reducesTo_S100000x128_S128_d0 h_S_),
    nullary main_cst_12 (constant S_ .f32 0x47C35000#32),
    unary main_cst_12 main_v91 (broadcastInDim S128 ![] bcast_S_S128),
    binary main_v90 main_v91 main_v92 Host.divf,
    unary main_v92 main_v93 (broadcastInDim S1x128 ![1] bcast_S128_S1x128_1),
    unary main_v93 main_v94 (broadcastInDim S100000x128 ![0, 1] bcast_S1x128_S100000x128_0_1),
    binary main_v89 main_v94 main_v95 subf,
    binary main_v95 main_v95 main_v96 mulf,
    nullary main_cst_13 (constant S_ .f32 0x00000000#32),
    binary main_v96 main_cst_13 main_v97 (fun x v => Host.reduceAdd x v reducesTo_S100000x128_S128_d0 h_S_),
    nullary main_cst_14 (constant S_ .f32 0x47C35000#32),
    unary main_cst_14 main_v98 (broadcastInDim S128 ![] bcast_S_S128),
    binary main_v97 main_v98 main_v99 Host.divf,
    unary main_v92 main_v100 (broadcastInDim S1x128 ![1] bcast_S128_S1x128_1),
    unary main_v100 main_v101 (broadcastInDim S100000x128 ![0, 1] bcast_S1x128_S100000x128_0_1),
    binary main_v89 main_v101 main_v102 subf ]

abbrev ops5 : List (HloOp τ sig (Elt F)) :=
  [
    unary main_arg17 main_v103 (broadcastInDim S1x128 ![1] bcast_S128_S1x128_1),
    unary main_v103 main_v104 (broadcastInDim S100000x128 ![0, 1] bcast_S1x128_S100000x128_0_1),
    binary main_v104 main_v102 main_v105 mulf,
    nullary main_cst_15 (constant S_ .f32 0x3727C5AC#32),
    unary main_cst_15 main_v106 (broadcastInDim S128 ![] bcast_S_S128),
    binary main_v99 main_v106 main_v107 addf,
    unary main_v107 main_v108 Host.rsqrt,
    unary main_v108 main_v109 (broadcastInDim S1x128 ![1] bcast_S128_S1x128_1),
    unary main_v109 main_v110 (broadcastInDim S100000x128 ![0, 1] bcast_S1x128_S100000x128_0_1),
    binary main_v105 main_v110 main_v111 mulf,
    unary main_arg18 main_v112 (broadcastInDim S1x128 ![1] bcast_S128_S1x128_1),
    unary main_v112 main_v113 (broadcastInDim S100000x128 ![0, 1] bcast_S1x128_S100000x128_0_1),
    binary main_v111 main_v113 main_v114 addf,
    nullary main_call4_cst (constant S_ .f32 0x00000000#32),
    unary main_call4_cst main_call4_v0 (broadcastInDim S100000x128 ![] bcast_S_S100000x128),
    binary main_v114 main_call4_v0 main_v115 maximumf,
    unary main_arg19 main_v116 (transpose S128x128 [1, 0] · transposes_S128x128_S128x128_1_0),
    binary main_v115 main_v116 main_v117 (fun l r => Host.dotGeneral dot_S100000x128_S128x128_S100000x128_1_0_0_1_n_n none l r),
    unary main_arg20 main_v118 (broadcastInDim S1x128 ![1] bcast_S128_S1x128_1),
    unary main_v118 main_v119 (broadcastInDim S100000x128 ![0, 1] bcast_S1x128_S100000x128_0_1),
    binary main_v117 main_v119 main_v120 addf,
    nullary main_call5_cst (constant S_ .f32 0x00000000#32),
    unary main_call5_cst main_call5_v0 (broadcastInDim S100000x128 ![] bcast_S_S100000x128),
    binary main_v120 main_call5_v0 main_v121 maximumf,
    nullary main_cst_16 (constant S_ .f32 0x00000000#32),
    unary main_cst_16 main_v122 (broadcastInDim S2048x128 ![] bcast_S_S2048x128),
    unary main_arg3 main_v123 (broadcastInDim S100000x1 ![0] bcast_S100000_S100000x1_0),
    ternary main_v122 main_v123 main_v66 main_v124 (fun x i u => Host.scatterAdd scatter_S2048x128_S100000x1_S100000x128_1_0_0_1 x i u),
    nullary main_cst_17 (constant S_ .f32 0x00000000#32),
    unary main_cst_17 main_v125 (broadcastInDim S2048x128 ![] bcast_S_S2048x128),
    unary main_arg3 main_v126 (broadcastInDim S100000x1 ![0] bcast_S100000_S100000x1_0),
    ternary main_v125 main_v126 main_v121 main_v127 (fun x i u => Host.scatterAdd scatter_S2048x128_S100000x1_S100000x128_1_0_0_1 x i u) ]

abbrev ops6 : List (HloOp τ sig (Elt F)) :=
  [
    binary main_v124 main_v127 main_v128 (fun a b => concatenate S2048x256 1 [⟨S2048x128, a⟩, ⟨S2048x128, b⟩] concatenates_S2048x128_S2048x128_S2048x256_d1),
    unary main_arg21 main_v129 (transpose S256x128 [1, 0] · transposes_S128x256_S256x128_1_0),
    binary main_v128 main_v129 main_v130 (fun l r => Host.dotGeneral dot_S2048x256_S256x128_S2048x128_1_0_0_1_n_n none l r),
    unary main_arg22 main_v131 (broadcastInDim S1x128 ![1] bcast_S128_S1x128_1),
    unary main_v131 main_v132 (broadcastInDim S2048x128 ![0, 1] bcast_S1x128_S2048x128_0_1),
    binary main_v130 main_v132 main_v133 addf,
    nullary main_call6_cst (constant S_ .f32 0x00000000#32),
    unary main_call6_cst main_call6_v0 (broadcastInDim S2048x128 ![] bcast_S_S2048x128),
    binary main_v133 main_call6_v0 main_v134 maximumf,
    unary main_arg23 main_v135 (transpose S128x512 [1, 0] · transposes_S512x128_S128x512_1_0),
    binary main_v134 main_v135 main_v136 (fun l r => Host.dotGeneral dot_S2048x128_S128x512_S2048x512_1_0_0_1_n_n none l r),
    unary main_arg24 main_v137 (broadcastInDim S1x512 ![1] bcast_S512_S1x512_1),
    unary main_v137 main_v138 (broadcastInDim S2048x512 ![0, 1] bcast_S1x512_S2048x512_0_1),
    binary main_v136 main_v138 main_v139 addf,
    unary main_arg25 main_v140 (transpose S256x128 [1, 0] · transposes_S128x256_S256x128_1_0),
    binary main_v128 main_v140 main_v141 (fun l r => Host.dotGeneral dot_S2048x256_S256x128_S2048x128_1_0_0_1_n_n none l r),
    unary main_arg26 main_v142 (broadcastInDim S1x128 ![1] bcast_S128_S1x128_1),
    unary main_v142 main_v143 (broadcastInDim S2048x128 ![0, 1] bcast_S1x128_S2048x128_0_1),
    binary main_v141 main_v143 main_v144 addf,
    nullary main_call7_cst (constant S_ .f32 0x00000000#32),
    unary main_call7_cst main_call7_v0 (broadcastInDim S2048x128 ![] bcast_S_S2048x128),
    binary main_v144 main_call7_v0 main_v145 maximumf,
    unary main_arg27 main_v146 (transpose S128x512 [1, 0] · transposes_S512x128_S128x512_1_0),
    binary main_v145 main_v146 main_v147 (fun l r => Host.dotGeneral dot_S2048x128_S128x512_S2048x512_1_0_0_1_n_n none l r),
    unary main_arg28 main_v148 (broadcastInDim S1x512 ![1] bcast_S512_S1x512_1),
    unary main_v148 main_v149 (broadcastInDim S2048x512 ![0, 1] bcast_S1x512_S2048x512_0_1),
    binary main_v147 main_v149 main_v150 addf ]

abbrev win0 : List (HloOp τ sig (Elt F)) := ops1 ++ ops2
abbrev win1 : List (HloOp τ sig (Elt F)) := ops3 ++ ops4
abbrev win2 : List (HloOp τ sig (Elt F)) := ops5 ++ ops6
abbrev opsAll : List (HloOp τ sig (Elt F)) := win0 ++ (win1 ++ win2)

-- What the run asks of an operation, and the one buffer it writes, numbered `n` or later.
structure Good (n : Nat) (op : HloOp τ sig (Elt F)) : Prop where
  sub : op.bufs ⊆ tcRefs τ sig
  fresh : op.fresh = ∅
  writes : ∃ y : Ref sig .tc, n ≤ y.idx.val ∧ op.writes = {Proc.devRef .tc y}

local macro "good" : tactic => `(tactic| ((repeat' apply And.intro) <;>
  exact ⟨by show (_ : Finset (DevRef τ sig)) ⊆ _; simp only [nullary_bufs_sub, unary_bufs_sub, reshape_bufs_sub, binary_bufs_sub, ternary_bufs_sub], rfl, _, by decide, rfl⟩))

theorem good1 : (ops1 (F := F)).Forall (Good 29) := by good
theorem good2 : (ops2 (F := F)).Forall (Good 71) := by good
theorem good3 : (ops3 (F := F)).Forall (Good 91) := by good
theorem good4 : (ops4 (F := F)).Forall (Good 112) := by good
theorem good5 : (ops5 (F := F)).Forall (Good 157) := by good
theorem good6 : (ops6 (F := F)).Forall (Good 189) := by good

-- What holds of every operation of every piece holds of every operation of the program.
theorem all {p : HloOp τ sig (Elt F) → Prop} (h : ∀ n op, Good n op → p op) : (opsAll (F := F)).Forall p :=
  List.forall_append.2 ⟨List.forall_append.2 ⟨good1.imp (h _), good2.imp (h _)⟩, List.forall_append.2
    ⟨List.forall_append.2 ⟨good3.imp (h _), good4.imp (h _)⟩,
      List.forall_append.2 ⟨good5.imp (h _), good6.imp (h _)⟩⟩⟩

-- Operations that write only buffers numbered `n` or later keep every buffer numbered below `n`.
theorem keep {n : Nat} {ops : List (HloOp τ sig (Elt F))} (h : ops.Forall (Good n)) {r : Ref sig .tc} (hr : r.idx.val < n)
    (V : Valuation τ sig (Elt F)) : after ops V (Proc.devRef .tc r) = V (Proc.devRef .tc r) :=
  after_of_forall_not_mem ops V fun op hop hb => by
    obtain ⟨y, hy, hw⟩ := (List.forall_iff_forall_mem.mp h op hop).writes
    rw [hw, Finset.mem_singleton] at hb
    cases Proc.devRef_injective _ hb
    exact Nat.not_lt.mpr hy hr

theorem main_part0_eq (c : Dev nD) : main_part0 (F := F) c = seq win0 := by chain_rfl
theorem main_part1_eq (c : Dev nD) : main_part1 (F := F) c = seq win1 := by chain_rfl
theorem main_part2_eq (c : Dev nD) : main_part2 (F := F) c = seq win2 := by chain_rfl

-- The program runs its three parts in order, and lists run in order are the lists joined.
theorem main_eq (c : Dev nD) : main (F := F) c = seq opsAll := by
  rw [opsAll, seq_append win0, seq_append win1 win2, ← main_part0_eq c, ← main_part1_eq c, ← main_part2_eq c]; rfl

theorem scopedRefs_eq : (Finset.univ.filter fun b : Ref sig .tc => b.isScoped) = ∅ := by decide
theorem scopedSems_eq : (Finset.univ.filter fun sm : SemLoc sig => sm.isScoped .tc) = ∅ := by decide

variable (A : Valuation τ sig (Elt F))

-- The contents after the first one … six pieces, from contents `A`.
abbrev at1 := after ops1 A
abbrev at2 := after ops2 (at1 A)
abbrev at3 := after ops3 (at2 A)
abbrev at4 := after ops4 (at3 A)
abbrev at5 := after ops5 (at4 A)
abbrev at6 := after ops6 (at5 A)

theorem after_all : after opsAll A = at6 A := by
  simp only [opsAll, win0, win1, win2, StableHlo.after_append]

-- The stages of `A`'s argument arrays that a later piece reads.
abbrev t1 := ReadP.val_main_v1 (A main_arg1)
abbrev t3 := ReadP.val_main_v3 (A main_arg1)
abbrev t34 := ReadP.val_main_v34 (A main_arg0) (A main_arg1) (A main_arg2) (A main_arg4) (A main_arg5) (A main_arg6) (A main_arg7) (A main_arg8)
abbrev t44 := ReadP.val_main_v44 (A main_arg0) (A main_arg1) (A main_arg2) (A main_arg4) (A main_arg5) (A main_arg6) (A main_arg7) (A main_arg8)
abbrev t50 := ReadP.val_main_v50 (A main_arg0) (A main_arg1) (A main_arg2) (A main_arg4) (A main_arg5) (A main_arg6) (A main_arg7) (A main_arg8) (A main_arg9)
abbrev t66 := ReadP.val_main_v66 (A main_arg0) (A main_arg1) (A main_arg2) (A main_arg4) (A main_arg5) (A main_arg6) (A main_arg7) (A main_arg8) (A main_arg9) (A main_arg10) (A main_arg11) (A main_arg12)
abbrev t99 := ReadP.val_main_v99 (A main_arg0) (A main_arg1) (A main_arg2) (A main_arg4) (A main_arg5) (A main_arg6) (A main_arg7) (A main_arg8) (A main_arg9) (A main_arg10) (A main_arg11) (A main_arg12) (A main_arg13) (A main_arg14) (A main_arg15) (A main_arg16)
abbrev t102 := ReadP.val_main_v102 (A main_arg0) (A main_arg1) (A main_arg2) (A main_arg4) (A main_arg5) (A main_arg6) (A main_arg7) (A main_arg8) (A main_arg9) (A main_arg10) (A main_arg11) (A main_arg12) (A main_arg13) (A main_arg14) (A main_arg15) (A main_arg16)
abbrev t124 := ReadP.val_main_v124 (A main_arg0) (A main_arg1) (A main_arg2) (A main_arg3) (A main_arg4) (A main_arg5) (A main_arg6) (A main_arg7) (A main_arg8) (A main_arg9) (A main_arg10) (A main_arg11) (A main_arg12)
abbrev t127 := ReadP.val_main_v127 (A main_arg0) (A main_arg1) (A main_arg2) (A main_arg3) (A main_arg4) (A main_arg5) (A main_arg6) (A main_arg7) (A main_arg8) (A main_arg9) (A main_arg10) (A main_arg11) (A main_arg12) (A main_arg13) (A main_arg14) (A main_arg15) (A main_arg16) (A main_arg17) (A main_arg18) (A main_arg19) (A main_arg20)
abbrev t139 := ReadP.val_main_v139 (A main_arg0) (A main_arg1) (A main_arg2) (A main_arg3) (A main_arg4) (A main_arg5) (A main_arg6) (A main_arg7) (A main_arg8) (A main_arg9) (A main_arg10) (A main_arg11) (A main_arg12) (A main_arg13) (A main_arg14) (A main_arg15) (A main_arg16) (A main_arg17) (A main_arg18) (A main_arg19) (A main_arg20) (A main_arg21) (A main_arg22) (A main_arg23) (A main_arg24)
abbrev t150 := ReadP.val_main_v150 (A main_arg0) (A main_arg1) (A main_arg2) (A main_arg3) (A main_arg4) (A main_arg5) (A main_arg6) (A main_arg7) (A main_arg8) (A main_arg9) (A main_arg10) (A main_arg11) (A main_arg12) (A main_arg13) (A main_arg14) (A main_arg15) (A main_arg16) (A main_arg17) (A main_arg18) (A main_arg19) (A main_arg20) (A main_arg25) (A main_arg26) (A main_arg27) (A main_arg28)

-- Contents `V` hold `A`'s argument arrays.
abbrev Holds (V : Valuation τ sig (Elt F)) : Prop :=
  ∀ r : Ref sig .tc, r.idx.val < 29 → V (no_index (Proc.devRef .tc r)) = A (Proc.devRef .tc r)

variable {A} {V : Valuation τ sig (Elt F)}

theorem Holds.after (hA : Holds A V) {n : Nat} {ops : List (HloOp τ sig (Elt F))} (h : ops.Forall (Good n)) (hn : 29 ≤ n) :
    Holds A (after ops V) := fun r hr => (keep h (Nat.lt_of_lt_of_le hr hn) V).trans (hA r hr)

-- Each piece computes its stages: an operation's result is its function of its operands' contents, which is what a stage is.
theorem step1 (hA : Holds A V) : after ops1 V main_v1 = t1 A ∧ after ops1 V main_v3 = t3 A ∧ after ops1 V main_v34 = t34 A := by
  refine ⟨?_, ?_, ?_⟩ <;> (after_results_simp; simp (disch := decide) only [hA]; rfl)

theorem step2 (hA : Holds A V) (v34 : V main_v34 = t34 A) : after ops2 V main_v44 = t44 A ∧ after ops2 V main_v50 = t50 A := by
  refine ⟨?_, ?_⟩ <;> (after_results_simp; simp (disch := decide) only [hA, v34]; rfl)

theorem step3 (hA : Holds A V) (v44 : V main_v44 = t44 A) (v50 : V main_v50 = t50 A) : after ops3 V main_v66 = t66 A := by
  after_results_simp; simp (disch := decide) only [hA, v44, v50]; rfl

theorem step4 (hA : Holds A V) (v1 : V main_v1 = t1 A) (v3 : V main_v3 = t3 A) (v66 : V main_v66 = t66 A) :
    after ops4 V main_v99 = t99 A ∧ after ops4 V main_v102 = t102 A := by
  refine ⟨?_, ?_⟩ <;> (after_results_simp; simp (disch := decide) only [hA, v1, v3, v66]; rfl)

theorem step5 (hA : Holds A V) (v66 : V main_v66 = t66 A) (v99 : V main_v99 = t99 A) (v102 : V main_v102 = t102 A) :
    after ops5 V main_v124 = t124 A ∧ after ops5 V main_v127 = t127 A := by
  refine ⟨?_, ?_⟩ <;> (after_results_simp; simp (disch := decide) only [hA, v66, v99, v102]; rfl)

theorem step6 (hA : Holds A V) (v124 : V main_v124 = t124 A) (v127 : V main_v127 = t127 A) :
    after ops6 V main_v139 = t139 A ∧ after ops6 V main_v150 = t150 A := by
  refine ⟨?_, ?_⟩ <;> (after_results_simp; simp (disch := decide) only [hA]; rw [v124, v127]; rfl)

-- The pieces in order: the two result buffers end at their stages, and every argument buffer as it began.
variable (A) in
theorem results : at6 A main_v139 = t139 A ∧ at6 A main_v150 = t150 A ∧ Holds A (at6 A) := by
  have g1 : Holds A (at1 A) := Holds.after (fun _ _ => rfl) good1 (by decide)
  have g2 := g1.after good2 (by decide)
  have g3 := g2.after good3 (by decide)
  have g4 := g3.after good4 (by decide)
  have g5 := g4.after good5 (by decide)
  obtain ⟨a1, a3, a34⟩ := step1 (A := A) (V := A) fun _ _ => rfl
  obtain ⟨b44, b50⟩ := step2 g1 a34
  have c66 := step3 g2 b44 b50
  obtain ⟨e99, e102⟩ := step4 g3 ((keep good3 (by decide) _).trans ((keep good2 (by decide) _).trans a1))
    ((keep good3 (by decide) _).trans ((keep good2 (by decide) _).trans a3)) c66
  obtain ⟨f124, f127⟩ := step5 g4 ((keep good4 (by decide) _).trans c66) e99 e102
  exact (step6 g5 f124 f127).elim fun r139 r150 => ⟨r139, r150, g5.after good6 (by decide)⟩

-- Every weakly fair execution terminates with each result buffer at its stage of the argument arrays and the arguments unchanged.
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v139) = ReadP.val_main_v139 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_v150) = ReadP.val_main_v150 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg25)) (m ((c.tc : Thread nD τ).loc main_arg26)) (m ((c.tc : Thread nD τ).loc main_arg27)) (m ((c.tc : Thread nD τ).loc main_arg28))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) := by
  refine (θ_run defs _ _).mono (fun r h c => ?_)
    (run_seq scopedRefs_eq scopedSems_eq defs main (fun _ => opsAll) main_eq (fun _ => all fun _ _ h => h.sub) m ρ
      (hfresh := fun _ => List.forall_iff_forall_mem.mp (all fun _ _ h => h.fresh)))
  have e : ∀ b : Ref sig .tc, r.2.mem ((c.tc : Thread nD τ).loc b) = at6 (launchContents m c) (Proc.devRef .tc b) :=
    fun b => (h c b).trans (congrFun (after_all (launchContents m c)) _)
  obtain ⟨r139, r150, ra⟩ := results (launchContents m c)
  refine ⟨(e _).trans r139, (e _).trans r150, ?_⟩
  (repeat' apply And.intro) <;> exact (e _).trans (ra _ (by decide))

end Cert.ReferenceIdeal.HandRun

end
-- ==== Proof.RefOps.lean ====
-- The reference program's data-dependent host operations as functions of the arrays they are applied to.
import proofs.«414907_j52115133169838_1_alg».proof.ReferenceIdeal
import proofs.«414907_j52115133169838_1_alg».proof.Proof.Gen.ReferenceIdeal
import Idealize.ShloMosaic.PureOps.Ideal

noncomputable section

namespace Cert.RefOps

open Cert.ReferenceIdeal Cert.ReferenceIdeal.Gen Idealize.ShloMosaic

def srcWords (ei : IVec S2x1600000 32) : IVec S1600000 32 :=
  shapeCast S1600000 (extractStridedSlice S1x1600000 ![0, 0] ei slices_S2x1600000_S1x1600000_0_0) shapeCasts_S1x1600000_S1600000

def dstWords (ei : IVec S2x1600000 32) : IVec S1600000 32 :=
  shapeCast S1600000 (extractStridedSlice S1x1600000 ![1, 0] ei slices_S2x1600000_S1x1600000_1_0) shapeCasts_S1x1600000_S1600000

def nodeWords (x : IVec S100000x1 32) : IVec S100000 32 := shapeCast S100000 x shapeCasts_S100000x1_S100000

def scatterEdges (m : Vec Ideal S1600000x128 .f32) (ei : IVec S2x1600000 32) : Vec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dstWords ei)) m

def pool (h : Vec Ideal S100000x128 .f32) (b : IVec S100000 32) : Vec Ideal S2048x128 .f32 :=
  Host.scatterAdd scatter_S2048x128_S100000x1_S100000x128_1_0_0_1
    (broadcastInDim S2048x128 ![] bcast_S_S2048x128 (constant (F := Ideal) S_ .f32 0x00000000#32))
    (broadcastInDim S100000x1 ![0] bcast_S100000_S100000x1_0 b) h

def join (a b : Vec Ideal S2048x128 .f32) : Vec Ideal S2048x256 .f32 :=
  concatenate S2048x256 1 [⟨S2048x128, a⟩, ⟨S2048x128, b⟩] concatenates_S2048x128_S2048x128_S2048x256_d1

def indexNodes (t : Vec Ideal S512x128 .f32) (idx : IVec S100000 32) : Vec Ideal S100000x128 .f32 :=
  let c : IVec S_ 32 := constantI S_ 32 0#32
  let v0 : IVec S100000 32 := broadcastInDim S100000 ![] bcast_S_S100000 c
  let v1 : IVec S100000 1 := cmpi .slt idx v0
  let c_0 : IVec S_ 32 := constantI S_ 32 512#32
  let v2 : IVec S100000 32 := broadcastInDim S100000 ![] bcast_S_S100000 c_0
  let v3 : IVec S100000 32 := addi idx v2
  let v4 : IVec S100000 32 := select v1 v3 idx
  let v5 : IVec S100000x1 32 := broadcastInDim S100000x1 ![0] bcast_S100000_S100000x1_0 v4
  Host.gather gather_S512x128_S100000x1_S100000x128_1_0_n_n_0_1_1128 t v5

def gatherNodes (t : Vec Ideal S512x128 .f32) (x : IVec S100000x1 32) : Vec Ideal S100000x128 .f32 := indexNodes t (nodeWords x)

def indexEdges (t : Vec Ideal S100000x128 .f32) (idx : IVec S1600000 32) : Vec Ideal S1600000x128 .f32 :=
  let c : IVec S_ 32 := constantI S_ 32 0#32
  let v0 : IVec S1600000 32 := broadcastInDim S1600000 ![] bcast_S_S1600000 c
  let v1 : IVec S1600000 1 := cmpi .slt idx v0
  let c_0 : IVec S_ 32 := constantI S_ 32 100000#32
  let v2 : IVec S1600000 32 := broadcastInDim S1600000 ![] bcast_S_S1600000 c_0
  let v3 : IVec S1600000 32 := addi idx v2
  let v4 : IVec S1600000 32 := select v1 v3 idx
  let v5 : IVec S1600000x1 32 := broadcastInDim S1600000x1 ![0] bcast_S1600000_S1600000x1_0 v4
  Host.gather gather_S100000x128_S1600000x1_S1600000x128_1_0_n_n_0_1_1128 t v5

def gatherEdges (h : Vec Ideal S100000x128 .f32) (ei : IVec S2x1600000 32) : Vec Ideal S1600000x128 .f32 := indexEdges h (srcWords ei)

end Cert.RefOps

end
-- ==== Proof.RefArgs.lean ====
-- The reference program's arguments gathered into the network's parameter records.
import proofs.«414907_j52115133169838_1_alg».proof.Proof.Gen.ReferenceIdeal
import proofs.«414907_j52115133169838_1_alg».proof.Proof.RefOps
import proofs.«414907_j52115133169838_1_alg».proof.Proof.Net
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Args

open Cert.ReferenceIdeal Cert.ReferenceIdeal.Gen
open Idealize.ShloMosaic Idealize.ShloMosaic.TcCoe Idealize.ShloMosaic.ValueIdx
open Idealize.SL Idealize.SL.Sem

variable (m : (ℓ : Loc nD τ sig) → Buf (Elt Ideal) ℓ)

abbrev x (c : Dev nD) : Net.WM 100000 1 := m ((c.tc : Thread nD τ).loc main_arg0)
abbrev ei (c : Dev nD) : Net.WM 2 1600000 := m ((c.tc : Thread nD τ).loc main_arg1)
abbrev ea (c : Dev nD) : Net.RM 1600000 1 := m ((c.tc : Thread nD τ).loc main_arg2)
abbrev batch (c : Dev nD) : Net.WV 100000 := m ((c.tc : Thread nD τ).loc main_arg3)
abbrev emb (c : Dev nD) : Net.RM 512 128 := m ((c.tc : Thread nD τ).loc main_arg4)

def P1 (c : Dev nD) : Net.LayerP where
  ew := m ((c.tc : Thread nD τ).loc main_arg5)
  eb := m ((c.tc : Thread nD τ).loc main_arg6)
  w1 := m ((c.tc : Thread nD τ).loc main_arg7)
  b1 := m ((c.tc : Thread nD τ).loc main_arg8)
  g  := m ((c.tc : Thread nD τ).loc main_arg9)
  sh := m ((c.tc : Thread nD τ).loc main_arg10)
  w2 := m ((c.tc : Thread nD τ).loc main_arg11)
  b2 := m ((c.tc : Thread nD τ).loc main_arg12)
def P2 (c : Dev nD) : Net.LayerP where
  ew := m ((c.tc : Thread nD τ).loc main_arg13)
  eb := m ((c.tc : Thread nD τ).loc main_arg14)
  w1 := m ((c.tc : Thread nD τ).loc main_arg15)
  b1 := m ((c.tc : Thread nD τ).loc main_arg16)
  g  := m ((c.tc : Thread nD τ).loc main_arg17)
  sh := m ((c.tc : Thread nD τ).loc main_arg18)
  w2 := m ((c.tc : Thread nD τ).loc main_arg19)
  b2 := m ((c.tc : Thread nD τ).loc main_arg20)

def HF (c : Dev nD) : Net.HeadP where
  w1 := m ((c.tc : Thread nD τ).loc main_arg21)
  b1 := m ((c.tc : Thread nD τ).loc main_arg22)
  w2 := m ((c.tc : Thread nD τ).loc main_arg23)
  b2 := m ((c.tc : Thread nD τ).loc main_arg24)
def HB (c : Dev nD) : Net.HeadP where
  w1 := m ((c.tc : Thread nD τ).loc main_arg25)
  b1 := m ((c.tc : Thread nD τ).loc main_arg26)
  w2 := m ((c.tc : Thread nD τ).loc main_arg27)
  b2 := m ((c.tc : Thread nD τ).loc main_arg28)

end Cert.ReferenceIdeal.Args

namespace Cert.RefOps
open Cert.ReferenceIdeal Idealize.ShloMosaic

def ops : Cert.Net.Ops where
  gatherNodes := gatherNodes
  gatherEdges := gatherEdges
  scatterEdges := scatterEdges
  pool := pool
  join := join

end Cert.RefOps

end
-- ==== Proof.RefLayers.lean ====
import proofs.«414907_j52115133169838_1_alg».proof.Proof.RefArgs
import Idealize.ShloMosaic.Lib.ValueLayout
import Idealize.ShloMosaic.Lib.StackMember
import Idealize.ShloMosaic.Lib.IdealHost

noncomputable section

namespace Cert.ReferenceIdeal.NetLayers

open Cert.ReferenceIdeal Cert.ReferenceIdeal.Gen Idealize.ShloMosaic Idealize.ShloMosaic.ValueIdx Idealize.ShloMosaic.StackMember

section Generic

variable {R K O : Nat}

-- A vector as a one-row matrix reads the vector.
theorem rowOfVec_apply {h : (Spec.Vc O).BroadcastsInDim (Spec.Mat 1 O) ![1]} (v : FVec Ideal (Spec.Vc O) .f32) (u : Fin 1) (q : Fin O) :
    broadcastInDim (Spec.Mat 1 O) ![1] h v (ix2 u q) = v (ix1 q) :=
  broadcastInDim_apply _ h v (ix2 u q) (ix1 q) fun a => match a with
    | ⟨0, _⟩ => by
      show q.val = if O = 1 then 0 else q.val
      split
      · have := q.isLt; omega
      · rfl

-- A vector repeated down the rows reads the vector at the column.
theorem vec_apply {h1 : (Spec.Vc O).BroadcastsInDim (Spec.Mat 1 O) ![1]} {h2 : (Spec.Mat 1 O).BroadcastsInDim (Spec.Mat R O) ![0, 1]}
    (v : FVec Ideal (Spec.Vc O) .f32) (i : Fin R) (q : Fin O) :
    broadcastInDim (Spec.Mat R O) ![0, 1] h2 (broadcastInDim (Spec.Mat 1 O) ![1] h1 v) (ix2 i q) = v (ix1 q) :=
  (broadcastInDim_oneRow_apply h2 _ i q).trans (rowOfVec_apply v 0 q)

-- The maximum with the zero word spread over the array is the clamp at zero.
theorem relu_apply {T : Shape} {h : S_.BroadcastsInDim T ![]} (z : FVec Ideal T .f32) (j : T.Idx) :
    maximumf z (broadcastInDim T ![] h (constant (F := Ideal) S_ .f32 0x00000000#32)) j = max (z j) 0 := by
  rw [maximumf_apply, broadcastInDim_scalar_apply, constant_apply, Ideal.ofBits_zero_f32]

theorem relu_eq {h : S_.BroadcastsInDim (Spec.Mat R O) ![]} (z : FVec Ideal (Spec.Mat R O) .f32) :
    maximumf z (broadcastInDim (Spec.Mat R O) ![] h (constant (F := Ideal) S_ .f32 0x00000000#32)) = Spec.relu z :=
  funext (relu_apply z)

-- A plain product with the transposed weight, plus the bias down the rows, is the linear map by rows.
theorem lin_eq {D : DotDims (Spec.Mat R K) (Spec.Mat K O) (Spec.Mat R O)} (hD : D = DotDims.plain R K O)
    {ht : (Spec.Mat O K).Transposes [1, 0] (Spec.Mat K O)} {h1 : (Spec.Vc O).BroadcastsInDim (Spec.Mat 1 O) ![1]}
    {h2 : (Spec.Mat 1 O).BroadcastsInDim (Spec.Mat R O) ![0, 1]}
    (x : FVec Ideal (Spec.Mat R K) .f32) (w : FVec Ideal (Spec.Mat O K) .f32) (b : FVec Ideal (Spec.Vc O) .f32) :
    addf (Host.dotGeneral (F := Ideal) D none x (transpose (Spec.Mat K O) [1, 0] w ht))
      (broadcastInDim (Spec.Mat R O) ![0, 1] h2 (broadcastInDim (Spec.Mat 1 O) ![1] h1 b)) = Spec.lin x w b := by
  subst hD
  funext j
  obtain ⟨i, q, rfl⟩ : ∃ (i : Fin R) (q : Fin O), j = ix2 i q := ⟨j 0, j 1, eq_ix2 j⟩
  refine (addf_apply _ _ _).trans ?_
  rw [dotGeneral_plain_apply, vec_apply]
  show _ = (∑ k : Fin K, x (ix2 i k) * w (ix2 q k)) + b (ix1 q)
  exact congrArg (· + _) (Finset.sum_congr rfl fun k _ => by rw [transpose_ix2_apply])

-- Two linear maps with a clamp between are a head.
theorem head_eq {T : Nat} {D1 : DotDims (Spec.Mat R K) (Spec.Mat K O) (Spec.Mat R O)} (hD1 : D1 = DotDims.plain R K O)
    {D2 : DotDims (Spec.Mat R O) (Spec.Mat O T) (Spec.Mat R T)} (hD2 : D2 = DotDims.plain R O T)
    {ht1 : (Spec.Mat O K).Transposes [1, 0] (Spec.Mat K O)} {h11 : (Spec.Vc O).BroadcastsInDim (Spec.Mat 1 O) ![1]}
    {h12 : (Spec.Mat 1 O).BroadcastsInDim (Spec.Mat R O) ![0, 1]} {hz : S_.BroadcastsInDim (Spec.Mat R O) ![]}
    {ht2 : (Spec.Mat T O).Transposes [1, 0] (Spec.Mat O T)} {h21 : (Spec.Vc T).BroadcastsInDim (Spec.Mat 1 T) ![1]}
    {h22 : (Spec.Mat 1 T).BroadcastsInDim (Spec.Mat R T) ![0, 1]}
    {f : FVec Ideal (Spec.Mat R K) .f32} {w1 : FVec Ideal (Spec.Mat O K) .f32} {b1 : FVec Ideal (Spec.Vc O) .f32}
    {w2 : FVec Ideal (Spec.Mat T O) .f32} {b2 : FVec Ideal (Spec.Vc T) .f32} :
    addf (Host.dotGeneral (F := Ideal) D2 none
        (maximumf (addf (Host.dotGeneral (F := Ideal) D1 none f (transpose (Spec.Mat K O) [1, 0] w1 ht1))
            (broadcastInDim (Spec.Mat R O) ![0, 1] h12 (broadcastInDim (Spec.Mat 1 O) ![1] h11 b1)))
          (broadcastInDim (Spec.Mat R O) ![] hz (constant (F := Ideal) S_ .f32 0x00000000#32)))
        (transpose (Spec.Mat O T) [1, 0] w2 ht2))
      (broadcastInDim (Spec.Mat R T) ![0, 1] h22 (broadcastInDim (Spec.Mat 1 T) ![1] h21 b2)) = Spec.head f w1 b1 w2 b2 := by
  rw [lin_eq hD1, relu_eq, lin_eq hD2]; rfl

end Generic

variable (h z : FVec Ideal S100000x128 .f32) (ei : IVec S2x1600000 32) (ea : FVec Ideal S1600000x1 .f32) (ew : FVec Ideal S128x1 .f32)
  (eb : FVec Ideal S128 .f32) (w : FVec Ideal S128x128 .f32) (b g sh m v : FVec Ideal S128 .f32) (w2 : FVec Ideal S128x128 .f32)
  (b2 : FVec Ideal S128 .f32)

-- The column sum from the zero word: entry q is the sum over all rows of column q.
theorem colSumN_apply (q : Fin 128) :
    Host.reduceAdd (F := Ideal) z (constant (F := Ideal) S_ .f32 0x00000000#32) reducesTo_S100000x128_S128_d0 h_S_ (ix1 q)
      = ∑ i : Fin 100000, z (ix2 i q) := by
  simp only [Host.reduceAdd, Ideal.hostReduceAdd_def]
  rw [Ideal.hostReduceAdd_single reducesTo_S100000x128_S128_d0 (by decide)]
  refine (congrArg (· + _) Ideal.ofBits_zero_f32).trans ((zero_add _).trans ?_)
  refine Finset.sum_congr rfl fun i _ => ?_
  exact congrArg z (funext fun a => Fin.ext (by match a with | ⟨0, _⟩ => rfl | ⟨1, _⟩ => rfl))

-- A layer's stages as the program composes them, over any input array `h` (pre-activation `z`) and parameters.
def edgeStage : FVec Ideal S1600000x128 .f32 :=
  addf (Host.dotGeneral (F := Ideal) dot_S1600000x1_S1x128_S1600000x128_1_0_0_1_n_n none ea (transpose S1x128 [1, 0] ew transposes_S128x1_S1x128_1_0)) (broadcastInDim S1600000x128 ![0, 1] bcast_S1x128_S1600000x128_0_1 (broadcastInDim S1x128 ![1] bcast_S128_S1x128_1 eb))

def msgStage : FVec Ideal S1600000x128 .f32 :=
  maximumf (addf (Cert.RefOps.gatherEdges h ei) (edgeStage ea ew eb)) (broadcastInDim S1600000x128 ![] bcast_S_S1600000x128 (constant (F := Ideal) S_ .f32 0x00000000#32))

def linStage : FVec Ideal S100000x128 .f32 :=
  addf (Host.dotGeneral (F := Ideal) dot_S100000x128_S128x128_S100000x128_1_0_0_1_n_n none z (transpose S128x128 [1, 0] w transposes_S128x128_S128x128_1_0)) (broadcastInDim S100000x128 ![0, 1] bcast_S1x128_S100000x128_0_1 (broadcastInDim S1x128 ![1] bcast_S128_S1x128_1 b))

def preStage : FVec Ideal S100000x128 .f32 :=
  linStage (addf h (Cert.RefOps.scatterEdges (msgStage h ei ea ew eb) ei)) w b

def meanStage : FVec Ideal S128 .f32 :=
  Host.divf (F := Ideal) (Host.reduceAdd (F := Ideal) z (constant (F := Ideal) S_ .f32 0x00000000#32) reducesTo_S100000x128_S128_d0 h_S_) (broadcastInDim S128 ![] bcast_S_S128 (constant (F := Ideal) S_ .f32 0x47C35000#32))

-- A vector down the node rows.
abbrev down : FVec Ideal S100000x128 .f32 :=
  broadcastInDim S100000x128 ![0, 1] bcast_S1x128_S100000x128_0_1 (broadcastInDim S1x128 ![1] bcast_S128_S1x128_1 v)

def varStage : FVec Ideal S128 .f32 :=
  meanStage (mulf (subf z (down m)) (subf z (down m)))

def normStage : FVec Ideal S100000x128 .f32 :=
  maximumf (addf (mulf (mulf (down g) (subf z (down m))) (down (Host.rsqrt (F := Ideal) (addf v (broadcastInDim S128 ![] bcast_S_S128 (constant (F := Ideal) S_ .f32 0x3727C5AC#32)))))) (down sh)) (broadcastInDim S100000x128 ![] bcast_S_S100000x128 (constant (F := Ideal) S_ .f32 0x00000000#32))

def outStage : FVec Ideal S100000x128 .f32 :=
  maximumf (linStage z w2 b2) (broadcastInDim S100000x128 ![] bcast_S_S100000x128 (constant (F := Ideal) S_ .f32 0x00000000#32))

def tailStage : FVec Ideal S100000x128 .f32 :=
  outStage (normStage z g sh (meanStage z) (varStage z (meanStage z))) w2 b2

def layerStage : FVec Ideal S100000x128 .f32 :=
  tailStage (preStage h ei ea ew eb w b) g sh w2 b2

-- Each stage is the network's.
theorem edgeStage_eq : (edgeStage ea ew eb : Net.RM 1600000 128) = Spec.edgeLin ea ew eb :=
  (lin_eq rfl ea ew eb).trans (funext fun j => by show (∑ k : Fin 1, _) + _ = _; rw [Fin.sum_univ_one]; rfl)

theorem msgStage_eq :
    (msgStage h ei ea ew eb : Net.RM 1600000 128) = Spec.message (Cert.RefOps.ops.gatherEdges h ei) (Spec.edgeLin ea ew eb) := by
  unfold msgStage
  rw [relu_eq, edgeStage_eq]
  rfl

theorem linStage_eq : (linStage z w b : Net.RM 100000 128) = Spec.lin z w b := lin_eq rfl z w b

theorem preStage_eq (P : Net.LayerP) :
    (preStage h ei ea P.ew P.eb P.w1 P.b1 : Net.RM 100000 128) = Net.preAct Cert.RefOps.ops P ei ea h := by
  unfold preStage Net.preAct
  rw [linStage_eq, msgStage_eq]
  rfl

theorem meanStage_eq : (meanStage z : Net.RV 128) = Spec.colMean z := by
  funext j
  obtain ⟨q, rfl⟩ : ∃ q : Fin 128, j = ix1 q := ⟨j 0, eq_ix1 j⟩
  unfold meanStage
  rw [hostDivf_apply, colSumN_apply, broadcastInDim_scalar_apply, constant_apply, Cert.Consts.ofBits_rows]
  rfl

theorem varStage_eq : (varStage z (Spec.colMean z) : Net.RV 128) = Spec.colVarDev z := by
  funext j
  obtain ⟨q, rfl⟩ : ∃ q : Fin 128, j = ix1 q := ⟨j 0, eq_ix1 j⟩
  unfold varStage meanStage down
  rw [hostDivf_apply, colSumN_apply, broadcastInDim_scalar_apply, constant_apply, Cert.Consts.ofBits_rows]
  refine congrArg (fun s => Ideal.div s Spec.rows) (Fintype.sum_congr _ _ fun i => ?_)
  rw [mulf_apply, subf_apply, vec_apply]

theorem normStage_eq : (normStage z g sh m v : Net.RM 100000 128) = Spec.normAct g sh z m v := by
  funext j
  obtain ⟨i, q, rfl⟩ : ∃ (i : Fin 100000) (q : Fin 128), j = ix2 i q := ⟨j 0, j 1, eq_ix2 j⟩
  unfold normStage down
  refine (relu_apply _ _).trans (congrArg (max · 0) ?_)
  refine (addf_apply _ _ _).trans ?_
  rw [vec_apply sh i q]
  refine congrArg (· + _) ((mulf_apply _ _ _).trans ?_)
  rw [vec_apply _ i q]
  refine congrArg₂ (· * ·) ((mulf_apply _ _ _).trans ?_) ?_
  · rw [vec_apply g i q]
    exact congrArg (_ * ·) ((subf_apply _ _ _).trans (congrArg (z (ix2 i q) - ·) (vec_apply m i q)))
  · show Ideal.rsqrt (v (ix1 q) + broadcastInDim S128 ![] bcast_S_S128 (constant (F := Ideal) S_ .f32 0x3727C5AC#32) (ix1 q)) = _
    rw [broadcastInDim_scalar_apply, constant_apply, Cert.Consts.ofBits_eps]

theorem outStage_eq : (outStage z w2 b2 : Net.RM 100000 128) = Spec.relu (Spec.lin z w2 b2) := by
  unfold outStage
  rw [relu_eq, linStage_eq]

-- A layer's stages compose to the network's layer under the mean-of-squared-deviations variance.
theorem layerStage_eq (P : Net.LayerP) :
    (layerStage h ei ea P.ew P.eb P.w1 P.b1 P.g P.sh P.w2 P.b2 : Net.RM 100000 128)
      = Net.layer Spec.colVarDev Cert.RefOps.ops P ei ea h := by
  unfold layerStage tailStage Net.layer Spec.layerOf
  rw [outStage_eq, normStage_eq, meanStage_eq, varStage_eq, preStage_eq]

end Cert.ReferenceIdeal.NetLayers

end
-- ==== Proof.RefNet.lean ====
import proofs.«414907_j52115133169838_1_alg».proof.Proof.ReadP
import proofs.«414907_j52115133169838_1_alg».proof.Proof.RefLayers

noncomputable section

namespace Cert.ReferenceIdeal.NetResults

open Cert.ReferenceIdeal Idealize.ShloMosaic Cert.ReferenceIdeal.ReadP Cert.ReferenceIdeal.NetLayers Cert.ReferenceIdeal.Args

-- Each layer's output stage is the network's layer of the stage before, and each result stage a head of the joined pooled outputs.
theorem results (m : (ℓ : Loc nD τ sig) → Buf (Elt Ideal) ℓ) (c : Dev nD) :
    ((val_main_v139 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) : Net.RM 2048 512),
     (val_main_v150 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg25)) (m ((c.tc : Thread nD τ).loc main_arg26)) (m ((c.tc : Thread nD τ).loc main_arg27)) (m ((c.tc : Thread nD τ).loc main_arg28)) : Net.RM 2048 512))
      = Net.net Spec.colVarDev Cert.RefOps.ops (x m c) (ei m c) (ea m c) (batch m c) (emb m c) (P1 m c) (P2 m c) (HF m c) (HB m c) := by
  have h1 := layerStage_eq (Cert.RefOps.ops.gatherNodes (emb m c) (x m c)) (ei m c) (ea m c) (P1 m c)
  have h2 := (layerStage_eq _ (ei m c) (ea m c) (P2 m c)).trans
    (congrArg (Net.layer Spec.colVarDev Cert.RefOps.ops (P2 m c) (ei m c) (ea m c)) h1)
  have hj := congrArg₂ (fun a b => Cert.RefOps.ops.join (Cert.RefOps.ops.pool a (batch m c)) (Cert.RefOps.ops.pool b (batch m c))) h1 h2
  unfold Net.net
  refine congrArg₂ Prod.mk ?_ ?_ <;> exact (head_eq rfl rfl).trans (congrArg (Spec.head · _ _ _ _) hj)

end Cert.ReferenceIdeal.NetResults

end
-- ==== Proof.LibTakeFill.lean ====
import Idealize.ShloMosaic.PureOps.Contract
import Idealize.ShloMosaic.Lib.ValueIdx
import Idealize.ShloMosaic.Lib.ReduceAll
import Idealize.ShloMosaic.Lib.StableHlo.Predicate

namespace Cert.LibTakeFill

open Idealize.ShloMosaic Idealize.ShloMosaic.ValueIdx Idealize.ShloMosaic.StableHlo.Predicate

/-- With `−N ≤ i < N` the wrapped word (`i + N` when `i < 0`, else `i`) lies in `[0, N − 1]`. -/
theorem wrap_word_in_range (N : Nat) (hN0 : 0 < N) (hN : N < 2 ^ 30) (i : BitVec 32)
    (hi : -(N : ℤ) ≤ i.toInt ∧ i.toInt < (N : ℤ)) :
    IntOp.andi
      (IntOp.cmpi .sge (Scalar.select (IntOp.cmpi .slt i 0#32) (IntOp.addi i (BitVec.ofNat 32 N)) i) 0#32)
      (IntOp.cmpi .sle (Scalar.select (IntOp.cmpi .slt i 0#32) (IntOp.addi i (BitVec.ofNat 32 N)) i) (BitVec.ofNat 32 (N - 1)))
      = 1#1 := by
  have hslt : IntOp.cmpi .slt i 0#32 = 1#1 ↔ i.toInt < 0 := by rw [IntOp.cmpi_slt, BitVec.toInt_zero]
  rw [IntOp.andi_eq_one, IntOp.cmpi_sge, IntOp.cmpi_sle, BitVec.toInt_zero, toInt_ofNat_small (N - 1) (by omega)]
  by_cases hneg : i.toInt < 0
  · have hsum : (IntOp.addi i (BitVec.ofNat 32 N)).toInt = i.toInt + (N : ℤ) := by
      show (i + BitVec.ofNat 32 N).toInt = _
      rw [BitVec.toInt_add, toInt_ofNat_small N (by omega)]
      exact Int.bmod_eq_of_le_mul_two (by omega) (by omega)
    rw [hslt.mpr hneg, select_one, hsum]
    omega
  · rw [show Scalar.select (IntOp.cmpi .slt i 0#32) (IntOp.addi i (BitVec.ofNat 32 N)) i = i from if_neg (mt hslt.mp hneg)]
    omega

/-- The bit `1` is a fixed point of every step of a reduction by `and` over bits that are all `1`. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  unfold Host.reduce
  rw [hinit]
  refine List.foldl_fixed' (fun n => ?_) _
  rw [hx]; rfl

/-- A select under a broadcast mask of set bits keeps its first operand. -/
theorem select_bcast_ones {α : Type} {s t : Shape} (dims : Fin s.rank → Fin t.rank) (h : s.BroadcastsInDim t dims)
    (m : s.Idx → BitVec 1) (hm : ∀ k, m k = 1#1) (g fill : t.Idx → α) : select (broadcastInDim t dims h m) g fill = g :=
  funext fun j => by rw [select_apply, show broadcastInDim t dims h m j = 1#1 from hm _, select_one]

end Cert.LibTakeFill
-- ==== Proof.OpsAgree.lean ====
import proofs.«414907_j52115133169838_1_alg».proof.Proof.KernelOps
import proofs.«414907_j52115133169838_1_alg».proof.Proof.RefOps
import proofs.«414907_j52115133169838_1_alg».proof.Proof.LibTakeFill
import Idealize.ShloMosaic.Lib.Pipeline.Value

namespace Cert.OpsAgree

open Idealize.ShloMosaic Idealize.ShloMosaic.ValueIdx Cert.LibTakeFill Cert.KernelIdeal

/-- Flattening a column keeps the row-major position. -/
theorem nodeWords_apply (x : IVec S100000x1 32) (e : S100000.Idx) : Cert.KernelOps.nodeWords x e = x (ix2 (e 0) 0) :=
  shapeCast_apply x _ _ _ (by
    rw [Shape.rowMajor_val_two, Shape.rowMajor_val_one]
    show (e 0).val * 1 + 0 = (e 0).val
    omega)

/-- Row 0 of the edge array, flattened. -/
theorem srcWords_apply (ei : IVec S2x1600000 32) (e : S1600000.Idx) : Cert.KernelOps.srcWords ei e = ei (ix2 0 (e 0)) :=
  (shapeCast_apply _ _ _ (ix2 (0 : Fin 1) (e 0)) (by
    rw [Shape.rowMajor_val_two, Shape.rowMajor_val_one]
    show 0 * 1600000 + (e 0).val = (e 0).val
    omega)).trans
  (extractStridedSlice_apply _ _ _ _ _ fun a => match a with
    | ⟨0, _⟩ => rfl
    | ⟨1, _⟩ => by show (e 0).val = 0 + (e 0).val; omega)

/-- On words in `[−512, 512)` the row mask of the filling lookup is all ones, and what is left is the clamping lookup. -/
theorem takeNodes_eq (t : Vec Ideal S512x128 .f32) (idx : IVec S100000 32)
    (hidx : ∀ e, -((512 : ℕ) : ℤ) ≤ (idx e).toInt ∧ (idx e).toInt < ((512 : ℕ) : ℤ)) :
    Cert.KernelOps.takeNodes t idx = Cert.RefOps.indexNodes t idx :=
  select_bcast_ones _ _ _ (reduce_andi_ones _ _ _ _
    (fun _ => wrap_word_in_range 512 (by norm_num) (by norm_num) _ (hidx _)) fun _ => rfl) _ _

/-- The same on words in `[−100000, 100000)`. -/
theorem takeEdges_eq (t : Vec Ideal S100000x128 .f32) (idx : IVec S1600000 32)
    (hidx : ∀ e, -((100000 : ℕ) : ℤ) ≤ (idx e).toInt ∧ (idx e).toInt < ((100000 : ℕ) : ℤ)) :
    Cert.KernelOps.takeEdges t idx = Cert.RefOps.indexEdges t idx :=
  select_bcast_ones _ _ _ (reduce_andi_ones _ _ _ _
    (fun _ => wrap_word_in_range 100000 (by norm_num) (by norm_num) _ (hidx _)) fun _ => rfl) _ _

theorem gatherNodes_eq (x : IVec Cert.KernelIdeal.S100000x1 32)
    (hx : ∀ i : Fin 100000, -512 ≤ (x (ix2 i 0)).toInt ∧ (x (ix2 i 0)).toInt < 512)
    (t : Vec Ideal Cert.KernelIdeal.S512x128 .f32) :
    Cert.KernelOps.gatherNodes t x = Cert.RefOps.gatherNodes t x :=
  takeNodes_eq t _ fun e => by rw [nodeWords_apply]; exact hx _

theorem gatherEdges_eq (ei : IVec Cert.KernelIdeal.S2x1600000 32)
    (hs : ∀ e : Fin 1600000, -100000 ≤ (ei (ix2 0 e)).toInt ∧ (ei (ix2 0 e)).toInt < 100000)
    (h : Vec Ideal Cert.KernelIdeal.S100000x128 .f32) :
    Cert.KernelOps.gatherEdges h ei = Cert.RefOps.gatherEdges h ei :=
  takeEdges_eq h _ fun e => by rw [srcWords_apply]; exact hs _

theorem scatterEdges_eq : Cert.KernelOps.scatterEdges = Cert.RefOps.scatterEdges := rfl
theorem pool_eq : Cert.KernelOps.pool = Cert.RefOps.pool := rfl
theorem join_eq : Cert.KernelOps.join = Cert.RefOps.join := rfl

end Cert.OpsAgree
-- ==== Proof.OpsReal.lean ====
import proofs.«414907_j52115133169838_1_alg».proof.Proof.RefOps
import proofs.«414907_j52115133169838_1_alg».proof.Proof.LibIdealReal

namespace Cert.OpsReal

open Idealize.ShloMosaic

/-- Every entry is an embedded real number. -/
def IsReal {s : Shape} (a : s.Idx → EReal) : Prop := ∃ f : s.Idx → ℝ, a = fun j => ((f j : ℝ) : EReal)

/-- A gather only reads entries of its operand. -/
theorem gather_real {s si t : Shape} {w : Nat} (d : GatherDims s si t) (x : s.Idx → EReal) (idx : IVec si w) :
    IsReal x → IsReal (Host.gather d x idx) := by
  rintro ⟨f, rfl⟩
  exact ⟨fun j => f (d.operandIdx j idx), rfl⟩

/-- An entry of a scatter-add is the operand's entry plus a finite sum of entries of the updates. -/
theorem scatterAdd_real {s si su : Shape} {w : Nat} (d : ScatterDims s si su) (x : s.Idx → EReal) (idx : IVec si w)
    (u : su.Idx → EReal) : IsReal x → IsReal u → IsReal (Ideal.hostScatterAdd d x idx u) := by
  rintro ⟨fx, rfl⟩ ⟨fu, rfl⟩
  exact ⟨fun i => fx i + ∑ j ∈ Finset.univ.filter (fun j => d.resultIdx? j idx = some i), fu j,
    funext fun i => by rw [EReal.coe_add, ← IdealReal.coe_sum]; rfl⟩

theorem gatherNodes_real (x : IVec Cert.ReferenceIdeal.S100000x1 32) (t : Vec Ideal Cert.ReferenceIdeal.S512x128 .f32)
    (ht : IsReal t) : IsReal (Cert.RefOps.gatherNodes t x) :=
  gather_real _ t _ ht

theorem gatherEdges_real (ei : IVec Cert.ReferenceIdeal.S2x1600000 32) (h : Vec Ideal Cert.ReferenceIdeal.S100000x128 .f32)
    (hh : IsReal h) : IsReal (Cert.RefOps.gatherEdges h ei) :=
  gather_real _ h _ hh

/-- The scatter-add starts from the zero array, which is real. -/
theorem scatterEdges_real (ei : IVec Cert.ReferenceIdeal.S2x1600000 32) (m : Vec Ideal Cert.ReferenceIdeal.S1600000x128 .f32)
    (hm : IsReal m) : IsReal (Cert.RefOps.scatterEdges m ei) :=
  scatterAdd_real _ _ _ m ⟨fun _ => 0, funext fun _ => Ideal.ofBits_zero_f32.trans EReal.coe_zero.symm⟩ hm

end Cert.OpsReal
-- ==== Proof.PreFacts.lean ====
-- What the precondition says: the float arguments the normalisations read are real, node words lie in [-512, 512), source words in [-100000, 100000).
import proofs.«414907_j52115133169838_1_alg».proof.Defs
import proofs.«414907_j52115133169838_1_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal.Laws

noncomputable section

namespace Cert.PreFacts

open Idealize.ShloMosaic Idealize.ShloMosaic.ValueIdx Cert.Pre_finite_inputs

def IsReal {s : Shape} (a : s.Idx → EReal) : Prop := ∃ f : s.Idx → ℝ, a = fun j => ((f j : ℝ) : EReal)

local instance : Subsingleton S_.Idx := ⟨fun a b => funext fun d => d.elim0⟩

theorem andi_ix0 (p q : IVec S_ 1) : andi p q ix0 = IntOp.andi (p ix0) (q ix0) := rfl

-- An extended real with |x| < +inf is neither infinity.
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

theorem isReal_of_all {s : Shape} {axes : List (Fin s.rank)} (a : FVec Ideal s .f32)
    (hb : S_.BroadcastsInDim s (![] : Fin 0 → Fin s.rank)) (hr : s.ReducesTo axes S_) (hu : 0 < S_.numel) (init : IVec S_ 1)
    (e : Host.reduce IntOp.andi (cmpf .olt (Host.absf a) (broadcastInDim s ![] hb (constant S_ .f32 0x7F800000#32))) init hr hu ix0
      = 1#1) : IsReal a := by
  have h : ∀ i, ∃ r : ℝ, a i = (r : EReal) := fun i =>
    real_of_abs_lt (a i) (Host.reduce_andi_all _ init hr hu ix0 e i)
  exact ⟨fun i => (h i).choose, funext fun i => (h i).choose_spec⟩

theorem range_of_all {s : Shape} {axes : List (Fin s.rank)} (x x' : IVec s 32) (lo hi : BitVec 32)
    (hb : S_.BroadcastsInDim s (![] : Fin 0 → Fin s.rank)) (hr : s.ReducesTo axes S_) (hu : 0 < S_.numel) (init : IVec S_ 1)
    (e : Host.reduce IntOp.andi (andi (cmpi .sge x (broadcastInDim s ![] hb (constantI S_ 32 lo)))
      (cmpi .slt x' (broadcastInDim s ![] hb (constantI S_ 32 hi)))) init hr hu ix0 = 1#1)
    (i : s.Idx) : lo.toInt ≤ (x i).toInt ∧ (x' i).toInt < hi.toInt := by
  have h' : IntOp.andi (IntOp.cmpi .sge (x i) lo) (IntOp.cmpi .slt (x' i) hi) = 1#1 :=
    Host.reduce_andi_all _ init hr hu ix0 e i
  obtain ⟨h1, h2⟩ := IntOp.andi_eq_one.1 h'
  simp only [IntOp.cmpi, StableHlo.Predicate.ofBool_eq_one_iff, BitVec.sle, BitVec.slt, decide_eq_true_eq] at h1 h2
  exact ⟨h1, h2⟩

theorem toInt_node_lo : (4294966784#32 : BitVec 32).toInt = -512 := by decide
theorem toInt_node_hi : (512#32 : BitVec 32).toInt = 512 := by decide
theorem toInt_src_lo : (4294867296#32 : BitVec 32).toInt = -100000 := by decide
theorem toInt_src_hi : (100000#32 : BitVec 32).toInt = 100000 := by decide

theorem src_read (ei : IVec S2x1600000 32) (hs : S2x1600000.Slices ![0, 0] S1x1600000) (hc : S1x1600000.ShapeCasts S1600000)
    (e : Fin 1600000) :
    shapeCast S1600000 (extractStridedSlice S1x1600000 ![0, 0] ei hs) hc (ix1 e) = ei (ix2 0 e) := by
  unfold shapeCast
  rw [Shape.reshapeEquiv_cons_one]
  unfold extractStridedSlice
  congr 1
  funext a
  match a with
  | ⟨0, _⟩ => rfl
  | ⟨1, _⟩ => exact Fin.ext (Nat.zero_add _)

structure Holds (x : IVec S100000x1 32) (edge_index : IVec S2x1600000 32) (edge_attr : FVec Ideal S1600000x1 .f32)
    (emb : FVec Ideal S512x128 .f32)
    (e1_w : FVec Ideal S128x1 .f32) (e1_b : FVec Ideal S128 .f32) (c1_w1 : FVec Ideal S128x128 .f32) (c1_b1 : FVec Ideal S128 .f32)
    (c1_g : FVec Ideal S128 .f32) (c1_be : FVec Ideal S128 .f32) (c1_w2 : FVec Ideal S128x128 .f32) (c1_b2 : FVec Ideal S128 .f32)
    (e2_w : FVec Ideal S128x1 .f32) (e2_b : FVec Ideal S128 .f32) (c2_w1 : FVec Ideal S128x128 .f32) (c2_b1 : FVec Ideal S128 .f32)
    (c2_g : FVec Ideal S128 .f32) (c2_be : FVec Ideal S128 .f32) (c2_w2 : FVec Ideal S128x128 .f32) (c2_b2 : FVec Ideal S128 .f32) : Prop where
  edge_attr : IsReal edge_attr
  emb : IsReal emb
  e1_w : IsReal e1_w
  e1_b : IsReal e1_b
  c1_w1 : IsReal c1_w1
  c1_b1 : IsReal c1_b1
  c1_g : IsReal c1_g
  c1_be : IsReal c1_be
  c1_w2 : IsReal c1_w2
  c1_b2 : IsReal c1_b2
  e2_w : IsReal e2_w
  e2_b : IsReal e2_b
  c2_w1 : IsReal c2_w1
  c2_b1 : IsReal c2_b1
  c2_g : IsReal c2_g
  c2_be : IsReal c2_be
  c2_w2 : IsReal c2_w2
  c2_b2 : IsReal c2_b2
  node_range : ∀ i : Fin 100000, -512 ≤ (x (ix2 i 0)).toInt ∧ (x (ix2 i 0)).toInt < 512
  src_range : ∀ e : Fin 1600000, -100000 ≤ (edge_index (ix2 0 e)).toInt ∧ (edge_index (ix2 0 e)).toInt < 100000

-- The printed conjunction is all ones exactly when each of its 28 conjuncts is.
theorem of_fn {x : IVec S100000x1 32} {edge_index : IVec S2x1600000 32} {edge_attr : FVec Ideal S1600000x1 .f32}
    {batch : IVec S100000 32} {emb : FVec Ideal S512x128 .f32}
    {e1_w : FVec Ideal S128x1 .f32} {e1_b : FVec Ideal S128 .f32} {c1_w1 : FVec Ideal S128x128 .f32} {c1_b1 : FVec Ideal S128 .f32}
    {c1_g : FVec Ideal S128 .f32} {c1_be : FVec Ideal S128 .f32} {c1_w2 : FVec Ideal S128x128 .f32} {c1_b2 : FVec Ideal S128 .f32}
    {e2_w : FVec Ideal S128x1 .f32} {e2_b : FVec Ideal S128 .f32} {c2_w1 : FVec Ideal S128x128 .f32} {c2_b1 : FVec Ideal S128 .f32}
    {c2_g : FVec Ideal S128 .f32} {c2_be : FVec Ideal S128 .f32} {c2_w2 : FVec Ideal S128x128 .f32} {c2_b2 : FVec Ideal S128 .f32}
    {f_w1 : FVec Ideal S128x256 .f32} {f_b1 : FVec Ideal S128 .f32} {f_w2 : FVec Ideal S512x128 .f32} {f_b2 : FVec Ideal S512 .f32}
    {b_w1 : FVec Ideal S128x256 .f32} {b_b1 : FVec Ideal S128 .f32} {b_w2 : FVec Ideal S512x128 .f32} {b_b2 : FVec Ideal S512 .f32}
    (h : fn (F := Ideal) x edge_index edge_attr batch emb e1_w e1_b c1_w1 c1_b1 c1_g c1_be c1_w2 c1_b2 e2_w e2_b c2_w1 c2_b1 c2_g c2_be
      c2_w2 c2_b2 f_w1 f_b1 f_w2 f_b2 b_w1 b_b1 b_w2 b_b2 = fun _ => 1#1) :
    Holds x edge_index edge_attr emb e1_w e1_b c1_w1 c1_b1 c1_g c1_be c1_w2 c1_b2 e2_w e2_b c2_w1 c2_b1 c2_g c2_be c2_w2 c2_b2 := by
  have h0 := congrFun h ix0
  dsimp only [fn, fn_part1, fn_part2, fn_part3, fn_part4, fn_part5, fn_part6, fn_part7, fn_part8] at h0
  simp only [andi_ix0, IntOp.andi_eq_one] at h0
  obtain ⟨⟨⟨⟨⟨⟨⟨⟨⟨⟨⟨⟨⟨⟨⟨⟨⟨⟨⟨⟨⟨⟨⟨⟨⟨⟨⟨h1, h2⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩, h25⟩, h26⟩, h27⟩, h28⟩ := h0
  exact {
    edge_attr := isReal_of_all _ _ _ _ _ h1
    emb := isReal_of_all _ _ _ _ _ h2
    e1_w := isReal_of_all _ _ _ _ _ h3
    e1_b := isReal_of_all _ _ _ _ _ h4
    c1_w1 := isReal_of_all _ _ _ _ _ h5
    c1_b1 := isReal_of_all _ _ _ _ _ h6
    c1_g := isReal_of_all _ _ _ _ _ h7
    c1_be := isReal_of_all _ _ _ _ _ h8
    c1_w2 := isReal_of_all _ _ _ _ _ h9
    c1_b2 := isReal_of_all _ _ _ _ _ h10
    e2_w := isReal_of_all _ _ _ _ _ h11
    e2_b := isReal_of_all _ _ _ _ _ h12
    c2_w1 := isReal_of_all _ _ _ _ _ h13
    c2_b1 := isReal_of_all _ _ _ _ _ h14
    c2_g := isReal_of_all _ _ _ _ _ h15
    c2_be := isReal_of_all _ _ _ _ _ h16
    c2_w2 := isReal_of_all _ _ _ _ _ h17
    c2_b2 := isReal_of_all _ _ _ _ _ h18
    node_range := fun i => by
      have hr := range_of_all _ _ _ _ _ _ _ _ h27 (ix2 i 0)
      rwa [toInt_node_lo, toInt_node_hi] at hr
    src_range := fun e => by
      have hr := range_of_all _ _ _ _ _ _ _ _ h28 (ix1 e)
      rwa [src_read, toInt_src_lo, toInt_src_hi] at hr }

end Cert.PreFacts

end
-- ==== Proof.lean ====
import proofs.«414907_j52115133169838_1_alg».proof.Defs
import proofs.«414907_j52115133169838_1_alg».proof.Proof.Gen.Kernel
import proofs.«414907_j52115133169838_1_alg».proof.Proof.Gen.Kernel.Skeleton
import proofs.«414907_j52115133169838_1_alg».proof.Proof.Gen.Kernel.Launch
import proofs.«414907_j52115133169838_1_alg».proof.Proof.Gen.Kernel.Points
import proofs.«414907_j52115133169838_1_alg».proof.Proof.Gen.Kernel.Frame
import proofs.«414907_j52115133169838_1_alg».proof.Proof.Gen.KernelIdeal
import proofs.«414907_j52115133169838_1_alg».proof.Proof.Gen.KernelIdeal.Skeleton
import proofs.«414907_j52115133169838_1_alg».proof.Proof.Gen.KernelIdeal.Launch
import proofs.«414907_j52115133169838_1_alg».proof.Proof.Gen.KernelIdeal.Points
import proofs.«414907_j52115133169838_1_alg».proof.Proof.Gen.KernelIdeal.Frame
import proofs.«414907_j52115133169838_1_alg».proof.Proof.Gen.ReferenceIdeal
import proofs.«414907_j52115133169838_1_alg».proof.Proof.Gen.Pre_finite_inputs
import proofs.«414907_j52115133169838_1_alg».proof.Proof.RunNamed
import proofs.«414907_j52115133169838_1_alg».proof.Proof.KernelValue
import proofs.«414907_j52115133169838_1_alg».proof.Proof.RefRun
import proofs.«414907_j52115133169838_1_alg».proof.Proof.RefNet
import proofs.«414907_j52115133169838_1_alg».proof.Proof.OpsAgree
import proofs.«414907_j52115133169838_1_alg».proof.Proof.OpsReal
import proofs.«414907_j52115133169838_1_alg».proof.Proof.PreFacts
import Idealize.ShloMosaic.Adequacy
import Idealize.ShloMosaic.Init

noncomputable section

namespace Cert.Proof

open Idealize.ShloMosaic Idealize.SL.Sem

theorem frame_kernel : frame_Kernel (hKernel := Kernel.Gen.facts) (hPre_finite_inputs := Pre_finite_inputs.Gen.facts) :=
  fun m ρ _ => Kernel.Gen.frame m ρ

theorem frame_kernelIdeal : frame_KernelIdeal (hKernelIdeal := KernelIdeal.Gen.facts) (hPre_finite_inputs := Pre_finite_inputs.Gen.facts) :=
  fun m ρ _ => KernelIdeal.Gen.frame m ρ

theorem frame_reference : frame_ReferenceIdeal (hReferenceIdeal := ReferenceIdeal.Gen.facts) (hPre_finite_inputs := Pre_finite_inputs.Gen.facts) :=
  fun m ρ _ => (θ_run ReferenceIdeal.defs _ _).mono (fun _ h c => (h c).2.2) (ReferenceIdeal.HandRun.run (F := Ideal) m ρ)

-- Both results are the one network of the arguments: the reference's under the mean of squared deviations, the kernel's
-- under the mean of squares; real arguments make the two variances equal, and in-range index words the two lookups.
theorem algebraic : algebraic_KernelIdeal_ReferenceIdeal (hKernelIdeal := KernelIdeal.Gen.facts)
    (hReferenceIdeal := ReferenceIdeal.Gen.facts) (hPre_finite_inputs := Pre_finite_inputs.Gen.facts) := by
  intro m ρ m' ρ' hpre hagree
  refine ⟨fun c => KernelIdeal.Gen.W16 m ρ c (Proc.devRef .tc KernelIdeal.main_v43_0),
    fun c => KernelIdeal.Gen.W16 m ρ c (Proc.devRef .tc KernelIdeal.main_v43_1), KernelIdeal.RunNamed.run_named m ρ, ?_⟩
  refine (θ_run ReferenceIdeal.defs _ _).mono (fun r h c => ?_) (ReferenceIdeal.HandRun.run (F := Ideal) m' ρ')
  have H := PreFacts.of_fn (hpre c)
  obtain ⟨a0, a1, a2, a3, a4, a5, a6, a7, a8, a9, a10, a11, a12, a13, a14, a15, a16, a17, a18, a19, a20, a21, a22, a23, a24, a25, a26, a27, a28⟩ := hagree c
  have hR := ReferenceIdeal.NetResults.results m' c
  have ex : ReferenceIdeal.Args.x m' c = KernelIdeal.Args.x m c := a0
  have eei : ReferenceIdeal.Args.ei m' c = KernelIdeal.Args.ei m c := a1
  have eea : ReferenceIdeal.Args.ea m' c = KernelIdeal.Args.ea m c := a2
  have eb : ReferenceIdeal.Args.batch m' c = KernelIdeal.Args.batch m c := a3
  have eemb : ReferenceIdeal.Args.emb m' c = KernelIdeal.Args.emb m c := a4
  have eP1 : ReferenceIdeal.Args.P1 m' c = KernelIdeal.Args.P1 m c := by
    unfold ReferenceIdeal.Args.P1 KernelIdeal.Args.P1; congr 1
  have eP2 : ReferenceIdeal.Args.P2 m' c = KernelIdeal.Args.P2 m c := by
    unfold ReferenceIdeal.Args.P2 KernelIdeal.Args.P2; congr 1
  have eHF : ReferenceIdeal.Args.HF m' c = KernelIdeal.Args.HF m c := by
    unfold ReferenceIdeal.Args.HF KernelIdeal.Args.HF; congr 1
  have eHB : ReferenceIdeal.Args.HB m' c = KernelIdeal.Args.HB m c := by
    unfold ReferenceIdeal.Args.HB KernelIdeal.Args.HB; congr 1
  conv at hR => rhs; rw [ex, eei, eea, eb, eemb, eP1, eP2, eHF, eHB]
  have hvar := Net.net_varSq_eq_varDev RefOps.ops (KernelIdeal.Args.x m c) (KernelIdeal.Args.ei m c) (KernelIdeal.Args.ea m c) (KernelIdeal.Args.batch m c) (KernelIdeal.Args.emb m c)
    (KernelIdeal.Args.P1 m c) (KernelIdeal.Args.P2 m c) (KernelIdeal.Args.HF m c) (KernelIdeal.Args.HB m c)
    ⟨fun t ht => OpsReal.gatherNodes_real (KernelIdeal.Args.x m c) t ht, fun h hh => OpsReal.gatherEdges_real (KernelIdeal.Args.ei m c) h hh,
      fun u hu => OpsReal.scatterEdges_real (KernelIdeal.Args.ei m c) u hu⟩
    H.edge_attr H.emb ⟨H.e1_w, H.e1_b, H.c1_w1, H.c1_b1, H.c1_g, H.c1_be, H.c1_w2, H.c1_b2⟩
    ⟨H.e2_w, H.e2_b, H.c2_w1, H.c2_b1, H.c2_g, H.c2_be, H.c2_w2, H.c2_b2⟩
  have hops := Net.net_congr_ops Spec.colVarSq KernelOps.gatherNodes RefOps.gatherNodes KernelOps.gatherEdges RefOps.gatherEdges
    KernelOps.scatterEdges RefOps.scatterEdges KernelOps.pool RefOps.pool KernelOps.join RefOps.join
    (KernelIdeal.Args.x m c) (KernelIdeal.Args.ei m c) (KernelIdeal.Args.ea m c) (KernelIdeal.Args.batch m c) (KernelIdeal.Args.emb m c)
    (KernelIdeal.Args.P1 m c) (KernelIdeal.Args.P2 m c) (KernelIdeal.Args.HF m c) (KernelIdeal.Args.HB m c)
    (OpsAgree.gatherNodes_eq _ H.node_range) (OpsAgree.gatherEdges_eq _ H.src_range)
    (fun u => congrFun (congrFun OpsAgree.scatterEdges_eq u) _) OpsAgree.pool_eq OpsAgree.join_eq
  have hpair := hR.trans (hvar.symm.trans (hops.symm.trans (KernelIdeal.Value.results m ρ c).symm))
  exact ⟨(h c).1.trans (Prod.mk.inj hpair).1, (h c).2.1.trans (Prod.mk.inj hpair).2, (h c).2.2⟩

theorem claim : Claim :=
  ⟨Kernel.Gen.facts, KernelIdeal.Gen.facts, ReferenceIdeal.Gen.facts, Pre_finite_inputs.Gen.facts,
    frame_kernel, frame_kernelIdeal, frame_reference, trivial, algebraic⟩

end Cert.Proof

end
